-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v88)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v88) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v170) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S50000 : Shape := ⟨1, ![50000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part3 {F : FTy → Type} [FloatOps F] (main_arg13 : FVec F S128 .f32) (main_arg14 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg14
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  main_v63

def fn_part2 {F : FTy → Type} [FloatOps F] (main_arg9 : FVec F S128 .f32) (main_arg10 : FVec F S128 .f32) (main_arg11 : FVec F S128x128 .f32) (main_arg12 : FVec F S128 .f32) (main_arg13 : FVec F S128 .f32) (main_arg14 : FVec F S128 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg11
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg13 main_arg14 main_v48 main_v49 main_v50

def fn_part1 {F : FTy → Type} [FloatOps F] (main_arg6 : FVec F S128 .f32) (main_arg7 : FVec F S128x128 .f32) (main_arg8 : FVec F S128 .f32) (main_arg9 : FVec F S128 .f32) (main_arg10 : FVec F S128 .f32) (main_arg11 : FVec F S128x128 .f32) (main_arg12 : FVec F S128 .f32) (main_arg13 : FVec F S128 .f32) (main_arg14 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_arg13 main_arg14 main_v33

def fn {F : FTy → Type} [FloatOps F] (main_arg0 : FVec F S50000x128 .f32) (main_arg1 : IVec S2x600000 32) (main_arg2 : IVec S50000 32) (main_arg3 : FVec F S128x128 .f32) (main_arg4 : FVec F S128 .f32) (main_arg5 : FVec F S128 .f32) (main_arg6 : FVec F S128 .f32) (main_arg7 : FVec F S128x128 .f32) (main_arg8 : FVec F S128 .f32) (main_arg9 : FVec F S128 .f32) (main_arg10 : FVec F S128 .f32) (main_arg11 : FVec F S128x128 .f32) (main_arg12 : FVec F S128 .f32) (main_arg13 : FVec F S128 .f32) (main_arg14 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_arg12 main_arg13 main_arg14 main_v13 main_v16
-- ==== Kernel.lean ====
abbrev S50000x128 : Shape := ⟨2, ![50000, 128]⟩
abbrev S2x600000 : Shape := ⟨2, ![2, 600000]⟩
abbrev S50000 : Shape := ⟨1, ![50000]⟩
abbrev S128x128 : Shape := ⟨2, ![128, 128]⟩
abbrev S128 : Shape := ⟨1, ![128]⟩
abbrev S1x600000 : Shape := ⟨2, ![1, 600000]⟩
abbrev S600000 : Shape := ⟨1, ![600000]⟩
abbrev S650000 : Shape := ⟨1, ![650000]⟩
abbrev S_ : Shape := ⟨0, ![]⟩
abbrev S650000x1 : Shape := ⟨2, ![650000, 1]⟩
abbrev S600000x1 : Shape := ⟨2, ![600000, 1]⟩
abbrev S50000x1 : Shape := ⟨2, ![50000, 1]⟩
abbrev S600000x128 : Shape := ⟨2, ![600000, 128]⟩
abbrev S1x128 : Shape := ⟨2, ![1, 128]⟩
abbrev S2000x128 : Shape := ⟨2, ![2000, 128]⟩
abbrev S2000x1 : Shape := ⟨2, ![2000, 1]⟩
abbrev S2000 : Shape := ⟨1, ![2000]⟩
abbrev S128x1 : Shape := ⟨2, ![128, 1]⟩

abbrev nBuf : Space → Nat
  | .hbm => 126
  | .vmem => 49
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S50000, .i32⟩
  | .hbm, ⟨3, _⟩ => ⟨S128x128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S128, .f32⟩
  | .hbm, ⟨14, _⟩ => ⟨S128, .f32⟩
  | .hbm, ⟨15, _⟩ => ⟨S50000, .i32⟩
  | .hbm, ⟨16, _⟩ => ⟨S1x600000, .i32⟩
  | .hbm, ⟨17, _⟩ => ⟨S600000, .i32⟩
  | .hbm, ⟨18, _⟩ => ⟨S1x600000, .i32⟩
  | .hbm, ⟨19, _⟩ => ⟨S600000, .i32⟩
  | .hbm, ⟨20, _⟩ => ⟨S650000, .i32⟩
  | .hbm, ⟨21, _⟩ => ⟨S650000, .i32⟩
  | .hbm, ⟨22, _⟩ => ⟨S_, .f32⟩
  | .hbm, ⟨23, _⟩ => ⟨S650000, .f32⟩
  | .hbm, ⟨24, _⟩ => ⟨S_, .f32⟩
  | .hbm, ⟨25, _⟩ => ⟨S50000, .f32⟩
  | .hbm, ⟨26, _⟩ => ⟨S650000x1, .i32⟩
  | .hbm, ⟨27, _⟩ => ⟨S50000, .f32⟩
  | .hbm, ⟨28, _⟩ => ⟨S_, .f32⟩
  | .hbm, ⟨29, _⟩ => ⟨S50000, .f32⟩
  | .hbm, ⟨30, _⟩ => ⟨S50000, .i1⟩
  | .hbm, ⟨31, _⟩ => ⟨S50000, .f32⟩
  | .hbm, ⟨32, _⟩ => ⟨S_, .f32⟩
  | .hbm, ⟨33, _⟩ => ⟨S_, .f32⟩
  | .hbm, ⟨34, _⟩ => ⟨S50000, .f32⟩
  | .hbm, ⟨35, _⟩ => ⟨S50000, .f32⟩
  | .hbm, ⟨36, _⟩ => ⟨S_, .i32⟩
  | .hbm, ⟨37, _⟩ => ⟨S600000, .i32⟩
  | .hbm, ⟨38, _⟩ => ⟨S600000, .i1⟩
  | .hbm, ⟨39, _⟩ => ⟨S_, .i32⟩
  | .hbm, ⟨40, _⟩ => ⟨S600000, .i32⟩
  | .hbm, ⟨41, _⟩ => ⟨S600000, .i32⟩
  | .hbm, ⟨42, _⟩ => ⟨S600000, .i32⟩
  | .hbm, ⟨43, _⟩ => ⟨S600000x1, .i32⟩
  | .hbm, ⟨44, _⟩ => ⟨S600000, .f32⟩
  | .hbm, ⟨45, _⟩ => ⟨S_, .i32⟩
  | .hbm, ⟨46, _⟩ => ⟨S600000, .i32⟩
  | .hbm, ⟨47, _⟩ => ⟨S600000, .i1⟩
  | .hbm, ⟨48, _⟩ => ⟨S_, .i32⟩
  | .hbm, ⟨49, _⟩ => ⟨S600000, .i32⟩
  | .hbm, ⟨50, _⟩ => ⟨S600000, .i32⟩
  | .hbm, ⟨51, _⟩ => ⟨S600000, .i32⟩
  | .hbm, ⟨52, _⟩ => ⟨S600000x1, .i32⟩
  | .hbm, ⟨53, _⟩ => ⟨S600000, .f32⟩
  | .hbm, ⟨54, _⟩ => ⟨S600000, .f32⟩
  | .hbm, ⟨55, _⟩ => ⟨S50000, .f32⟩
  | .hbm, ⟨56, _⟩ => ⟨S50000x1, .f32⟩
  | .hbm, ⟨57, _⟩ => ⟨S50000x128, .bf16⟩
  | .hbm, ⟨58, _⟩ => ⟨S_, .i32⟩
  | .hbm, ⟨59, _⟩ => ⟨S600000, .i32⟩
  | .hbm, ⟨60, _⟩ => ⟨S600000, .i1⟩
  | .hbm, ⟨61, _⟩ => ⟨S_, .i32⟩
  | .hbm, ⟨62, _⟩ => ⟨S600000, .i32⟩
  | .hbm, ⟨63, _⟩ => ⟨S600000, .i32⟩
  | .hbm, ⟨64, _⟩ => ⟨S600000, .i32⟩
  | .hbm, ⟨65, _⟩ => ⟨S600000x1, .i32⟩
  | .hbm, ⟨66, _⟩ => ⟨S600000x128, .bf16⟩
  | .hbm, ⟨67, _⟩ => ⟨S600000x128, .f32⟩
  | .hbm, ⟨68, _⟩ => ⟨S600000x1, .f32⟩
  | .hbm, ⟨69, _⟩ => ⟨S600000x128, .f32⟩
  | .hbm, ⟨70, _⟩ => ⟨S600000x128, .f32⟩
  | .hbm, ⟨71, _⟩ => ⟨S_, .f32⟩
  | .hbm, ⟨72, _⟩ => ⟨S50000x128, .f32⟩
  | .hbm, ⟨73, _⟩ => ⟨S600000x1, .i32⟩
  | .hbm, ⟨74, _⟩ => ⟨S50000x128, .f32⟩
  | .hbm, ⟨75, _⟩ => ⟨S1x128, .f32⟩
  | .hbm, ⟨76, _⟩ => ⟨S1x128, .f32⟩
  | .hbm, ⟨77, _⟩ => ⟨S1x128, .f32⟩
  | .hbm, ⟨78, _⟩ => ⟨S50000x128, .f32⟩
  | .hbm, ⟨79, _⟩ => ⟨S50000x128, .bf16⟩
  | .hbm, ⟨80, _⟩ => ⟨S_, .i32⟩
  | .hbm, ⟨81, _⟩ => ⟨S600000, .i32⟩
  | .hbm, ⟨82, _⟩ => ⟨S600000, .i1⟩
  | .hbm, ⟨83, _⟩ => ⟨S_, .i32⟩
  | .hbm, ⟨84, _⟩ => ⟨S600000, .i32⟩
  | .hbm, ⟨85, _⟩ => ⟨S600000, .i32⟩
  | .hbm, ⟨86, _⟩ => ⟨S600000, .i32⟩
  | .hbm, ⟨87, _⟩ => ⟨S600000x1, .i32⟩
  | .hbm, ⟨88, _⟩ => ⟨S600000x128, .bf16⟩
  | .hbm, ⟨89, _⟩ => ⟨S600000x128, .f32⟩
  | .hbm, ⟨90, _⟩ => ⟨S600000x1, .f32⟩
  | .hbm, ⟨91, _⟩ => ⟨S600000x128, .f32⟩
  | .hbm, ⟨92, _⟩ => ⟨S600000x128, .f32⟩
  | .hbm, ⟨93, _⟩ => ⟨S_, .f32⟩
  | .hbm, ⟨94, _⟩ => ⟨S50000x128, .f32⟩
  | .hbm, ⟨95, _⟩ => ⟨S600000x1, .i32⟩
  | .hbm, ⟨96, _⟩ => ⟨S50000x128, .f32⟩
  | .hbm, ⟨97, _⟩ => ⟨S1x128, .f32⟩
  | .hbm, ⟨98, _⟩ => ⟨S1x128, .f32⟩
  | .hbm, ⟨99, _⟩ => ⟨S1x128, .f32⟩
  | .hbm, ⟨100, _⟩ => ⟨S50000x128, .f32⟩
  | .hbm, ⟨101, _⟩ => ⟨S50000x128, .bf16⟩
  | .hbm, ⟨102, _⟩ => ⟨S_, .i32⟩
  | .hbm, ⟨103, _⟩ => ⟨S600000, .i32⟩
  | .hbm, ⟨104, _⟩ => ⟨S600000, .i1⟩
  | .hbm, ⟨105, _⟩ => ⟨S_, .i32⟩
  | .hbm, ⟨106, _⟩ => ⟨S600000, .i32⟩
  | .hbm, ⟨107, _⟩ => ⟨S600000, .i32⟩
  | .hbm, ⟨108, _⟩ => ⟨S600000, .i32⟩
  | .hbm, ⟨109, _⟩ => ⟨S600000x1, .i32⟩
  | .hbm, ⟨110, _⟩ => ⟨S600000x128, .bf16⟩
  | .hbm, ⟨111, _⟩ => ⟨S600000x128, .f32⟩
  | .hbm, ⟨112, _⟩ => ⟨S600000x1, .f32⟩
  | .hbm, ⟨113, _⟩ => ⟨S600000x128, .f32⟩
  | .hbm, ⟨114, _⟩ => ⟨S600000x128, .f32⟩
  | .hbm, ⟨115, _⟩ => ⟨S_, .f32⟩
  | .hbm, ⟨116, _⟩ => ⟨S50000x128, .f32⟩
  | .hbm, ⟨117, _⟩ => ⟨S600000x1, .i32⟩
  | .hbm, ⟨118, _⟩ => ⟨S50000x128, .f32⟩
  | .hbm, ⟨119, _⟩ => ⟨S1x128, .f32⟩
  | .hbm, ⟨120, _⟩ => ⟨S1x128, .f32⟩
  | .hbm, ⟨121, _⟩ => ⟨S1x128, .f32⟩
  | .hbm, ⟨122, _⟩ => ⟨S50000x128, .f32⟩
  | .hbm, ⟨123, _⟩ => ⟨S50000x128, .bf16⟩
  | .hbm, ⟨124, _⟩ => ⟨S50000x1, .i32⟩
  | .hbm, ⟨125, _⟩ => ⟨S128x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S2000x1, .f32⟩
  | .local _ .vmem, ⟨5, _⟩ => ⟨S2000x1, .f32⟩
  | .local _ .vmem, ⟨6, _⟩ => ⟨S128x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S2000x128, .f32⟩
  | .local _ .vmem, ⟨11, _⟩ => ⟨S2000x128, .f32⟩
  | .local _ .vmem, ⟨12, _⟩ => ⟨S2000x128, .bf16⟩
  | .local _ .vmem, ⟨13, _⟩ => ⟨S2000x128, .bf16⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S2000x128, .f32⟩
  | .local _ .vmem, ⟨18, _⟩ => ⟨S2000x1, .f32⟩
  | .local _ .vmem, ⟨19, _⟩ => ⟨S2000x1, .f32⟩
  | .local _ .vmem, ⟨20, _⟩ => ⟨S128x128, .f32⟩
  | .local _ .vmem, ⟨21, _⟩ => ⟨S1x128, .f32⟩
  | .local _ .vmem, ⟨22, _⟩ => ⟨S1x128, .f32⟩
  | .local _ .vmem, ⟨23, _⟩ => ⟨S1x128, .f32⟩
  | .local _ .vmem, ⟨24, _⟩ => ⟨S2000x128, .f32⟩
  | .local _ .vmem, ⟨25, _⟩ => ⟨S2000x128, .f32⟩
  | .local _ .vmem, ⟨26, _⟩ => ⟨S2000x128, .bf16⟩
  | .local _ .vmem, ⟨27, _⟩ => ⟨S2000x128, .bf16⟩
  | .local _ .vmem, ⟨28, _⟩ => ⟨S2000x128, .f32⟩
  | .local _ .vmem, ⟨29, _⟩ => ⟨S2000x128, .f32⟩
  | .local _ .vmem, ⟨30, _⟩ => ⟨S2000x128, .f32⟩
  | .local _ .vmem, ⟨31, _⟩ => ⟨S2000x128, .f32⟩
  | .local _ .vmem, ⟨32, _⟩ => ⟨S2000x1, .f32⟩
  | .local _ .vmem, ⟨33, _⟩ => ⟨S2000x1, .f32⟩
  | .local _ .vmem, ⟨34, _⟩ => ⟨S128x128, .f32⟩
  | .local _ .vmem, ⟨35, _⟩ => ⟨S1x128, .f32⟩
  | .local _ .vmem, ⟨36, _⟩ => ⟨S1x128, .f32⟩
  | .local _ .vmem, ⟨37, _⟩ => ⟨S1x128, .f32⟩
  | .local _ .vmem, ⟨38, _⟩ => ⟨S2000x128, .f32⟩
  | .local _ .vmem, ⟨39, _⟩ => ⟨S2000x128, .f32⟩
  | .local _ .vmem, ⟨40, _⟩ => ⟨S2000x128, .bf16⟩
  | .local _ .vmem, ⟨41, _⟩ => ⟨S2000x128, .bf16⟩
  | .local _ .vmem, ⟨42, _⟩ => ⟨S2000x128, .f32⟩
  | .local _ .vmem, ⟨43, _⟩ => ⟨S2000x128, .f32⟩
  | .local _ .vmem, ⟨44, _⟩ => ⟨S2000x1, .i32⟩
  | .local _ .vmem, ⟨45, _⟩ => ⟨S2000x1, .i32⟩
  | .local _ .vmem, ⟨46, _⟩ => ⟨S128x128, .f32⟩
  | .local _ .vmem, ⟨47, _⟩ => ⟨S128x128, .f32⟩
  | .local _ .vmem, ⟨48, _⟩ => ⟨S1x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | _, _ => false

abbrev semScoped : Fin 0 → Bool
  | ⟨_, h⟩ => absurd h (Nat.not_lt_zero _)

abbrev dmaSemScoped : Fin 47 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | _ => false

abbrev sig : RefSig :=
  ofTc nBuf bufTy 0 47 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst : Ref sig .tc := ⟨.hbm, 22, rfl⟩
abbrev main_v7 : Ref sig .tc := ⟨.hbm, 23, rfl⟩
abbrev main_cst_0 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst_1 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_cst_2 : Ref sig .tc := ⟨.hbm, 32, rfl⟩
abbrev main_call0_v0 : Ref sig .tc := ⟨.hbm, 33, rfl⟩
abbrev main_call0_v1 : Ref sig .tc := ⟨.hbm, 34, rfl⟩
abbrev main_v14 : Ref sig .tc := ⟨.hbm, 35, rfl⟩
abbrev main_c : Ref sig .tc := ⟨.hbm, 36, rfl⟩
abbrev main_v15 : Ref sig .tc := ⟨.hbm, 37, rfl⟩
abbrev main_v16 : Ref sig .tc := ⟨.hbm, 38, rfl⟩
abbrev main_c_3 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_c_4 : Ref sig .tc := ⟨.hbm, 45, rfl⟩
abbrev main_v22 : Ref sig .tc := ⟨.hbm, 46, rfl⟩
abbrev main_v23 : Ref sig .tc := ⟨.hbm, 47, rfl⟩
abbrev main_c_5 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_c_6 : Ref sig .tc := ⟨.hbm, 58, rfl⟩
abbrev main_v33 : Ref sig .tc := ⟨.hbm, 59, rfl⟩
abbrev main_v34 : Ref sig .tc := ⟨.hbm, 60, rfl⟩
abbrev main_c_7 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_cst_8 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50_0 : Ref sig .tc := ⟨.hbm, 78, rfl⟩
abbrev main_v50_1 : Ref sig .tc := ⟨.hbm, 79, rfl⟩
abbrev main_c_9 : Ref sig .tc := ⟨.hbm, 80, rfl⟩
abbrev main_v51 : Ref sig .tc := ⟨.hbm, 81, rfl⟩
abbrev main_v52 : Ref sig .tc := ⟨.hbm, 82, rfl⟩
abbrev main_c_10 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_cst_11 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68_0 : Ref sig .tc := ⟨.hbm, 100, rfl⟩
abbrev main_v68_1 : Ref sig .tc := ⟨.hbm, 101, rfl⟩
abbrev main_c_12 : Ref sig .tc := ⟨.hbm, 102, rfl⟩
abbrev main_v69 : Ref sig .tc := ⟨.hbm, 103, rfl⟩
abbrev main_v70 : Ref sig .tc := ⟨.hbm, 104, rfl⟩
abbrev main_c_13 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_cst_14 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86_0 : Ref sig .tc := ⟨.hbm, 122, rfl⟩
abbrev main_v86_1 : Ref sig .tc := ⟨.hbm, 123, rfl⟩
abbrev main_v87 : Ref sig .tc := ⟨.hbm, 124, rfl⟩
abbrev main_v88 : Ref sig .tc := ⟨.hbm, 125, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg4_0 : Ref sig .tc := ⟨.vmem, 21, rfl⟩
abbrev cc1_stg5_0 : Ref sig .tc := ⟨.vmem, 22, rfl⟩
abbrev cc1_stg6_0 : Ref sig .tc := ⟨.vmem, 23, rfl⟩
abbrev cc1_stg7_0 : Ref sig .tc := ⟨.vmem, 24, rfl⟩
abbrev cc1_stg7_1 : Ref sig .tc := ⟨.vmem, 25, rfl⟩
abbrev cc1_stg8_0 : Ref sig .tc := ⟨.vmem, 26, rfl⟩
abbrev cc1_stg8_1 : Ref sig .tc := ⟨.vmem, 27, rfl⟩
abbrev cc2_stg0_0 : Ref sig .tc := ⟨.vmem, 28, rfl⟩
abbrev cc2_stg0_1 : Ref sig .tc := ⟨.vmem, 29, rfl⟩
abbrev cc2_stg1_0 : Ref sig .tc := ⟨.vmem, 30, rfl⟩
abbrev cc2_stg1_1 : Ref sig .tc := ⟨.vmem, 31, rfl⟩
abbrev cc2_stg2_0 : Ref sig .tc := ⟨.vmem, 32, rfl⟩
abbrev cc2_stg2_1 : Ref sig .tc := ⟨.vmem, 33, rfl⟩
abbrev cc2_stg3_0 : Ref sig .tc := ⟨.vmem, 34, rfl⟩
abbrev cc2_stg4_0 : Ref sig .tc := ⟨.vmem, 35, rfl⟩
abbrev cc2_stg5_0 : Ref sig .tc := ⟨.vmem, 36, rfl⟩
abbrev cc2_stg6_0 : Ref sig .tc := ⟨.vmem, 37, rfl⟩
abbrev cc2_stg7_0 : Ref sig .tc := ⟨.vmem, 38, rfl⟩
abbrev cc2_stg7_1 : Ref sig .tc := ⟨.vmem, 39, rfl⟩
abbrev cc2_stg8_0 : Ref sig .tc := ⟨.vmem, 40, rfl⟩
abbrev cc2_stg8_1 : Ref sig .tc := ⟨.vmem, 41, rfl⟩
abbrev cc3_stg0_0 : Ref sig .tc := ⟨.vmem, 42, rfl⟩
abbrev cc3_stg0_1 : Ref sig .tc := ⟨.vmem, 43, rfl⟩
abbrev cc3_stg1_0 : Ref sig .tc := ⟨.vmem, 44, rfl⟩
abbrev cc3_stg1_1 : Ref sig .tc := ⟨.vmem, 45, rfl⟩
abbrev cc3_stg2_0 : Ref sig .tc := ⟨.vmem, 46, rfl⟩
abbrev cc3_scratch0 : Ref sig .tc := ⟨.vmem, 47, rfl⟩
abbrev cc3_scratch1 : Ref sig .tc := ⟨.vmem, 48, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem4_0 : DmaSem sig := 21
abbrev cc1_sem5_0 : DmaSem sig := 22
abbrev cc1_sem6_0 : DmaSem sig := 23
abbrev cc1_sem7_0 : DmaSem sig := 24
abbrev cc1_sem7_1 : DmaSem sig := 25
abbrev cc1_sem8_0 : DmaSem sig := 26
abbrev cc1_sem8_1 : DmaSem sig := 27
abbrev cc2_sem0_0 : DmaSem sig := 28
abbrev cc2_sem0_1 : DmaSem sig := 29
abbrev cc2_sem1_0 : DmaSem sig := 30
abbrev cc2_sem1_1 : DmaSem sig := 31
abbrev cc2_sem2_0 : DmaSem sig := 32
abbrev cc2_sem2_1 : DmaSem sig := 33
abbrev cc2_sem3_0 : DmaSem sig := 34
abbrev cc2_sem4_0 : DmaSem sig := 35
abbrev cc2_sem5_0 : DmaSem sig := 36
abbrev cc2_sem6_0 : DmaSem sig := 37
abbrev cc2_sem7_0 : DmaSem sig := 38
abbrev cc2_sem7_1 : DmaSem sig := 39
abbrev cc2_sem8_0 : DmaSem sig := 40
abbrev cc2_sem8_1 : DmaSem sig := 41
abbrev cc3_sem0_0 : DmaSem sig := 42
abbrev cc3_sem0_1 : DmaSem sig := 43
abbrev cc3_sem1_0 : DmaSem sig := 44
abbrev cc3_sem1_1 : DmaSem sig := 45
abbrev cc3_sem2_0 : DmaSem sig := 46

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2000x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S2000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S2000x128 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S2000x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 2 → Memref sig .tc .vmem S2000x128 .bf16 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev grid3 : Pipeline.Grid := ⟨1, ![25], ![false]⟩

def k3_cond2 (i : grid3.Coords) : BitVec 1 :=
  let arg0 : BitVec 32 := BitVec.ofNat 32 (i 0).val
  let c24_i32 : BitVec 32 := 24#32
  let v27 : BitVec 1 := Scalar.cmpi .eq arg0 c24_i32
  let v28 : BitVec 32 := Scalar.extui v27
  let c0_i32_13 : BitVec 32 := 0#32
  let v29 : BitVec 1 := Scalar.cmpi .ne v28 c0_i32_13
  v29

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x1 .i32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  concatenates_S600000_S50000_S650000_d0 : Shape.Concatenates [S600000, S50000] S650000 0
  bcast_S_S650000 : S_.BroadcastsInDim S650000 (![] : Fin 0 → Fin S650000.rank)
  bcast_S_S50000 : S_.BroadcastsInDim S50000 (![] : Fin 0 → Fin S50000.rank)
  bcast_S650000_S650000x1_0 : S650000.BroadcastsInDim S650000x1 (![0] : Fin 1 → Fin S650000x1.rank)
  bcast_S_S600000 : S_.BroadcastsInDim S600000 (![] : Fin 0 → Fin S600000.rank)
  bcast_S600000_S600000x1_0 : S600000.BroadcastsInDim S600000x1 (![0] : Fin 1 → Fin S600000x1.rank)
  shapeCasts_S50000_S50000x1 : S50000.ShapeCasts S50000x1
  bitsLt_bf16_f32 : FTy.bits .bf16 < FTy.bits .f32
  bcast_S600000x1_S600000x128_0_1 : S600000x1.BroadcastsInDim S600000x128 (![0, 1] : Fin 2 → Fin S600000x128.rank)
  bcast_S_S50000x128 : S_.BroadcastsInDim S50000x128 (![] : Fin 0 → Fin S50000x128.rank)
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  reduces_S2000x128_S2000 : S2000x128.Reduces [1] S2000
  shapeCasts_S2000_S2000x1 : S2000.ShapeCasts S2000x1
  packedbf16_S2000x128_S2000x128_0_0 : (Rect.unit (s := S2000x128) ![0, 0] S2000x128.size inb_S2000x128_S2000x128_0_0).PackedRows (EltTy.packing .bf16)
  shapeCasts_S128x128_S128x128 : S128x128.ShapeCasts S128x128
  iota_S2000x128_d1_w32 : S2000x128.Iotas .tc 32 [1]
  natLt_1_32 : 1 < 32
  reduces_S2000x128_S128 : S2000x128.Reduces [0] S128
  transposes_S1x128_p1_0_S128x1 : S1x128.Transposes [1, 0] S128x1
  broadcasts_S128x1_S128x128 : S128x1.Broadcasts S128x128
  scatter_S50000_S650000x1_S650000_n_0_0_1_wf : ScatterDims.WF S50000 S650000x1 S650000 [] [0] [0] 1
  gather_S50000_S600000x1_S600000_n_0_n_n_0_1_1_wf : GatherDims.WF S50000 S600000x1 S600000 [] [0] [] [0] [] 1 ![1]
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S2000x128_S128x128_S2000x128_1_0_0_1_n_n_wf : DotDims.WF S2000x128 S128x128 S2000x128 [1] [0] [0] [1] [] []
  dot_S2000x128_S2000x128_S128x128_0_0_1_1_n_n_wf : DotDims.WF S2000x128 S2000x128 S128x128 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S50000x1.size a
  hwx0_2 : ∀ i : grid0.Coords, EltTy.bits .f32 = 32 ∨ (Rect.block (s := S50000x1) S2000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2000x128.size a ≤ S50000x128.size a
  hwx0_7 : ∀ i : grid0.Coords, EltTy.bits .f32 = 32 ∨ (Rect.block (s := S50000x128) S2000x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2000x128.size a ≤ S50000x128.size a
  hwx0_8 : ∀ i : grid0.Coords, EltTy.bits .bf16 = 32 ∨ (Rect.block (s := S50000x128) S2000x128.size (cc0_transform_8 i) (hinb0_8 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S50000x1.size a
  hwx1_2 : ∀ i : grid1.Coords, EltTy.bits .f32 = 32 ∨ (Rect.block (s := S50000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S2000x128.size a ≤ S50000x128.size a
  hwx1_7 : ∀ i : grid1.Coords, EltTy.bits .f32 = 32 ∨ (Rect.block (s := S50000x128) S2000x128.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S2000x128.size a ≤ S50000x128.size a
  hwx1_8 : ∀ i : grid1.Coords, EltTy.bits .bf16 = 32 ∨ (Rect.block (s := S50000x128) S2000x128.size (cc1_transform_8 i) (hinb1_8 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S50000x128.size a
  hwx2_1 : ∀ i : grid2.Coords, EltTy.bits .f32 = 32 ∨ (Rect.block (s := S50000x128) S2000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x1.size a ≤ S50000x1.size a
  hwx2_2 : ∀ i : grid2.Coords, EltTy.bits .f32 = 32 ∨ (Rect.block (s := S50000x1) S2000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S2000x128.size a ≤ S50000x128.size a
  hwx2_7 : ∀ i : grid2.Coords, EltTy.bits .f32 = 32 ∨ (Rect.block (s := S50000x128) S2000x128.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S2000x128.size a ≤ S50000x128.size a
  hwx2_8 : ∀ i : grid2.Coords, EltTy.bits .bf16 = 32 ∨ (Rect.block (s := S50000x128) S2000x128.size (cc2_transform_8 i) (hinb2_8 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x1.size a ≤ S50000x1.size a
  hwx3_1 : ∀ i : grid3.Coords, EltTy.bits .i32 = 32 ∨ (Rect.block (s := S50000x1) S2000x1.size (cc3_transform_1 i) (hinb3_1 i)).WholeWords (EltTy.packing .i32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)

variable [Facts₀]

def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def gather_S50000_S600000x1_S600000_n_0_n_n_0_1_1 : GatherDims S50000 S600000x1 S600000 where
  offsetDims := []
  collapsedSliceDims := [0]
  operandBatchingDims := []
  startIndicesBatchingDims := []
  startIndexMap := [0]
  indexVectorDim := 1
  sliceSizes := ![1]
  wf := gather_S50000_S600000x1_S600000_n_0_n_n_0_1_1_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S2000x128_S128x128_0_0_1_1_n_n : DotDims S2000x128 S2000x128 S128x128 where
  lhsContracting := [0]
  rhsContracting := [0]
  lhsNonContracting := [1]
  rhsNonContracting := [1]
  lhsBatch := []
  rhsBatch := []
  wf := dot_S2000x128_S2000x128_S128x128_0_0_1_1_n_n_wf

abbrev win0_0 : Pipeline.Window sig grid0 :=
  Pipeline.Window.ofSpec (Memref.whole main_v46) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v31) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v47) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v48) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v49) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v50_0) S2000x128.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v50_1) S2000x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v64) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v50_0) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v31) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v65) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v66) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v67) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v68_0) S2000x128.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v68_1) S2000x128.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev win2_0 : Pipeline.Window sig grid2 :=
  Pipeline.Window.ofSpec (Memref.whole main_v82) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v68_0) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v31) S2000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg11) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v83) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v84) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v85) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v86_0) S2000x128.size cc2_transform_7 reads2_7 true false 2 stage2_7 sem2_7
    hrank2 hreads2_7 hinb2_7 nbuf2_7 (Memref.isWhole_whole _) hwx2_7 hstage2_7

abbrev win2_8 : Pipeline.Window sig grid2 :=
  Pipeline.Window.ofSpec (Memref.whole main_v86_1) S2000x128.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

abbrev win3_0 : Pipeline.Window sig grid3 :=
  Pipeline.Window.ofSpec (Memref.whole main_v86_0) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v87) S2000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v88) S128x128.size cc3_transform_2 reads3_2 true true 1 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev idle3 : Fin 3 → grid3.Coords → Bool := fun | 0 => fun _ => false | 1 => fun _ => false | 2 => fun i => !(k3_cond2 i == 1#1) | ⟨_ + 3, h⟩ => absurd h (Nat.not_lt.2 (Nat.le_add_left _ _))

class Facts : Prop extends Facts₀ where

variable [Facts]
-- ==== ReferenceIdeal.lean ====
abbrev S50000x128 : Shape := ⟨2, ![50000, 128]⟩
abbrev S2x600000 : Shape := ⟨2, ![2, 600000]⟩
abbrev S50000 : Shape := ⟨1, ![50000]⟩
abbrev S128x128 : Shape := ⟨2, ![128, 128]⟩
abbrev S128 : Shape := ⟨1, ![128]⟩
abbrev S1x600000 : Shape := ⟨2, ![1, 600000]⟩
abbrev S600000 : Shape := ⟨1, ![600000]⟩
abbrev S650000 : Shape := ⟨1, ![650000]⟩
abbrev S_ : Shape := ⟨0, ![]⟩
abbrev S650000x1 : Shape := ⟨2, ![650000, 1]⟩
abbrev S650000x128 : Shape := ⟨2, ![650000, 128]⟩
abbrev S1x128 : Shape := ⟨2, ![1, 128]⟩
abbrev S50000x1 : Shape := ⟨2, ![50000, 1]⟩
abbrev S128x1 : Shape := ⟨2, ![128, 1]⟩

abbrev nBuf : Space → Nat
  | .hbm => 248
  | .vmem => 0
  | .smem => 0
  | _ => 0

abbrev hbmTy0_0 (i : Nat) : BufTy := match i % 128 with
  | 0 => ⟨S50000x128, .f32⟩
  | 1 => ⟨S2x600000, .i32⟩
  | 2 => ⟨S50000, .i32⟩
  | 3 => ⟨S128x128, .f32⟩
  | 4 => ⟨S128, .f32⟩
  | 5 => ⟨S128, .f32⟩
  | 6 => ⟨S128, .f32⟩
  | 7 => ⟨S128x128, .f32⟩
  | 8 => ⟨S128, .f32⟩
  | 9 => ⟨S128, .f32⟩
  | 10 => ⟨S128, .f32⟩
  | 11 => ⟨S128x128, .f32⟩
  | 12 => ⟨S128, .f32⟩
  | 13 => ⟨S128, .f32⟩
  | 14 => ⟨S128, .f32⟩
  | 15 => ⟨S50000, .i32⟩
  | 16 => ⟨S1x600000, .i32⟩
  | 17 => ⟨S600000, .i32⟩
  | 18 => ⟨S650000, .i32⟩
  | 19 => ⟨S1x600000, .i32⟩
  | 20 => ⟨S600000, .i32⟩
  | 21 => ⟨S650000, .i32⟩
  | 22 => ⟨S_, .f32⟩
  | 23 => ⟨S650000, .f32⟩
  | 24 => ⟨S_, .f32⟩
  | 25 => ⟨S50000, .f32⟩
  | 26 => ⟨S650000x1, .i32⟩
  | 27 => ⟨S50000, .f32⟩
  | 28 => ⟨S_, .f32⟩
  | 29 => ⟨S50000, .f32⟩
  | 30 => ⟨S50000, .i1⟩
  | 31 => ⟨S50000, .f32⟩
  | 32 => ⟨S_, .f32⟩
  | 33 => ⟨S_, .f32⟩
  | 34 => ⟨S50000, .f32⟩
  | 35 => ⟨S50000, .f32⟩
  | 36 => ⟨S_, .i32⟩
  | 37 => ⟨S650000, .i32⟩
  | 38 => ⟨S650000, .i1⟩
  | 39 => ⟨S_, .i32⟩
  | 40 => ⟨S650000, .i32⟩
  | 41 => ⟨S650000, .i32⟩
  | 42 => ⟨S650000, .i32⟩
  | 43 => ⟨S650000x1, .i32⟩
  | 44 => ⟨S650000, .f32⟩
  | 45 => ⟨S_, .i32⟩
  | 46 => ⟨S650000, .i32⟩
  | 47 => ⟨S650000, .i1⟩
  | 48 => ⟨S_, .i32⟩
  | 49 => ⟨S650000, .i32⟩
  | 50 => ⟨S650000, .i32⟩
  | 51 => ⟨S650000, .i32⟩
  | 52 => ⟨S650000x1, .i32⟩
  | 53 => ⟨S650000, .f32⟩
  | 54 => ⟨S650000, .f32⟩
  | 55 => ⟨S50000x128, .f32⟩
  | 56 => ⟨S_, .i32⟩
  | 57 => ⟨S650000, .i32⟩
  | 58 => ⟨S650000, .i1⟩
  | 59 => ⟨S_, .i32⟩
  | 60 => ⟨S650000, .i32⟩
  | 61 => ⟨S650000, .i32⟩
  | 62 => ⟨S650000, .i32⟩
  | 63 => ⟨S650000x1, .i32⟩
  | 64 => ⟨S650000x128, .f32⟩
  | 65 => ⟨S650000x1, .f32⟩
  | 66 => ⟨S650000x128, .f32⟩
  | 67 => ⟨S650000x128, .f32⟩
  | 68 => ⟨S_, .f32⟩
  | 69 => ⟨S50000x128, .f32⟩
  | 70 => ⟨S650000x1, .i32⟩
  | 71 => ⟨S50000x128, .f32⟩
  | 72 => ⟨S1x128, .f32⟩
  | 73 => ⟨S50000x128, .f32⟩
  | 74 => ⟨S50000x128, .f32⟩
  | 75 => ⟨S_, .f32⟩
  | 76 => ⟨S50000, .f32⟩
  | 77 => ⟨S50000x1, .f32⟩
  | 78 => ⟨S_, .f32⟩
  | 79 => ⟨S50000x1, .f32⟩
  | 80 => ⟨S50000x1, .f32⟩
  | 81 => ⟨S50000x128, .f32⟩
  | 82 => ⟨S50000x128, .f32⟩
  | 83 => ⟨S50000x128, .f32⟩
  | 84 => ⟨S_, .f32⟩
  | 85 => ⟨S50000, .f32⟩
  | 86 => ⟨S50000x1, .f32⟩
  | 87 => ⟨S_, .f32⟩
  | 88 => ⟨S50000x1, .f32⟩
  | 89 => ⟨S50000x1, .f32⟩
  | 90 => ⟨S50000x128, .f32⟩
  | 91 => ⟨S50000x128, .f32⟩
  | 92 => ⟨S_, .f32⟩
  | 93 => ⟨S50000x1, .f32⟩
  | 94 => ⟨S50000x1, .f32⟩
  | 95 => ⟨S50000x1, .f32⟩
  | 96 => ⟨S50000x128, .f32⟩
  | 97 => ⟨S50000x128, .f32⟩
  | 98 => ⟨S1x128, .f32⟩
  | 99 => ⟨S50000x128, .f32⟩
  | 100 => ⟨S50000x128, .f32⟩
  | 101 => ⟨S1x128, .f32⟩
  | 102 => ⟨S50000x128, .f32⟩
  | 103 => ⟨S50000x128, .f32⟩
  | 104 => ⟨S50000x128, .f32⟩
  | 105 => ⟨S50000x128, .f32⟩
  | 106 => ⟨S50000x128, .f32⟩
  | 107 => ⟨S_, .f32⟩
  | 108 => ⟨S50000x128, .f32⟩
  | 109 => ⟨S50000x128, .f32⟩
  | 110 => ⟨S_, .f32⟩
  | 111 => ⟨S50000x128, .f32⟩
  | 112 => ⟨S50000x128, .f32⟩
  | 113 => ⟨S50000x128, .f32⟩
  | 114 => ⟨S50000x128, .f32⟩
  | 115 => ⟨S_, .i32⟩
  | 116 => ⟨S650000, .i32⟩
  | 117 => ⟨S650000, .i1⟩
  | 118 => ⟨S_, .i32⟩
  | 119 => ⟨S650000, .i32⟩
  | 120 => ⟨S650000, .i32⟩
  | 121 => ⟨S650000, .i32⟩
  | 122 => ⟨S650000x1, .i32⟩
  | 123 => ⟨S650000x128, .f32⟩
  | 124 => ⟨S650000x1, .f32⟩
  | 125 => ⟨S650000x128, .f32⟩
  | 126 => ⟨S650000x128, .f32⟩
  | 127 => ⟨S_, .f32⟩
  | _ => ⟨S50000x128, .f32⟩

abbrev hbmTy0_1 (i : Nat) : BufTy := match i % 128 with
  | 0 => ⟨S50000x128, .f32⟩
  | 1 => ⟨S650000x1, .i32⟩
  | 2 => ⟨S50000x128, .f32⟩
  | 3 => ⟨S1x128, .f32⟩
  | 4 => ⟨S50000x128, .f32⟩
  | 5 => ⟨S50000x128, .f32⟩
  | 6 => ⟨S_, .f32⟩
  | 7 => ⟨S50000, .f32⟩
  | 8 => ⟨S50000x1, .f32⟩
  | 9 => ⟨S_, .f32⟩
  | 10 => ⟨S50000x1, .f32⟩
  | 11 => ⟨S50000x1, .f32⟩
  | 12 => ⟨S50000x128, .f32⟩
  | 13 => ⟨S50000x128, .f32⟩
  | 14 => ⟨S50000x128, .f32⟩
  | 15 => ⟨S_, .f32⟩
  | 16 => ⟨S50000, .f32⟩
  | 17 => ⟨S50000x1, .f32⟩
  | 18 => ⟨S_, .f32⟩
  | 19 => ⟨S50000x1, .f32⟩
  | 20 => ⟨S50000x1, .f32⟩
  | 21 => ⟨S50000x128, .f32⟩
  | 22 => ⟨S50000x128, .f32⟩
  | 23 => ⟨S_, .f32⟩
  | 24 => ⟨S50000x1, .f32⟩
  | 25 => ⟨S50000x1, .f32⟩
  | 26 => ⟨S50000x1, .f32⟩
  | 27 => ⟨S50000x128, .f32⟩
  | 28 => ⟨S50000x128, .f32⟩
  | 29 => ⟨S1x128, .f32⟩
  | 30 => ⟨S50000x128, .f32⟩
  | 31 => ⟨S50000x128, .f32⟩
  | 32 => ⟨S1x128, .f32⟩
  | 33 => ⟨S50000x128, .f32⟩
  | 34 => ⟨S50000x128, .f32⟩
  | 35 => ⟨S50000x128, .f32⟩
  | 36 => ⟨S50000x128, .f32⟩
  | 37 => ⟨S50000x128, .f32⟩
  | 38 => ⟨S_, .f32⟩
  | 39 => ⟨S50000x128, .f32⟩
  | 40 => ⟨S50000x128, .f32⟩
  | 41 => ⟨S_, .f32⟩
  | 42 => ⟨S50000x128, .f32⟩
  | 43 => ⟨S50000x128, .f32⟩
  | 44 => ⟨S50000x128, .f32⟩
  | 45 => ⟨S50000x128, .f32⟩
  | 46 => ⟨S_, .i32⟩
  | 47 => ⟨S650000, .i32⟩
  | 48 => ⟨S650000, .i1⟩
  | 49 => ⟨S_, .i32⟩
  | 50 => ⟨S650000, .i32⟩
  | 51 => ⟨S650000, .i32⟩
  | 52 => ⟨S650000, .i32⟩
  | 53 => ⟨S650000x1, .i32⟩
  | 54 => ⟨S650000x128, .f32⟩
  | 55 => ⟨S650000x1, .f32⟩
  | 56 => ⟨S650000x128, .f32⟩
  | 57 => ⟨S650000x128, .f32⟩
  | 58 => ⟨S_, .f32⟩
  | 59 => ⟨S50000x128, .f32⟩
  | 60 => ⟨S650000x1, .i32⟩
  | 61 => ⟨S50000x128, .f32⟩
  | 62 => ⟨S1x128, .f32⟩
  | 63 => ⟨S50000x128, .f32⟩
  | 64 => ⟨S50000x128, .f32⟩
  | 65 => ⟨S_, .f32⟩
  | 66 => ⟨S50000, .f32⟩
  | 67 => ⟨S50000x1, .f32⟩
  | 68 => ⟨S_, .f32⟩
  | 69 => ⟨S50000x1, .f32⟩
  | 70 => ⟨S50000x1, .f32⟩
  | 71 => ⟨S50000x128, .f32⟩
  | 72 => ⟨S50000x128, .f32⟩
  | 73 => ⟨S50000x128, .f32⟩
  | 74 => ⟨S_, .f32⟩
  | 75 => ⟨S50000, .f32⟩
  | 76 => ⟨S50000x1, .f32⟩
  | 77 => ⟨S_, .f32⟩
  | 78 => ⟨S50000x1, .f32⟩
  | 79 => ⟨S50000x1, .f32⟩
  | 80 => ⟨S50000x128, .f32⟩
  | 81 => ⟨S50000x128, .f32⟩
  | 82 => ⟨S_, .f32⟩
  | 83 => ⟨S50000x1, .f32⟩
  | 84 => ⟨S50000x1, .f32⟩
  | 85 => ⟨S50000x1, .f32⟩
  | 86 => ⟨S50000x128, .f32⟩
  | 87 => ⟨S50000x128, .f32⟩
  | 88 => ⟨S1x128, .f32⟩
  | 89 => ⟨S50000x128, .f32⟩
  | 90 => ⟨S50000x128, .f32⟩
  | 91 => ⟨S1x128, .f32⟩
  | 92 => ⟨S50000x128, .f32⟩
  | 93 => ⟨S50000x128, .f32⟩
  | 94 => ⟨S50000x128, .f32⟩
  | 95 => ⟨S50000x128, .f32⟩
  | 96 => ⟨S50000x128, .f32⟩
  | 97 => ⟨S_, .f32⟩
  | 98 => ⟨S50000x128, .f32⟩
  | 99 => ⟨S50000x128, .f32⟩
  | 100 => ⟨S_, .f32⟩
  | 101 => ⟨S50000x128, .f32⟩
  | 102 => ⟨S50000x128, .f32⟩
  | 103 => ⟨S50000x128, .f32⟩
  | 104 => ⟨S_, .f32⟩
  | 105 => ⟨S50000, .f32⟩
  | 106 => ⟨S_, .f32⟩
  | 107 => ⟨S128, .f32⟩
  | 108 => ⟨S50000x1, .i32⟩
  | 109 => ⟨S128, .f32⟩
  | 110 => ⟨S_, .f32⟩
  | 111 => ⟨S128x128, .f32⟩
  | 112 => ⟨S50000x1, .i32⟩
  | 113 => ⟨S128x128, .f32⟩
  | 114 => ⟨S_, .f32⟩
  | 115 => ⟨S128, .f32⟩
  | 116 => ⟨S128, .f32⟩
  | 117 => ⟨S128x1, .f32⟩
  | 118 => ⟨S128x128, .f32⟩
  | 119 => ⟨S128x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst : Ref sig .tc := ⟨.hbm, 22, rfl⟩
abbrev main_v7 : Ref sig .tc := ⟨.hbm, 23, rfl⟩
abbrev main_cst_0 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst_1 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_cst_2 : Ref sig .tc := ⟨.hbm, 32, rfl⟩
abbrev main_call0_v0 : Ref sig .tc := ⟨.hbm, 33, rfl⟩
abbrev main_call0_v1 : Ref sig .tc := ⟨.hbm, 34, rfl⟩
abbrev main_v14 : Ref sig .tc := ⟨.hbm, 35, rfl⟩
abbrev main_c : Ref sig .tc := ⟨.hbm, 36, rfl⟩
abbrev main_v15 : Ref sig .tc := ⟨.hbm, 37, rfl⟩
abbrev main_v16 : Ref sig .tc := ⟨.hbm, 38, rfl⟩
abbrev main_c_3 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_c_4 : Ref sig .tc := ⟨.hbm, 45, rfl⟩
abbrev main_v22 : Ref sig .tc := ⟨.hbm, 46, rfl⟩
abbrev main_v23 : Ref sig .tc := ⟨.hbm, 47, rfl⟩
abbrev main_c_5 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_c_6 : Ref sig .tc := ⟨.hbm, 56, rfl⟩
abbrev main_v31 : Ref sig .tc := ⟨.hbm, 57, rfl⟩
abbrev main_v32 : Ref sig .tc := ⟨.hbm, 58, rfl⟩
abbrev main_c_7 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_cst_8 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_cst_9 : Ref sig .tc := ⟨.hbm, 75, rfl⟩
abbrev main_v47 : Ref sig .tc := ⟨.hbm, 76, rfl⟩
abbrev main_v48 : Ref sig .tc := ⟨.hbm, 77, rfl⟩
abbrev main_cst_10 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_cst_11 : Ref sig .tc := ⟨.hbm, 84, rfl⟩
abbrev main_v54 : Ref sig .tc := ⟨.hbm, 85, rfl⟩
abbrev main_v55 : Ref sig .tc := ⟨.hbm, 86, rfl⟩
abbrev main_cst_12 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_cst_13 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_call1_v0 : Ref sig .tc := ⟨.hbm, 105, rfl⟩
abbrev main_call1_v1 : Ref sig .tc := ⟨.hbm, 106, rfl⟩
abbrev main_call1_cst : Ref sig .tc := ⟨.hbm, 107, rfl⟩
abbrev main_call1_v2 : Ref sig .tc := ⟨.hbm, 108, rfl⟩
abbrev main_call1_v3 : Ref sig .tc := ⟨.hbm, 109, rfl⟩
abbrev main_call1_cst_0 : Ref sig .tc := ⟨.hbm, 110, rfl⟩
abbrev main_call1_v4 : Ref sig .tc := ⟨.hbm, 111, rfl⟩
abbrev main_call1_v5 : Ref sig .tc := ⟨.hbm, 112, rfl⟩
abbrev main_v72 : Ref sig .tc := ⟨.hbm, 113, rfl⟩
abbrev main_v73 : Ref sig .tc := ⟨.hbm, 114, rfl⟩
abbrev main_c_14 : Ref sig .tc := ⟨.hbm, 115, rfl⟩
abbrev main_v74 : Ref sig .tc := ⟨.hbm, 116, rfl⟩
abbrev main_v75 : Ref sig .tc := ⟨.hbm, 117, rfl⟩
abbrev main_c_15 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_cst_16 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_cst_17 : Ref sig .tc := ⟨.hbm, 134, rfl⟩
abbrev main_v90 : Ref sig .tc := ⟨.hbm, 135, rfl⟩
abbrev main_v91 : Ref sig .tc := ⟨.hbm, 136, rfl⟩
abbrev main_cst_18 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_cst_19 : Ref sig .tc := ⟨.hbm, 143, rfl⟩
abbrev main_v97 : Ref sig .tc := ⟨.hbm, 144, rfl⟩
abbrev main_v98 : Ref sig .tc := ⟨.hbm, 145, rfl⟩
abbrev main_cst_20 : Ref sig .tc := ⟨.hbm, 146, rfl⟩
abbrev main_v99 : Ref sig .tc := ⟨.hbm, 147, rfl⟩
abbrev main_v100 : Ref sig .tc := ⟨.hbm, 148, rfl⟩
abbrev main_v101 : Ref sig .tc := ⟨.hbm, 149, rfl⟩
abbrev main_v102 : Ref sig .tc := ⟨.hbm, 150, rfl⟩
abbrev main_cst_21 : Ref sig .tc := ⟨.hbm, 151, rfl⟩
abbrev main_v103 : Ref sig .tc := ⟨.hbm, 152, rfl⟩
abbrev main_v104 : Ref sig .tc := ⟨.hbm, 153, rfl⟩
abbrev main_v105 : Ref sig .tc := ⟨.hbm, 154, rfl⟩
abbrev main_v106 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩
abbrev main_v110 : Ref sig .tc := ⟨.hbm, 159, rfl⟩
abbrev main_v111 : Ref sig .tc := ⟨.hbm, 160, rfl⟩
abbrev main_v112 : Ref sig .tc := ⟨.hbm, 161, rfl⟩
abbrev main_v113 : Ref sig .tc := ⟨.hbm, 162, rfl⟩
abbrev main_v114 : Ref sig .tc := ⟨.hbm, 163, rfl⟩
abbrev main_call2_v0 : Ref sig .tc := ⟨.hbm, 164, rfl⟩
abbrev main_call2_v1 : Ref sig .tc := ⟨.hbm, 165, rfl⟩
abbrev main_call2_cst : Ref sig .tc := ⟨.hbm, 166, rfl⟩
abbrev main_call2_v2 : Ref sig .tc := ⟨.hbm, 167, rfl⟩
abbrev main_call2_v3 : Ref sig .tc := ⟨.hbm, 168, rfl⟩
abbrev main_call2_cst_0 : Ref sig .tc := ⟨.hbm, 169, rfl⟩
abbrev main_call2_v4 : Ref sig .tc := ⟨.hbm, 170, rfl⟩
abbrev main_call2_v5 : Ref sig .tc := ⟨.hbm, 171, rfl⟩
abbrev main_v115 : Ref sig .tc := ⟨.hbm, 172, rfl⟩
abbrev main_v116 : Ref sig .tc := ⟨.hbm, 173, rfl⟩
abbrev main_c_22 : Ref sig .tc := ⟨.hbm, 174, rfl⟩
abbrev main_v117 : Ref sig .tc := ⟨.hbm, 175, rfl⟩
abbrev main_v118 : Ref sig .tc := ⟨.hbm, 176, rfl⟩
abbrev main_c_23 : Ref sig .tc := ⟨.hbm, 177, rfl⟩
abbrev main_v119 : Ref sig .tc := ⟨.hbm, 178, rfl⟩
abbrev main_v120 : Ref sig .tc := ⟨.hbm, 179, rfl⟩
abbrev main_v121 : Ref sig .tc := ⟨.hbm, 180, rfl⟩
abbrev main_v122 : Ref sig .tc := ⟨.hbm, 181, rfl⟩
abbrev main_v123 : Ref sig .tc := ⟨.hbm, 182, rfl⟩
abbrev main_v124 : Ref sig .tc := ⟨.hbm, 183, rfl⟩
abbrev main_v125 : Ref sig .tc := ⟨.hbm, 184, rfl⟩
abbrev main_v126 : Ref sig .tc := ⟨.hbm, 185, rfl⟩
abbrev main_cst_24 : Ref sig .tc := ⟨.hbm, 186, rfl⟩
abbrev main_v127 : Ref sig .tc := ⟨.hbm, 187, rfl⟩
abbrev main_v128 : Ref sig .tc := ⟨.hbm, 188, rfl⟩
abbrev main_v129 : Ref sig .tc := ⟨.hbm, 189, rfl⟩
abbrev main_v130 : Ref sig .tc := ⟨.hbm, 190, rfl⟩
abbrev main_v131 : Ref sig .tc := ⟨.hbm, 191, rfl⟩
abbrev main_v132 : Ref sig .tc := ⟨.hbm, 192, rfl⟩
abbrev main_cst_25 : Ref sig .tc := ⟨.hbm, 193, rfl⟩
abbrev main_v133 : Ref sig .tc := ⟨.hbm, 194, rfl⟩
abbrev main_v134 : Ref sig .tc := ⟨.hbm, 195, rfl⟩
abbrev main_cst_26 : Ref sig .tc := ⟨.hbm, 196, rfl⟩
abbrev main_v135 : Ref sig .tc := ⟨.hbm, 197, rfl⟩
abbrev main_v136 : Ref sig .tc := ⟨.hbm, 198, rfl⟩
abbrev main_v137 : Ref sig .tc := ⟨.hbm, 199, rfl⟩
abbrev main_v138 : Ref sig .tc := ⟨.hbm, 200, rfl⟩
abbrev main_v139 : Ref sig .tc := ⟨.hbm, 201, rfl⟩
abbrev main_cst_27 : Ref sig .tc := ⟨.hbm, 202, rfl⟩
abbrev main_v140 : Ref sig .tc := ⟨.hbm, 203, rfl⟩
abbrev main_v141 : Ref sig .tc := ⟨.hbm, 204, rfl⟩
abbrev main_cst_28 : Ref sig .tc := ⟨.hbm, 205, rfl⟩
abbrev main_v142 : Ref sig .tc := ⟨.hbm, 206, rfl⟩
abbrev main_v143 : Ref sig .tc := ⟨.hbm, 207, rfl⟩
abbrev main_v144 : Ref sig .tc := ⟨.hbm, 208, rfl⟩
abbrev main_v145 : Ref sig .tc := ⟨.hbm, 209, rfl⟩
abbrev main_cst_29 : Ref sig .tc := ⟨.hbm, 210, rfl⟩
abbrev main_v146 : Ref sig .tc := ⟨.hbm, 211, rfl⟩
abbrev main_v147 : Ref sig .tc := ⟨.hbm, 212, rfl⟩
abbrev main_v148 : Ref sig .tc := ⟨.hbm, 213, rfl⟩
abbrev main_v149 : Ref sig .tc := ⟨.hbm, 214, rfl⟩
abbrev main_v150 : Ref sig .tc := ⟨.hbm, 215, rfl⟩
abbrev main_v151 : Ref sig .tc := ⟨.hbm, 216, rfl⟩
abbrev main_v152 : Ref sig .tc := ⟨.hbm, 217, rfl⟩
abbrev main_v153 : Ref sig .tc := ⟨.hbm, 218, rfl⟩
abbrev main_v154 : Ref sig .tc := ⟨.hbm, 219, rfl⟩
abbrev main_v155 : Ref sig .tc := ⟨.hbm, 220, rfl⟩
abbrev main_v156 : Ref sig .tc := ⟨.hbm, 221, rfl⟩
abbrev main_v157 : Ref sig .tc := ⟨.hbm, 222, rfl⟩
abbrev main_call3_v0 : Ref sig .tc := ⟨.hbm, 223, rfl⟩
abbrev main_call3_v1 : Ref sig .tc := ⟨.hbm, 224, rfl⟩
abbrev main_call3_cst : Ref sig .tc := ⟨.hbm, 225, rfl⟩
abbrev main_call3_v2 : Ref sig .tc := ⟨.hbm, 226, rfl⟩
abbrev main_call3_v3 : Ref sig .tc := ⟨.hbm, 227, rfl⟩
abbrev main_call3_cst_0 : Ref sig .tc := ⟨.hbm, 228, rfl⟩
abbrev main_call3_v4 : Ref sig .tc := ⟨.hbm, 229, rfl⟩
abbrev main_call3_v5 : Ref sig .tc := ⟨.hbm, 230, rfl⟩
abbrev main_v158 : Ref sig .tc := ⟨.hbm, 231, rfl⟩
abbrev main_cst_30 : Ref sig .tc := ⟨.hbm, 232, rfl⟩
abbrev main_v159 : Ref sig .tc := ⟨.hbm, 233, rfl⟩
abbrev main_cst_31 : Ref sig .tc := ⟨.hbm, 234, rfl⟩
abbrev main_v160 : Ref sig .tc := ⟨.hbm, 235, rfl⟩
abbrev main_v161 : Ref sig .tc := ⟨.hbm, 236, rfl⟩
abbrev main_v162 : Ref sig .tc := ⟨.hbm, 237, rfl⟩
abbrev main_cst_32 : Ref sig .tc := ⟨.hbm, 238, rfl⟩
abbrev main_v163 : Ref sig .tc := ⟨.hbm, 239, rfl⟩
abbrev main_v164 : Ref sig .tc := ⟨.hbm, 240, rfl⟩
abbrev main_v165 : Ref sig .tc := ⟨.hbm, 241, rfl⟩
abbrev main_cst_33 : Ref sig .tc := ⟨.hbm, 242, rfl⟩
abbrev main_v166 : Ref sig .tc := ⟨.hbm, 243, rfl⟩
abbrev main_v167 : Ref sig .tc := ⟨.hbm, 244, rfl⟩
abbrev main_v168 : Ref sig .tc := ⟨.hbm, 245, rfl⟩
abbrev main_v169 : Ref sig .tc := ⟨.hbm, 246, rfl⟩
abbrev main_v170 : Ref sig .tc := ⟨.hbm, 247, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  concatenates_S600000_S50000_S650000_d0 : Shape.Concatenates [S600000, S50000] S650000 0
  slices_S2x600000_S1x600000_1_0 : S2x600000.Slices ![1, 0] S1x600000
  bcast_S_S650000 : S_.BroadcastsInDim S650000 (![] : Fin 0 → Fin S650000.rank)
  bcast_S_S50000 : S_.BroadcastsInDim S50000 (![] : Fin 0 → Fin S50000.rank)
  bcast_S650000_S650000x1_0 : S650000.BroadcastsInDim S650000x1 (![0] : Fin 1 → Fin S650000x1.rank)
  bcast_S650000x1_S650000x128_0_1 : S650000x1.BroadcastsInDim S650000x128 (![0, 1] : Fin 2 → Fin S650000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S50000_d1 : S50000x128.ReducesTo [1] S50000
  h_S_ : 0 < S_.numel
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  bcast_S_S128 : S_.BroadcastsInDim S128 (![] : Fin 0 → Fin S128.rank)
  bcast_S_S128x128 : S_.BroadcastsInDim S128x128 (![] : Fin 0 → Fin S128x128.rank)
  bcast_S128_S128x1_0 : S128.BroadcastsInDim S128x1 (![0] : Fin 1 → Fin S128x1.rank)
  bcast_S128x1_S128x128_0_1 : S128x1.BroadcastsInDim S128x128 (![0, 1] : Fin 2 → Fin S128x128.rank)
  scatter_S50000_S650000x1_S650000_n_0_0_1_wf : ScatterDims.WF S50000 S650000x1 S650000 [] [0] [0] 1
  gather_S50000_S650000x1_S650000_n_0_n_n_0_1_1_wf : GatherDims.WF S50000 S650000x1 S650000 [] [0] [] [0] [] 1 ![1]
  dot_S50000x128_S128x128_S50000x128_1_0_0_1_n_n_wf : DotDims.WF S50000x128 S128x128 S50000x128 [1] [0] [0] [1] [] []
  gather_S50000x128_S650000x1_S650000x128_1_0_n_n_0_1_1128_wf : GatherDims.WF S50000x128 S650000x1 S650000x128 [1] [0] [] [0] [] 1 ![1, 128]
  scatter_S50000x128_S650000x1_S650000x128_1_0_0_1_wf : ScatterDims.WF S50000x128 S650000x1 S650000x128 [1] [0] [0] 1
  scatter_S128_S50000x1_S50000_n_0_0_1_wf : ScatterDims.WF S128 S50000x1 S50000 [] [0] [0] 1
  scatter_S128x128_S50000x1_S50000x128_1_0_0_1_wf : ScatterDims.WF S128x128 S50000x1 S50000x128 [1] [0] [0] 1

variable [Facts₀]

def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def gather_S50000_S650000x1_S650000_n_0_n_n_0_1_1 : GatherDims S50000 S650000x1 S650000 where
  offsetDims := []
  collapsedSliceDims := [0]
  operandBatchingDims := []
  startIndicesBatchingDims := []
  startIndexMap := [0]
  indexVectorDim := 1
  sliceSizes := ![1]
  wf := gather_S50000_S650000x1_S650000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S650000x1_S650000x128_1_0_n_n_0_1_1128 : GatherDims S50000x128 S650000x1 S650000x128 where
  offsetDims := [1]
  collapsedSliceDims := [0]
  operandBatchingDims := []
  startIndicesBatchingDims := []
  startIndexMap := [0]
  indexVectorDim := 1
  sliceSizes := ![1, 128]
  wf := gather_S50000x128_S650000x1_S650000x128_1_0_n_n_0_1_1128_wf
def scatter_S50000x128_S650000x1_S650000x128_1_0_0_1 : ScatterDims S50000x128 S650000x1 S650000x128 where
  updateWindowDims := [1]
  insertedWindowDims := [0]
  scatterDimsToOperandDims := [0]
  indexVectorDim := 1
  wf := scatter_S50000x128_S650000x1_S650000x128_1_0_0_1_wf
def scatter_S128_S50000x1_S50000_n_0_0_1 : ScatterDims S128 S50000x1 S50000 where
  updateWindowDims := []
  insertedWindowDims := [0]
  scatterDimsToOperandDims := [0]
  indexVectorDim := 1
  wf := scatter_S128_S50000x1_S50000_n_0_0_1_wf
def scatter_S128x128_S50000x1_S50000x128_1_0_0_1 : ScatterDims S128x128 S50000x1 S50000x128 where
  updateWindowDims := [1]
  insertedWindowDims := [0]
  scatterDimsToOperandDims := [0]
  indexVectorDim := 1
  wf := scatter_S128x128_S50000x1_S50000x128_1_0_0_1_wf

class Facts : Prop extends Facts₀ where

variable [Facts]
-- ==== Proof.K.FusedBody.lean ====
import proofs.«411758_j88313117540961_2_alg».proof.Proof.Gen.Kernel.Launch
import Idealize.ShloMosaic.Lib.Pipeline.FrameBody
import Idealize.ShloMosaic.Lib.Ring
import Idealize.ShloMosaic.Lib.Tactic

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel Cert.Kernel.Gen

variable {F : FTy → Type} [FloatOps F] {α γ : Type}
  (p3 : Vec F S2000x128 .f32 → α)
  (p4 : Vec F S2000x128 .f32 → Vec F S2000x128 .f32 → Vec F S2000x1 .f32 → Vec F S128x128 .f32 → Vec F S1x128 .f32 → Vec F S1x128 .f32 → FVec F S2000x128 .f32)
  (p5 : Vec F S1x128 .f32 → γ)
  (pay1 : α → FVec F S2000x128 .f32 → γ → FVec F S2000x128 .f32) (pay2 : α → FVec F S2000x128 .f32 → γ → FVec F S2000x128 .bf16)
  (arg1 arg2 : Memref sig .tc .vmem S2000x128 .f32) (arg3 : Memref sig .tc .vmem S2000x1 .f32) (arg4 : Memref sig .tc .vmem S128x128 .f32)
  (arg5 arg6 arg7 : Memref sig .tc .vmem S1x128 .f32) (arg8 : Memref sig .tc .vmem S2000x128 .f32) (arg9 : Memref sig .tc .vmem S2000x128 .bf16)
  (harg9 : arg9.IsWhole)

abbrev q0 : Rect S2000x128 := Rect.unit (s := S2000x128) ![0, 0] S2000x128.size inb_S2000x128_S2000x128_0_0
abbrev q1 : Rect S2000x1 := Rect.unit (s := S2000x1) ![0, 0] S2000x1.size inb_S2000x1_S2000x1_0_0
abbrev q2 : Rect S128x128 := Rect.unit (s := S128x128) ![0, 0] S128x128.size inb_S128x128_S128x128_0_0
abbrev q3 : Rect S1x128 := Rect.unit (s := S1x128) ![0, 0] S1x128.size inb_S1x128_S1x128_0_0

-- the seven whole-block loads and the three values handed on
def partG : Prog (TpuEff nD τ sig (Elt F) Λ₀ .tc) (Σ' (_ : α) (_ : FVec F S2000x128 .f32), γ) := do
  let v0 : Vec F S2000x128 .f32 ← Prog.lift (.load arg2 (Rect.unit (s := S2000x128) ![0, 0] S2000x128.size inb_S2000x128_S2000x128_0_0).toLoadRect (View.loadsAt_vmem h_S2000x128))
  let v2 : Vec F S2000x128 .f32 ← Prog.lift (.load arg1 (Rect.unit (s := S2000x128) ![0, 0] S2000x128.size inb_S2000x128_S2000x128_0_0).toLoadRect (View.loadsAt_vmem h_S2000x128))
  let v4 : Vec F S2000x1 .f32 ← Prog.lift (.load arg3 (Rect.unit (s := S2000x1) ![0, 0] S2000x1.size inb_S2000x1_S2000x1_0_0).toLoadRect (View.loadsAt_vmem h_S2000x1))
  let v10 : Vec F S128x128 .f32 ← Prog.lift (.load arg4 (Rect.unit (s := S128x128) ![0, 0] S128x128.size inb_S128x128_S128x128_0_0).toLoadRect (View.loadsAt_vmem h_S128x128))
  let v13 : Vec F S1x128 .f32 ← Prog.lift (.load arg5 (Rect.unit (s := S1x128) ![0, 0] S1x128.size inb_S1x128_S1x128_0_0).toLoadRect (View.loadsAt_vmem h_S1x128))
  let v33 : Vec F S1x128 .f32 ← Prog.lift (.load arg6 (Rect.unit (s := S1x128) ![0, 0] S1x128.size inb_S1x128_S1x128_0_0).toLoadRect (View.loadsAt_vmem h_S1x128))
  let v37 : Vec F S1x128 .f32 ← Prog.lift (.load arg7 (Rect.unit (s := S1x128) ![0, 0] S1x128.size inb_S1x128_S1x128_0_0).toLoadRect (View.loadsAt_vmem h_S1x128))
  pure ⟨p3 v0, p4 v0 v2 v4 v10 v13 v33, p5 v37⟩

-- then one whole-block store into each output
def fusedG (part : Prog (TpuEff nD τ sig (Elt F) Λ₀ .tc) (Σ' (_ : α) (_ : FVec F S2000x128 .f32), γ)) : Prog (TpuEff nD τ sig (Elt F) Λ₀ .tc) PUnit := do
  let ⟨a, b, c⟩ : Σ' (_ : α) (_ : FVec F S2000x128 .f32), γ ← part
  let v44 : Vec F S2000x128 .f32 ← Prog.lift (.load arg8 (Rect.unit (s := S2000x128) ![0, 0] S2000x128.size inb_S2000x128_S2000x128_0_0).toLoadRect (View.loadsAt_vmem h_S2000x128))
  Prog.lift (.store arg8 (Rect.unit (s := S2000x128) ![0, 0] S2000x128.size inb_S2000x128_S2000x128_0_0) (pay1 a b c) Finset.univ (View.stores_vmem_bits_univ h_S2000x128 rfl) (.inl rfl))
  let v46 : Vec F S2000x128 .bf16 ← Prog.lift (.load arg9 (Rect.unit (s := S2000x128) ![0, 0] S2000x128.size inb_S2000x128_S2000x128_0_0).toLoadRect (View.loadsAt_vmem h_S2000x128))
  Prog.lift (.store arg9 (Rect.unit (s := S2000x128) ![0, 0] S2000x128.size inb_S2000x128_S2000x128_0_0) (pay2 a b c) Finset.univ (View.stores_vmem h_S2000x128 (harg9.storeExact_slice rfl _ packedbf16_S2000x128_S2000x128_0_0) (fun _ => rfl)) (.inl rfl))
  pure ⟨⟩

-- a single piece over the whole rectangle covers every index
theorem coverG {e : EltTy} (p : Vec F S2000x128 e) (y : S2000x128.Idx) :
    ∃ pc ∈ ([⟨q0, p⟩] : List (View.Piece (Elt F) S2000x128 e)), y ∈ pc.1.set :=
  View.cover_of_tiled [⟨q0, p⟩] S2000x128.size (by rfl) y

-- each of the two stores covers its target, so what is read back is the canonical contents of the stored piece
theorem sound_fusedG (c : Dev nD) (E : Set ℕ) (x0 x1 : Vec F S2000x128 .f32) (x2 : Vec F S2000x1 .f32) (x3 : Vec F S128x128 .f32) (x4 x5 x6 : Vec F S1x128 .f32)
    (d7 : Vec F S2000x128 .f32) (d8 : Vec F S2000x128 .bf16) (K : PUnit → sProp (MT nD τ sig Unit (Elt F) ℕ (UR sig nD τ) ℕ)) :
    iprop(owns c.tc arg1 fullShare x0 ∗ owns c.tc arg2 fullShare x1 ∗ owns c.tc arg3 fullShare x2 ∗ owns c.tc arg4 fullShare x3 ∗ owns c.tc arg5 fullShare x4 ∗ owns c.tc arg6 fullShare x5 ∗ owns c.tc arg7 fullShare x6 ∗ owns c.tc arg8 fullShare d7 ∗ owns c.tc arg9 fullShare d8
        ∗ (iprop(owns c.tc arg1 fullShare x0 ∗ owns c.tc arg2 fullShare x1 ∗ owns c.tc arg3 fullShare x2 ∗ owns c.tc arg4 fullShare x3 ∗ owns c.tc arg5 fullShare x4 ∗ owns c.tc arg6 fullShare x5 ∗ owns c.tc arg7 fullShare x6 ∗ owns c.tc arg8 fullShare (View.canon [⟨q0, pay1 (p3 (View.ld x1 q0)) (p4 (View.ld x1 q0) (View.ld x0 q0) (View.ld x2 q1) (View.ld x3 q2) (View.ld x4 q3) (View.ld x5 q3)) (p5 (View.ld x6 q3))⟩]) ∗ owns c.tc arg9 fullShare (View.canon [⟨q0, pay2 (p3 (View.ld x1 q0)) (p4 (View.ld x1 q0) (View.ld x0 q0) (View.ld x2 q1) (View.ld x3 q2) (View.ld x4 q3) (View.ld x5 q3)) (p5 (View.ld x6 q3))⟩])) -∗ K ⟨⟩))
      ⊢ wp frame (wpE (defs₀ (F := F)) Variants.none c none) E (fusedG pay1 pay2 arg8 arg9 harg9 (partG p3 p4 p5 arg1 arg2 arg3 arg4 arg5 arg6 arg7)) K := by
  unfold fusedG partG owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, -, H7⟩, ⟨%f8, -, H8⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr; swap; · iexact H7
    ipureintro; exact View.read_writes_eq_canon _ _ _ (coverG _)
  iexists _; isplitr; swap; · iexact H8
  ipureintro; exact View.read_writes_eq_canon _ _ _ (coverG _)

end Cert.Kernel.Hand

end
-- ==== Proof.K.Fused0.lean ====
import proofs.«411758_j88313117540961_2_alg».proof.Proof.Gen.Kernel.Launch
import proofs.«411758_j88313117540961_2_alg».proof.Proof.Gen.Kernel.Skeleton
import proofs.«411758_j88313117540961_2_alg».proof.Proof.Gen.Kernel.Points
import proofs.«411758_j88313117540961_2_alg».proof.Proof.K.FusedBody
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.Kernel Cert.Kernel.Gen

variable {F : FTy → Type} [FloatOps F]

section Regions
variable (V : (c : Dev nD) → (b : Ref sig .tc) → Buf (Elt F) ((c : Thread nD τ).loc b)) (c : Dev nD)

def iblk0 (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S2000x128 := Rect.unit (s := S2000x128) ![0, 0] S2000x128.size inb_S2000x128_S2000x128_0_0
abbrev r0_1 : Rect S2000x1 := Rect.unit (s := S2000x1) ![0, 0] S2000x1.size inb_S2000x1_S2000x1_0_0
abbrev r0_2 : Rect S128x128 := Rect.unit (s := S128x128) ![0, 0] S128x128.size inb_S128x128_S128x128_0_0
abbrev r0_3 : Rect S1x128 := Rect.unit (s := S1x128) ![0, 0] S1x128.size inb_S1x128_S1x128_0_0

variable (x0 x1 : Vec F S2000x128 .f32) (x2 : Vec F S2000x1 .f32) (x3 : Vec F S128x128 .f32) (x4 x5 x6 : Vec F S1x128 .f32)

abbrev mid0_v0 : Vec F S2000x128 .f32 := View.ld x1 r0_0
abbrev mid0_v35 : FVec F S2000x128 .f32 :=
  k0_pay3 (View.ld x1 r0_0) (View.ld x0 r0_0) (View.ld x2 r0_1) (View.ld x3 r0_2) (View.ld x4 r0_3) (View.ld x5 r0_3)
abbrev mid0_v38 : FVec F S2000x128 .f32 := k0_pay4 (View.ld x6 r0_3)

def out0_7 : Vec F S2000x128 .f32 :=
  View.canon [⟨r0_0, k0_pay1 (mid0_v0 x1) (mid0_v35 x0 x1 x2 x3 x4 x5) (mid0_v38 x6)⟩]

def out0_8 : Vec F S2000x128 .bf16 :=
  View.canon [⟨r0_0, k0_pay2 (mid0_v0 x1) (mid0_v35 x0 x1 x2 x3 x4 x5) (mid0_v38 x6)⟩]

-- the kernel function is the shared body at this region's payloads
theorem kernel0_eq : cc0__fused_block_kernel (F := F) = fun i a1 _ a2 _ a3 _ a4 _ a5 _ a6 _ a7 _ a8 _ a9 h9 =>
    fusedG k0_pay1 k0_pay2 a8 a9 h9 (partG (fun v => v) k0_pay3 k0_pay4 a1 a2 a3 a4 a5 a6 a7) :=
  cc0__fused_block_kernel_eq_skeleton.trans (by unfold cc0__fused_block_kernel_skel; rw [k0_part1_eq_skeleton]; rfl)

def dat0 : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 2 t) (iblk0 V c 3 t) (iblk0 V c 4 t) (iblk0 V c 5 t) (iblk0 V c 6 t)
    | ⟨8, _⟩ => out0_8 (iblk0 V c 0 t) (iblk0 V c 1 t) (iblk0 V c 2 t) (iblk0 V c 3 t) (iblk0 V c 4 t) (iblk0 V c 5 t) (iblk0 V c 6 t)
  Φ _ := Pipeline.ΦA spec0 c
  q _ := fullShare
  owed _ := 0

theorem A_eq0 (w : Fin cfg0.W) : (dat0 V c).A w = V c (Pipeline.arrRef spec0 w) := by
  dsimp only [dat0]

theorem after0_7 (t : Fin cfg0.N) : (dat0 V c).after 7 t = out0_7 (iblk0 V c 0 t) (iblk0 V c 1 t) (iblk0 V c 2 t) (iblk0 V c 3 t) (iblk0 V c 4 t) (iblk0 V c 5 t) (iblk0 V c 6 t) := by dsimp only [dat0]
theorem after0_8 (t : Fin cfg0.N) : (dat0 V c).after 8 t = out0_8 (iblk0 V c 0 t) (iblk0 V c 1 t) (iblk0 V c 2 t) (iblk0 V c 3 t) (iblk0 V c 4 t) (iblk0 V c 5 t) (iblk0 V c 6 t) := by dsimp only [dat0]

-- for the seven inputs `before` equals `after`: both are the block read off the entry array
theorem before0 (t : Fin cfg0.N) : ∀ w : Fin cfg0.W, w.val < 7 → ∀ d, (dat0 V c).before w t d = (dat0 V c).after w t
  | ⟨0, _⟩, _, d | ⟨1, _⟩, _, d | ⟨2, _⟩, _, d | ⟨3, _⟩, _, d | ⟨4, _⟩, _, d | ⟨5, _⟩, _, d | ⟨6, _⟩, _, d =>
    Eq.trans ((dat0 V c).before_in_eq_fetched _ rfl (fun _ => rfl) (fun _ _ _ => rfl)
      (fun t => by dsimp only [dat0]; unfold Dat.blockOf iblk0; try rfl) t d)
      (by unfold Dat.fetched Dat.blockOf; dsimp only [dat0]; unfold iblk0; try rfl)
  | ⟨_ + 7, _⟩, h, _ => absurd h (Nat.not_lt.mpr (Nat.le_add_left ..))

-- rewrite the inputs by `before`, apply the shared body's triple; the invariant and the owed tallies pass through
theorem body_obligation0 : BodyObligation (dat0 (F := F) V c) (defs₀ (F := F)) Variants.none () Set.univ := fun t => by
  rw [bigSep_W0, bigSep_W0, show (dat0 V c).owesAt () t.succ = (dat0 V c).owesAt () t.castSucc from rfl]
  simp (disch := decide) only [before0 V c t]
  dsimp only [dat0, out0_7, out0_8]
  change _ ⊢ wp _ _ _ (bodyAt0 t) _
  unfold bodyAt0
  rw [kernel0_eq]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply sound_fusedG (c := c) (E := Set.univ)
  iframe H0 H1 H2 H3 H4 H5 H6 H7 H8
  iintro ⟨H0, H1, H2, H3, H4, H5, H6, H7, H8⟩
  iframe

end Regions

end Cert.Kernel.Hand

end
-- ==== Proof.K.Fused1.lean ====
import proofs.«411758_j88313117540961_2_alg».proof.Proof.Gen.Kernel.Launch
import proofs.«411758_j88313117540961_2_alg».proof.Proof.Gen.Kernel.Skeleton
import proofs.«411758_j88313117540961_2_alg».proof.Proof.Gen.Kernel.Points
import proofs.«411758_j88313117540961_2_alg».proof.Proof.K.FusedBody
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.Kernel Cert.Kernel.Gen

variable {F : FTy → Type} [FloatOps F]

section Regions
variable (V : (c : Dev nD) → (b : Ref sig .tc) → Buf (Elt F) ((c : Thread nD τ).loc b)) (c : Dev nD)

def iblk1 (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S2000x128 := Rect.unit (s := S2000x128) ![0, 0] S2000x128.size inb_S2000x128_S2000x128_0_0
abbrev r1_1 : Rect S2000x1 := Rect.unit (s := S2000x1) ![0, 0] S2000x1.size inb_S2000x1_S2000x1_0_0
abbrev r1_2 : Rect S128x128 := Rect.unit (s := S128x128) ![0, 0] S128x128.size inb_S128x128_S128x128_0_0
abbrev r1_3 : Rect S1x128 := Rect.unit (s := S1x128) ![0, 0] S1x128.size inb_S1x128_S1x128_0_0

variable (x0 x1 : Vec F S2000x128 .f32) (x2 : Vec F S2000x1 .f32) (x3 : Vec F S128x128 .f32) (x4 x5 x6 : Vec F S1x128 .f32)

abbrev mid1_a : FVec F S2000x128 .f32 := k1_pay3 (View.ld x1 r1_0)
abbrev mid1_b : FVec F S2000x128 .f32 :=
  k1_pay4 (View.ld x1 r1_0) (View.ld x0 r1_0) (View.ld x2 r1_1) (View.ld x3 r1_2) (View.ld x4 r1_3) (View.ld x5 r1_3)
abbrev mid1_c : FVec F S1x128 .f32 := k1_pay5 (View.ld x6 r1_3)

def out1_7 : Vec F S2000x128 .f32 :=
  View.canon [⟨r1_0, k1_pay1 (mid1_a x1) (mid1_b x0 x1 x2 x3 x4 x5) (mid1_c x6)⟩]

def out1_8 : Vec F S2000x128 .bf16 :=
  View.canon [⟨r1_0, k1_pay2 (mid1_a x1) (mid1_b x0 x1 x2 x3 x4 x5) (mid1_c x6)⟩]

-- the kernel function is the shared body at this region's payloads
theorem kernel1_eq : cc1__fused_block_kernel (F := F) = fun i a1 _ a2 _ a3 _ a4 _ a5 _ a6 _ a7 _ a8 _ a9 h9 =>
    fusedG k1_pay1 k1_pay2 a8 a9 h9 (partG k1_pay3 k1_pay4 k1_pay5 a1 a2 a3 a4 a5 a6 a7) :=
  cc1__fused_block_kernel_eq_skeleton.trans (by unfold cc1__fused_block_kernel_skel; rw [k1_part1_eq_skeleton]; rfl)

def dat1 : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t) (iblk1 V c 3 t) (iblk1 V c 4 t) (iblk1 V c 5 t) (iblk1 V c 6 t)
    | ⟨8, _⟩ => out1_8 (iblk1 V c 0 t) (iblk1 V c 1 t) (iblk1 V c 2 t) (iblk1 V c 3 t) (iblk1 V c 4 t) (iblk1 V c 5 t) (iblk1 V c 6 t)
  Φ _ := Pipeline.ΦA spec1 c
  q _ := fullShare
  owed _ := 0

theorem A_eq1 (w : Fin cfg1.W) : (dat1 V c).A w = V c (Pipeline.arrRef spec1 w) := by
  dsimp only [dat1]

theorem after1_7 (t : Fin cfg1.N) : (dat1 V c).after 7 t = out1_7 (iblk1 V c 0 t) (iblk1 V c 1 t) (iblk1 V c 2 t) (iblk1 V c 3 t) (iblk1 V c 4 t) (iblk1 V c 5 t) (iblk1 V c 6 t) := by dsimp only [dat1]
theorem after1_8 (t : Fin cfg1.N) : (dat1 V c).after 8 t = out1_8 (iblk1 V c 0 t) (iblk1 V c 1 t) (iblk1 V c 2 t) (iblk1 V c 3 t) (iblk1 V c 4 t) (iblk1 V c 5 t) (iblk1 V c 6 t) := by dsimp only [dat1]

-- for the seven inputs `before` equals `after`: both are the block read off the entry array
theorem before1 (t : Fin cfg1.N) : ∀ w : Fin cfg1.W, w.val < 7 → ∀ d, (dat1 V c).before w t d = (dat1 V c).after w t
  | ⟨0, _⟩, _, d | ⟨1, _⟩, _, d | ⟨2, _⟩, _, d | ⟨3, _⟩, _, d | ⟨4, _⟩, _, d | ⟨5, _⟩, _, d | ⟨6, _⟩, _, d =>
    Eq.trans ((dat1 V c).before_in_eq_fetched _ rfl (fun _ => rfl) (fun _ _ _ => rfl)
      (fun t => by dsimp only [dat1]; unfold Dat.blockOf iblk1; try rfl) t d)
      (by unfold Dat.fetched Dat.blockOf; dsimp only [dat1]; unfold iblk1; try rfl)
  | ⟨_ + 7, _⟩, h, _ => absurd h (Nat.not_lt.mpr (Nat.le_add_left ..))

-- rewrite the inputs by `before`, apply the shared body's triple; the invariant and the owed tallies pass through
theorem body_obligation1 : BodyObligation (dat1 (F := F) V c) (defs₀ (F := F)) Variants.none () Set.univ := fun t => by
  rw [bigSep_W1, bigSep_W1, show (dat1 V c).owesAt () t.succ = (dat1 V c).owesAt () t.castSucc from rfl]
  simp (disch := decide) only [before1 V c t]
  dsimp only [dat1, out1_7, out1_8]
  change _ ⊢ wp _ _ _ (bodyAt1 t) _
  unfold bodyAt1
  rw [kernel1_eq]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply sound_fusedG (c := c) (E := Set.univ)
  iframe H0 H1 H2 H3 H4 H5 H6 H7 H8
  iintro ⟨H0, H1, H2, H3, H4, H5, H6, H7, H8⟩
  iframe

end Regions

end Cert.Kernel.Hand

end
-- ==== Proof.K.Fused2.lean ====
import proofs.«411758_j88313117540961_2_alg».proof.Proof.Gen.Kernel.Launch
import proofs.«411758_j88313117540961_2_alg».proof.Proof.Gen.Kernel.Skeleton
import proofs.«411758_j88313117540961_2_alg».proof.Proof.Gen.Kernel.Points
import proofs.«411758_j88313117540961_2_alg».proof.Proof.K.FusedBody
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.Kernel Cert.Kernel.Gen

variable {F : FTy → Type} [FloatOps F]

section Regions
variable (V : (c : Dev nD) → (b : Ref sig .tc) → Buf (Elt F) ((c : Thread nD τ).loc b)) (c : Dev nD)

def iblk2 (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_0 : Rect S2000x128 := Rect.unit (s := S2000x128) ![0, 0] S2000x128.size inb_S2000x128_S2000x128_0_0
abbrev r2_1 : Rect S2000x1 := Rect.unit (s := S2000x1) ![0, 0] S2000x1.size inb_S2000x1_S2000x1_0_0
abbrev r2_2 : Rect S128x128 := Rect.unit (s := S128x128) ![0, 0] S128x128.size inb_S128x128_S128x128_0_0
abbrev r2_3 : Rect S1x128 := Rect.unit (s := S1x128) ![0, 0] S1x128.size inb_S1x128_S1x128_0_0

variable (x0 x1 : Vec F S2000x128 .f32) (x2 : Vec F S2000x1 .f32) (x3 : Vec F S128x128 .f32) (x4 x5 x6 : Vec F S1x128 .f32)

abbrev mid2_a : FVec F S2000x128 .f32 := k2_pay3 (View.ld x1 r2_0)
abbrev mid2_b : FVec F S2000x128 .f32 :=
  k2_pay4 (View.ld x1 r2_0) (View.ld x0 r2_0) (View.ld x2 r2_1) (View.ld x3 r2_2) (View.ld x4 r2_3) (View.ld x5 r2_3)
abbrev mid2_c : FVec F S1x128 .f32 := k2_pay5 (View.ld x6 r2_3)

def out2_7 : Vec F S2000x128 .f32 :=
  View.canon [⟨r2_0, k2_pay1 (mid2_a x1) (mid2_b x0 x1 x2 x3 x4 x5) (mid2_c x6)⟩]

def out2_8 : Vec F S2000x128 .bf16 :=
  View.canon [⟨r2_0, k2_pay2 (mid2_a x1) (mid2_b x0 x1 x2 x3 x4 x5) (mid2_c x6)⟩]

-- the kernel function is the shared body at this region's payloads
theorem kernel2_eq : cc2__fused_block_kernel (F := F) = fun i a1 _ a2 _ a3 _ a4 _ a5 _ a6 _ a7 _ a8 _ a9 h9 =>
    fusedG k2_pay1 k2_pay2 a8 a9 h9 (partG k2_pay3 k2_pay4 k2_pay5 a1 a2 a3 a4 a5 a6 a7) :=
  cc2__fused_block_kernel_eq_skeleton.trans (by unfold cc2__fused_block_kernel_skel; rw [k2_part1_eq_skeleton]; rfl)

def dat2 : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => out2_7 (iblk2 V c 0 t) (iblk2 V c 1 t) (iblk2 V c 2 t) (iblk2 V c 3 t) (iblk2 V c 4 t) (iblk2 V c 5 t) (iblk2 V c 6 t)
    | ⟨8, _⟩ => out2_8 (iblk2 V c 0 t) (iblk2 V c 1 t) (iblk2 V c 2 t) (iblk2 V c 3 t) (iblk2 V c 4 t) (iblk2 V c 5 t) (iblk2 V c 6 t)
  Φ _ := Pipeline.ΦA spec2 c
  q _ := fullShare
  owed _ := 0

theorem A_eq2 (w : Fin cfg2.W) : (dat2 V c).A w = V c (Pipeline.arrRef spec2 w) := by
  dsimp only [dat2]

theorem after2_7 (t : Fin cfg2.N) : (dat2 V c).after 7 t = out2_7 (iblk2 V c 0 t) (iblk2 V c 1 t) (iblk2 V c 2 t) (iblk2 V c 3 t) (iblk2 V c 4 t) (iblk2 V c 5 t) (iblk2 V c 6 t) := by dsimp only [dat2]
theorem after2_8 (t : Fin cfg2.N) : (dat2 V c).after 8 t = out2_8 (iblk2 V c 0 t) (iblk2 V c 1 t) (iblk2 V c 2 t) (iblk2 V c 3 t) (iblk2 V c 4 t) (iblk2 V c 5 t) (iblk2 V c 6 t) := by dsimp only [dat2]

-- for the seven inputs `before` equals `after`: both are the block read off the entry array
theorem before2 (t : Fin cfg2.N) : ∀ w : Fin cfg2.W, w.val < 7 → ∀ d, (dat2 V c).before w t d = (dat2 V c).after w t
  | ⟨0, _⟩, _, d | ⟨1, _⟩, _, d | ⟨2, _⟩, _, d | ⟨3, _⟩, _, d | ⟨4, _⟩, _, d | ⟨5, _⟩, _, d | ⟨6, _⟩, _, d =>
    Eq.trans ((dat2 V c).before_in_eq_fetched _ rfl (fun _ => rfl) (fun _ _ _ => rfl)
      (fun t => by dsimp only [dat2]; unfold Dat.blockOf iblk2; try rfl) t d)
      (by unfold Dat.fetched Dat.blockOf; dsimp only [dat2]; unfold iblk2; try rfl)
  | ⟨_ + 7, _⟩, h, _ => absurd h (Nat.not_lt.mpr (Nat.le_add_left ..))

-- rewrite the inputs by `before`, apply the shared body's triple; the invariant and the owed tallies pass through
theorem body_obligation2 : BodyObligation (dat2 (F := F) V c) (defs₀ (F := F)) Variants.none () Set.univ := fun t => by
  rw [bigSep_W2, bigSep_W2, show (dat2 V c).owesAt () t.succ = (dat2 V c).owesAt () t.castSucc from rfl]
  simp (disch := decide) only [before2 V c t]
  dsimp only [dat2, out2_7, out2_8]
  change _ ⊢ wp _ _ _ (bodyAt2 t) _
  unfold bodyAt2
  rw [kernel2_eq]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply sound_fusedG (c := c) (E := Set.univ)
  iframe H0 H1 H2 H3 H4 H5 H6 H7 H8
  iintro ⟨H0, H1, H2, H3, H4, H5, H6, H7, H8⟩
  iframe

end Regions

end Cert.Kernel.Hand

end
-- ==== Proof.K.Pool.Runs.lean ====
import proofs.«411758_j88313117540961_2_alg».proof.Proof.Gen.Kernel.Launch
import proofs.«411758_j88313117540961_2_alg».proof.Proof.Gen.Kernel.Skeleton
import proofs.«411758_j88313117540961_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev cond3_0 (i : grid3.Coords) : Prop := (Scalar.cmpi .ne (Scalar.extui (Scalar.cmpi .eq (BitVec.ofNat 32 (i 0).val) 0#32)) 0#32) = 1#1

theorem hcond3_0 : ∀ t : Fin cfg3.N, cond3_0 (grid3.coords t) ↔ t.val % 25 = 0 :=
  (by decide +kernel : ∀ t : Fin grid3.N, cond3_0 (grid3.coords t) ↔ t.val % 25 = 0)

abbrev cond3_1 (i : grid3.Coords) : Prop := k3_cond2 i = 1#1

theorem hcond3_1 : ∀ t : Fin cfg3.N, cond3_1 (grid3.coords t) ↔ t.val % 25 = 24 :=
  (by decide +kernel : ∀ t : Fin grid3.N, cond3_1 (grid3.coords t) ↔ t.val % 25 = 24)

theorem idle3_2 : ∀ t : Fin cfg3.N, cfg3.idle 2 (grid3.coords t) = false ↔ t.val % 25 = 24 :=
  (by decide +kernel : ∀ t : Fin grid3.N, cfg3.idle 2 (grid3.coords t) = false ↔ t.val % 25 = 24)

abbrev VO3_2 : View sig .tc .vmem S128x128 .f32 := (Memref.whole cc3_stg2_0 : Memref sig .tc .vmem S128x128 .f32).view

abbrev ms3_0 (t : Fin cfg3.N) : Memref sig .tc .vmem S2000x128 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S2000x1 .i32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S128x128 .f32 := win3_2.stage (cfg3.slots t 2)
abbrev hs3_2 (t : Fin cfg3.N) : (ms3_2 t).IsWhole := hstage3_2 ((cfg3.slots t 2).cast nbuf3_2)

abbrev scM3_0 : Memref sig .tc .vmem S128x128 .f32 := Memref.whole cc3_scratch0
abbrev scM3_1 : Memref sig .tc .vmem S1x128 .f32 := Memref.whole cc3_scratch1

abbrev VS3_0 : View sig .tc .vmem S128x128 .f32 := scM3_0.view
abbrev VS3_1 : View sig .tc .vmem S1x128 .f32 := scM3_1.view

theorem PhiA3_eq (c : Dev nD) :
    (Pipeline.ΦA spec3 c : sProp 𝕄)
      = iprop(iprop(iprop((∃ d, owns (c : Thread nD τ) scM3_0 fullShare d) ∗ (∃ d, owns (c : Thread nD τ) scM3_1 fullShare d))
          ∗ Pipeline.scopedRestBut (Ix := Unit) (Name := ℕ) (U := UR sig nD τ) (Lvl := ℕ) (Val := Elt F) spec3 c [cc3_scratch0, cc3_scratch1]) ∗ (∃ r, prngReg c r)) := by
  unfold Pipeline.ΦA; rw [scopedRest3_split]; simp only [scM3_0, scM3_1, owns_whole]; try rfl

section Run
variable (c : Dev nD) (i : grid3.Coords) (arg1 : Memref sig .tc .vmem S2000x128 .f32) (harg1 : arg1.IsWhole) (arg2 : Memref sig .tc .vmem S2000x1 .i32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole)

set_option maxHeartbeats 1000000 in
/-- The first point: both accumulators are cleared and the block is added to them; the output is left as it was. -/
noncomputable def kernelRun3_A (hc0 : cond3_0 i) (hc1 : ¬cond3_1 i)
    (x0 : Vec F S2000x128 .f32) (x1 : Vec F S2000x1 .i32) :
    Σ' (L2 : List (View.Piece (Elt F) S128x128 .f32)) (LS0 : List (View.Piece (Elt F) S128x128 .f32)), { LS1 : List (View.Piece (Elt F) S1x128 .f32) //
      ∀ (xi2 : Vec F S128x128 .f32) (E : Set ℕ) (K : PUnit → sProp 𝕄),
        iprop(owns (c : Thread nD τ) arg1 fullShare x0 ∗ owns (c : Thread nD τ) arg2 fullShare x1 ∗ owns (c : Thread nD τ) arg3 fullShare xi2
            ∗ (∃ d, owns (c : Thread nD τ) arg4 fullShare d) ∗ (∃ d, owns (c : Thread nD τ) arg5 fullShare d)
            ∗ (iprop(owns (c : Thread nD τ) arg1 fullShare x0 ∗ owns (c : Thread nD τ) arg2 fullShare x1 ∗ owns (c : Thread nD τ) arg3 fullShare xi2
                ∗ (∃ f, arg4.view.loc (c : Thread nD τ) ↦[arg4.view.set]{fullShare} arg4.view.writes (Elt F) f LS0)
                ∗ (∃ f, arg5.view.loc (c : Thread nD τ) ↦[arg5.view.set]{fullShare} arg5.view.writes (Elt F) f LS1)) -∗ K ⟨⟩))
          ⊢ wp frame (wpE (defs₀ (F := F)) Variants.none c none) E (cc3__pool_kernel i arg1 harg1 arg2 harg2 arg3 harg3 arg4 harg4 arg5 harg5) K } := by
  refine ⟨[], ?_, ?_, fun xi2 E K => ?run⟩
  case run =>
    simp only [cc3__pool_kernel_eq_skeleton]; unfold cc3__pool_kernel_skel
    unfold owns
    iintro ⟨⟨%f0, %hf0, H0⟩, ⟨%f1, %hf1, H1⟩, ⟨%f2, %hf2, H2⟩, ⟨%ds0, %fs0, -, HS0⟩, ⟨%ds1, %fs1, -, HS1⟩, Hk⟩
    obtain rfl := harg1.eq_unread hf0; obtain rfl := harg2.eq_unread hf1; obtain rfl := harg3.eq_unread hf2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [HS0]; · iexists _; iexact HS0
    iexists _; iexact HS1

set_option maxHeartbeats 1000000 in
/-- A middle point: the block is added to both accumulators; the output is left as it was. -/
noncomputable def kernelRun3_B (hc0 : ¬cond3_0 i) (hc1 : ¬cond3_1 i)
    (x0 : Vec F S2000x128 .f32) (x1 : Vec F S2000x1 .i32) (xs0 : Vec F S128x128 .f32) (xs1 : Vec F S1x128 .f32) :
    Σ' (L2 : List (View.Piece (Elt F) S128x128 .f32)) (LS0 : List (View.Piece (Elt F) S128x128 .f32)), { LS1 : List (View.Piece (Elt F) S1x128 .f32) //
      ∀ (xi2 : Vec F S128x128 .f32) (E : Set ℕ) (K : PUnit → sProp 𝕄),
        iprop(owns (c : Thread nD τ) arg1 fullShare x0 ∗ owns (c : Thread nD τ) arg2 fullShare x1 ∗ owns (c : Thread nD τ) arg3 fullShare xi2
            ∗ owns (c : Thread nD τ) arg4 fullShare xs0 ∗ owns (c : Thread nD τ) arg5 fullShare xs1
            ∗ (iprop(owns (c : Thread nD τ) arg1 fullShare x0 ∗ owns (c : Thread nD τ) arg2 fullShare x1 ∗ owns (c : Thread nD τ) arg3 fullShare xi2
                ∗ (∃ f, arg4.view.loc (c : Thread nD τ) ↦[arg4.view.set]{fullShare} arg4.view.writes (Elt F) f LS0)
                ∗ (∃ f, arg5.view.loc (c : Thread nD τ) ↦[arg5.view.set]{fullShare} arg5.view.writes (Elt F) f LS1)) -∗ K ⟨⟩))
          ⊢ wp frame (wpE (defs₀ (F := F)) Variants.none c none) E (cc3__pool_kernel i arg1 harg1 arg2 harg2 arg3 harg3 arg4 harg4 arg5 harg5) K } := by
  refine ⟨[], ?_, ?_, fun xi2 E K => ?run⟩
  case run =>
    simp only [cc3__pool_kernel_eq_skeleton]; unfold cc3__pool_kernel_skel
    unfold owns
    iintro ⟨⟨%f0, %hf0, H0⟩, ⟨%f1, %hf1, H1⟩, ⟨%f2, %hf2, H2⟩, ⟨%fs0, %hfs0, HS0⟩, ⟨%fs1, %hfs1, HS1⟩, Hk⟩
    obtain rfl := harg1.eq_unread hf0; obtain rfl := harg2.eq_unread hf1; obtain rfl := harg3.eq_unread hf2
    obtain rfl := harg4.eq_unread hfs0; obtain rfl := harg5.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [HS0]; · iexists _; iexact HS0
    iexists _; iexact HS1

set_option maxHeartbeats 1000000 in
/-- The last point: the block is added to both accumulators, and the output gets the sums divided by the counts. -/
noncomputable def kernelRun3_C (hc0 : ¬cond3_0 i) (hc1 : cond3_1 i)
    (x0 : Vec F S2000x128 .f32) (x1 : Vec F S2000x1 .i32) (xs0 : Vec F S128x128 .f32) (xs1 : Vec F S1x128 .f32) :
    Σ' (L2 : List (View.Piece (Elt F) S128x128 .f32)) (LS0 : List (View.Piece (Elt F) S128x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d)
            ∗ owns (c : Thread nD τ) arg4 fullShare xs0 ∗ owns (c : Thread nD τ) arg5 fullShare xs1
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L2)
                ∗ (∃ f, arg4.view.loc (c : Thread nD τ) ↦[arg4.view.set]{fullShare} arg4.view.writes (Elt F) f LS0)
                ∗ (∃ f, arg5.view.loc (c : Thread nD τ) ↦[arg5.view.set]{fullShare} arg5.view.writes (Elt F) f LS1)) -∗ K ⟨⟩))
          ⊢ wp frame (wpE (defs₀ (F := F)) Variants.none c none) E (cc3__pool_kernel i arg1 harg1 arg2 harg2 arg3 harg3 arg4 harg4 arg5 harg5) K } := by
  refine ⟨?_, ?_, ?_, fun E K => ?run⟩
  case run =>
    simp only [cc3__pool_kernel_eq_skeleton]; unfold cc3__pool_kernel_skel
    unfold owns
    iintro ⟨⟨%f0, %hf0, H0⟩, ⟨%f1, %hf1, H1⟩, ⟨%d2, %f2, -, H2⟩, ⟨%fs0, %hfs0, HS0⟩, ⟨%fs1, %hfs1, HS1⟩, Hk⟩
    obtain rfl := harg1.eq_unread hf0; obtain rfl := harg2.eq_unread hf1
    obtain rfl := harg4.eq_unread hfs0; obtain rfl := harg5.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [HS0]; · iexists _; iexact HS0
    iexists _; iexact HS1

end Run

end Cert.Kernel.Hand

end
-- ==== Proof.K.Pool.lean ====
import proofs.«411758_j88313117540961_2_alg».proof.Proof.K.Pool.Runs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

section Cases
variable (c : Dev nD) (i : grid3.Coords) (arg1 : Memref sig .tc .vmem S2000x128 .f32) (harg1 : arg1.IsWhole) (arg2 : Memref sig .tc .vmem S2000x1 .i32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole)

section A
variable (hc0 : cond3_0 i) (hc1 : ¬cond3_1 i) (x0 : Vec F S2000x128 .f32) (x1 : Vec F S2000x1 .i32)

theorem scover3_A_0 (y : S128x128.Idx) : ∃ pc ∈ (kernelRun3_A c i arg1 harg1 arg2 harg2 arg3 harg3 arg4 harg4 arg5 harg5 hc0 hc1 x0 x1).2.1, y ∈ pc.1.set :=
  View.cover_of_tiledL _ S128x128.size (by sl_kernel_rfl) y

def sout3_A_0 : Vec F S128x128 .f32 :=
  VS3_0.read (Elt F) (VS3_0.writes (Elt F) VS3_0.junk (kernelRun3_A c i arg1 harg1 arg2 harg2 arg3 harg3 arg4 harg4 arg5 harg5 hc0 hc1 x0 x1).2.1)

theorem scover3_A_1 (y : S1x128.Idx) : ∃ pc ∈ (kernelRun3_A c i arg1 harg1 arg2 harg2 arg3 harg3 arg4 harg4 arg5 harg5 hc0 hc1 x0 x1).2.2.1, y ∈ pc.1.set :=
  View.cover_of_tiledL _ S1x128.size (by sl_kernel_rfl) y

def sout3_A_1 : Vec F S1x128 .f32 :=
  VS3_1.read (Elt F) (VS3_1.writes (Elt F) VS3_1.junk (kernelRun3_A c i arg1 harg1 arg2 harg2 arg3 harg3 arg4 harg4 arg5 harg5 hc0 hc1 x0 x1).2.2.1)

abbrev outs3_A : Vec F S128x128 .f32 × Vec F S128x128 .f32 × Vec F S1x128 .f32 :=
  (VO3_2.read (Elt F) VO3_2.junk, sout3_A_0 c i arg1 harg1 arg2 harg2 arg3 harg3 arg4 harg4 arg5 harg5 hc0 hc1 x0 x1, sout3_A_1 c i arg1 harg1 arg2 harg2 arg3 harg3 arg4 harg4 arg5 harg5 hc0 hc1 x0 x1)

end A

section B
variable (hc0 : ¬cond3_0 i) (hc1 : ¬cond3_1 i) (x0 : Vec F S2000x128 .f32) (x1 : Vec F S2000x1 .i32) (xs0 : Vec F S128x128 .f32) (xs1 : Vec F S1x128 .f32)

theorem scover3_B_0 (y : S128x128.Idx) : ∃ pc ∈ (kernelRun3_B c i arg1 harg1 arg2 harg2 arg3 harg3 arg4 harg4 arg5 harg5 hc0 hc1 x0 x1 xs0 xs1).2.1, y ∈ pc.1.set :=
  View.cover_of_tiledL _ S128x128.size (by sl_kernel_rfl) y

def sout3_B_0 : Vec F S128x128 .f32 :=
  VS3_0.read (Elt F) (VS3_0.writes (Elt F) VS3_0.junk (kernelRun3_B c i arg1 harg1 arg2 harg2 arg3 harg3 arg4 harg4 arg5 harg5 hc0 hc1 x0 x1 xs0 xs1).2.1)

theorem scover3_B_1 (y : S1x128.Idx) : ∃ pc ∈ (kernelRun3_B c i arg1 harg1 arg2 harg2 arg3 harg3 arg4 harg4 arg5 harg5 hc0 hc1 x0 x1 xs0 xs1).2.2.1, y ∈ pc.1.set :=
  View.cover_of_tiledL _ S1x128.size (by sl_kernel_rfl) y

def sout3_B_1 : Vec F S1x128 .f32 :=
  VS3_1.read (Elt F) (VS3_1.writes (Elt F) VS3_1.junk (kernelRun3_B c i arg1 harg1 arg2 harg2 arg3 harg3 arg4 harg4 arg5 harg5 hc0 hc1 x0 x1 xs0 xs1).2.2.1)

abbrev outs3_B : Vec F S128x128 .f32 × Vec F S128x128 .f32 × Vec F S1x128 .f32 :=
  (VO3_2.read (Elt F) VO3_2.junk, sout3_B_0 c i arg1 harg1 arg2 harg2 arg3 harg3 arg4 harg4 arg5 harg5 hc0 hc1 x0 x1 xs0 xs1, sout3_B_1 c i arg1 harg1 arg2 harg2 arg3 harg3 arg4 harg4 arg5 harg5 hc0 hc1 x0 x1 xs0 xs1)

end B

section C
variable (hc0 : ¬cond3_0 i) (hc1 : cond3_1 i) (x0 : Vec F S2000x128 .f32) (x1 : Vec F S2000x1 .i32) (xs0 : Vec F S128x128 .f32) (xs1 : Vec F S1x128 .f32)

theorem cover3_C_2 (y : S128x128.Idx) : ∃ pc ∈ (kernelRun3_C c i arg1 harg1 arg2 harg2 arg3 harg3 arg4 harg4 arg5 harg5 hc0 hc1 x0 x1 xs0 xs1).1, y ∈ pc.1.set :=
  View.cover_of_tiledL _ S128x128.size (by sl_kernel_rfl) y

def out3_C_2 : Vec F S128x128 .f32 :=
  VO3_2.read (Elt F) (VO3_2.writes (Elt F) VO3_2.junk (kernelRun3_C c i arg1 harg1 arg2 harg2 arg3 harg3 arg4 harg4 arg5 harg5 hc0 hc1 x0 x1 xs0 xs1).1)

theorem scover3_C_0 (y : S128x128.Idx) : ∃ pc ∈ (kernelRun3_C c i arg1 harg1 arg2 harg2 arg3 harg3 arg4 harg4 arg5 harg5 hc0 hc1 x0 x1 xs0 xs1).2.1, y ∈ pc.1.set :=
  View.cover_of_tiledL _ S128x128.size (by sl_kernel_rfl) y

def sout3_C_0 : Vec F S128x128 .f32 :=
  VS3_0.read (Elt F) (VS3_0.writes (Elt F) VS3_0.junk (kernelRun3_C c i arg1 harg1 arg2 harg2 arg3 harg3 arg4 harg4 arg5 harg5 hc0 hc1 x0 x1 xs0 xs1).2.1)

theorem scover3_C_1 (y : S1x128.Idx) : ∃ pc ∈ (kernelRun3_C c i arg1 harg1 arg2 harg2 arg3 harg3 arg4 harg4 arg5 harg5 hc0 hc1 x0 x1 xs0 xs1).2.2.1, y ∈ pc.1.set :=
  View.cover_of_tiledL _ S1x128.size (by sl_kernel_rfl) y

def sout3_C_1 : Vec F S1x128 .f32 :=
  VS3_1.read (Elt F) (VS3_1.writes (Elt F) VS3_1.junk (kernelRun3_C c i arg1 harg1 arg2 harg2 arg3 harg3 arg4 harg4 arg5 harg5 hc0 hc1 x0 x1 xs0 xs1).2.2.1)

abbrev outs3_C : Vec F S128x128 .f32 × Vec F S128x128 .f32 × Vec F S1x128 .f32 :=
  (out3_C_2 c i arg1 harg1 arg2 harg2 arg3 harg3 arg4 harg4 arg5 harg5 hc0 hc1 x0 x1 xs0 xs1, sout3_C_0 c i arg1 harg1 arg2 harg2 arg3 harg3 arg4 harg4 arg5 harg5 hc0 hc1 x0 x1 xs0 xs1, sout3_C_1 c i arg1 harg1 arg2 harg2 arg3 harg3 arg4 harg4 arg5 harg5 hc0 hc1 x0 x1 xs0 xs1)

end C

end Cases

/-- The output block, the running sums and the running counts after position `n`, by recursion on the point before. -/
def outsAt3 (c : Dev nD) : (n : ℕ) → n < cfg3.N → Vec F S128x128 .f32 × Vec F S128x128 .f32 × Vec F S1x128 .f32
  | 0, hn => outs3_A c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) scM3_0 (Memref.isWhole_whole _) scM3_1 (Memref.isWhole_whole _) ((hcond3_0 ⟨0, hn⟩).mpr (Nat.zero_mod _)) (fun h => by have h := (hcond3_1 ⟨0, hn⟩).mp h; dsimp only at h; omega) (iblk3 V c 0 ⟨0, hn⟩) (iblk3 V c 1 ⟨0, hn⟩)
  | n + 1, hn =>
    if h0 : (n + 1) % 25 = 0 then
      outs3_A c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) scM3_0 (Memref.isWhole_whole _) scM3_1 (Memref.isWhole_whole _) ((hcond3_0 ⟨n + 1, hn⟩).mpr h0) (fun h => by have h := (hcond3_1 ⟨n + 1, hn⟩).mp h; dsimp only at h; omega) (iblk3 V c 0 ⟨n + 1, hn⟩) (iblk3 V c 1 ⟨n + 1, hn⟩)
    else if h1 : (n + 1) % 25 = 24 then
      outs3_C c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) scM3_0 (Memref.isWhole_whole _) scM3_1 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (outsAt3 c n (Nat.lt_of_succ_lt hn)).2.1 (outsAt3 c n (Nat.lt_of_succ_lt hn)).2.2
    else
      outs3_B c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) scM3_0 (Memref.isWhole_whole _) scM3_1 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (outsAt3 c n (Nat.lt_of_succ_lt hn)).2.1 (outsAt3 c n (Nat.lt_of_succ_lt hn)).2.2

theorem outsAt3_A (c : Dev nD) (t : Fin cfg3.N) (h0 : t.val % 25 = 0) (h1 : ¬t.val % 25 = 24) :
    outsAt3 V c t.val t.isLt = outs3_A c (grid3.coords t) (ms3_0 t) (hs3_0 t) (ms3_1 t) (hs3_1 t) (ms3_2 t) (hs3_2 t) scM3_0 (Memref.isWhole_whole _) scM3_1 (Memref.isWhole_whole _) ((hcond3_0 t).mpr h0) (fun h => h1 ((hcond3_1 t).mp h)) (iblk3 V c 0 t) (iblk3 V c 1 t) := by
  obtain ⟨n, hn⟩ := t
  cases n with
  | zero => rfl
  | succ n => exact (dif_pos h0).trans rfl

theorem outsAt3_B (c : Dev nD) (t : Fin cfg3.N) (h0 : ¬t.val % 25 = 0) (h1 : ¬t.val % 25 = 24) :
    outsAt3 V c t.val t.isLt = outs3_B c (grid3.coords t) (ms3_0 t) (hs3_0 t) (ms3_1 t) (hs3_1 t) (ms3_2 t) (hs3_2 t) scM3_0 (Memref.isWhole_whole _) scM3_1 (Memref.isWhole_whole _) (fun h => h0 ((hcond3_0 t).mp h)) (fun h => h1 ((hcond3_1 t).mp h)) (iblk3 V c 0 t) (iblk3 V c 1 t) (outsAt3 V c (t.val - 1) (Nat.lt_of_le_of_lt (Nat.sub_le _ _) t.isLt)).2.1 (outsAt3 V c (t.val - 1) (Nat.lt_of_le_of_lt (Nat.sub_le _ _) t.isLt)).2.2 := by
  obtain ⟨n, hn⟩ := t
  cases n with
  | zero => exact absurd (Nat.zero_mod _) h0
  | succ n => exact (dif_neg h0).trans ((dif_neg h1).trans rfl)

theorem outsAt3_C (c : Dev nD) (t : Fin cfg3.N) (h0 : ¬t.val % 25 = 0) (h1 : t.val % 25 = 24) :
    outsAt3 V c t.val t.isLt = outs3_C c (grid3.coords t) (ms3_0 t) (hs3_0 t) (ms3_1 t) (hs3_1 t) (ms3_2 t) (hs3_2 t) scM3_0 (Memref.isWhole_whole _) scM3_1 (Memref.isWhole_whole _) (fun h => h0 ((hcond3_0 t).mp h)) ((hcond3_1 t).mpr h1) (iblk3 V c 0 t) (iblk3 V c 1 t) (outsAt3 V c (t.val - 1) (Nat.lt_of_le_of_lt (Nat.sub_le _ _) t.isLt)).2.1 (outsAt3 V c (t.val - 1) (Nat.lt_of_le_of_lt (Nat.sub_le _ _) t.isLt)).2.2 := by
  obtain ⟨n, hn⟩ := t
  cases n with
  | zero => exact absurd (Nat.zero_mod _) h0
  | succ n => exact (dif_neg h0).trans ((dif_pos h1).trans rfl)

/-- The invariant after position `n`: both accumulators at what that point left in them. -/
def acc3 (c : Dev nD) (n : ℕ) (hn : n < cfg3.N) : sProp 𝕄 :=
  iprop(iprop(iprop(owns (c : Thread nD τ) scM3_0 fullShare (outsAt3 V c n hn).2.1 ∗ owns (c : Thread nD τ) scM3_1 fullShare (outsAt3 V c n hn).2.2)
    ∗ Pipeline.scopedRestBut (Ix := Unit) (Name := ℕ) (U := UR sig nD τ) (Lvl := ℕ) (Val := Elt F) spec3 c [cc3_scratch0, cc3_scratch1]) ∗ (∃ r, prngReg c r))

/-- The region invariant before position `n`: the launch's before the first point, `acc3` afterwards. -/
def PhiS3 (c : Dev nD) : (n : ℕ) → n ≤ cfg3.N → sProp 𝕄
  | 0, _ => Pipeline.ΦA spec3 c
  | n + 1, hn => acc3 V c n hn

theorem PhiS3_zero (c : Dev nD) (n : ℕ) (h : n ≤ cfg3.N) (hz : n = 0) : PhiS3 V c n h = Pipeline.ΦA spec3 c := by
  subst hz; rfl

theorem PhiS3_pos (c : Dev nD) (n : ℕ) (h : n ≤ cfg3.N) (hz : n ≠ 0) : PhiS3 V c n h = acc3 V c (n - 1) (by omega) := by
  cases n with
  | zero => exact absurd rfl hz
  | succ n => rfl

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => (outsAt3 V c t.val t.isLt).1
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem PhiS3_castSucc (c : Dev nD) (t : Fin cfg3.N) :
    (dat3 V c).Φ t.castSucc = PhiS3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = (outsAt3 V c t.val t.isLt).1 := by dsimp only [dat3]

theorem before3_0 (c : Dev nD) (t : Fin cfg3.N) (d) : (dat3 V c).before 0 t d = iblk3 V c 0 t :=
  ((dat3 V c).before_in_eq_fetched 0 rfl (fun _ => rfl) (fun _ _ _ => rfl) (fun t => by rw [after3_0]; unfold Dat.blockOf iblk3; rw [A_eq3]; try rfl) t d).trans
    (by unfold Dat.fetched Dat.blockOf iblk3; rw [A_eq3]; try rfl)
theorem before3_1 (c : Dev nD) (t : Fin cfg3.N) (d) : (dat3 V c).before 1 t d = iblk3 V c 1 t :=
  ((dat3 V c).before_in_eq_fetched 1 rfl (fun _ => rfl) (fun _ _ _ => rfl) (fun t => by rw [after3_1]; unfold Dat.blockOf iblk3; rw [A_eq3]; try rfl) t d).trans
    (by unfold Dat.fetched Dat.blockOf iblk3; rw [A_eq3]; try rfl)

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t)

set_option maxHeartbeats 4800000 in
/-- At every point the body takes the invariant before the point to the invariant after it, case by case. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).owesAt () t.succ = (dat3 V c).owesAt () t.castSucc from rfl,
    show (dat3 V c).Φ t.succ = acc3 V c t.val t.isLt from rfl, PhiS3_castSucc V c t,
    show (dat3 V c).leavesExact 0 t = owns (c : Thread nD τ) (ms3_0 t) fullShare ((dat3 V c).after 0 t) from rfl, after3_0,
    show (dat3 V c).leavesExact 1 t = owns (c : Thread nD τ) (ms3_1 t) fullShare ((dat3 V c).after 1 t) from rfl, after3_1]
  unfold acc3
  have hN : t.val < 25 := lt_of_lt_of_eq t.isLt (show cfg3.N = 25 from N_3)
  by_cases h1 : t.val % 25 = 24
  · have h0 : ¬t.val % 25 = 0 := by omega
    rw [show (dat3 V c).leavesExact 2 t = owns (c : Thread nD τ) (ms3_2 t) fullShare ((dat3 V c).after 2 t) from by
      unfold Dat.leavesExact; rw [(idle3_2 t).mpr h1], after3_2, outsAt3_C V c t h0 h1]
    dsimp only; unfold out3_C_2 sout3_C_0 sout3_C_1
    rw [PhiS3_pos V c t.val _ (by omega)]; unfold acc3
    iintro ⟨⟨⟨⟨HS0, HS1⟩, HR⟩, Hg⟩, Ho, ⟨%d0, H0⟩, ⟨%d1, H1⟩, H2⟩
    iapply ((kernelRun3_C c (grid3.coords t) _ _ _ _ _ _ _ _ _ _ (fun h => h0 ((hcond3_0 t).mp h)) ((hcond3_1 t).mpr h1) (iblk3 V c 0 t) (iblk3 V c 1 t) _ _).2.2.2 Set.univ _)
    iframe H0 H1 HS0 HS1
    isplitl [H2]
    · icases H2 with ⟨%d2, H2⟩; iexists _; iexact H2
    iintro ⟨H0, H1, ⟨%e2, H2⟩, ⟨%es0, HS0⟩, ⟨%es1, HS1⟩⟩
    iframe HR Hg Ho H0 H1
    isplitr [H2]
    · isplitl [HS0]
      · unfold owns; iexists _; isplitr
        swap; · iexact HS0
        ipureintro; exact View.read_writes_of_cover _ _ _ _ _ (scover3_C_0 c _ _ _ _ _ _ _ _ _ _ _ _ _ _ _ _ _)
      unfold owns; iexists _; isplitr
      swap; · iexact HS1
      ipureintro; exact View.read_writes_of_cover _ _ _ _ _ (scover3_C_1 c _ _ _ _ _ _ _ _ _ _ _ _ _ _ _ _ _)
    unfold owns; iexists _; isplitr
    swap; · iexact H2
    ipureintro; exact View.read_writes_of_cover _ _ _ _ _ (cover3_C_2 c _ _ _ _ _ _ _ _ _ _ _ _ _ _ _ _ _)
  · rw [Dat.leavesExact_idle (dat3 V c) 2 t (eq_true_of_ne_false (mt (idle3_2 t).mp h1)) (eq_false_of_ne_true (mt (flush3_2 t).mp h1))]
    by_cases h0 : t.val % 25 = 0
    · rw [outsAt3_A V c t h0 h1]
      dsimp only; unfold sout3_A_0 sout3_A_1
      rw [PhiS3_zero V c t.val _ (by omega), PhiA3_eq]
      iintro ⟨⟨⟨⟨HS0, HS1⟩, HR⟩, Hg⟩, Ho, ⟨%d0, H0⟩, ⟨%d1, H1⟩, ⟨%d2, H2⟩⟩
      iapply ((kernelRun3_A c (grid3.coords t) _ _ _ _ _ _ _ _ _ _ ((hcond3_0 t).mpr h0) (fun h => h1 ((hcond3_1 t).mp h)) (iblk3 V c 0 t) (iblk3 V c 1 t)).2.2.2 _ Set.univ _)
      iframe H0 H1 H2 HS0 HS1
      iintro ⟨H0, H1, H2, ⟨%es0, HS0⟩, ⟨%es1, HS1⟩⟩
      iframe HR Hg Ho H0 H1
      isplitr [H2]
      · isplitl [HS0]
        · unfold owns; iexists _; isplitr
          swap; · iexact HS0
          ipureintro; exact View.read_writes_of_cover _ _ _ _ _ (scover3_A_0 c _ _ _ _ _ _ _ _ _ _ _ _ _ _ _)
        unfold owns; iexists _; isplitr
        swap; · iexact HS1
        ipureintro; exact View.read_writes_of_cover _ _ _ _ _ (scover3_A_1 c _ _ _ _ _ _ _ _ _ _ _ _ _ _ _)
      iexists _; iexact H2
    · rw [outsAt3_B V c t h0 h1]
      dsimp only; unfold sout3_B_0 sout3_B_1
      rw [PhiS3_pos V c t.val _ (by omega)]; unfold acc3
      iintro ⟨⟨⟨⟨HS0, HS1⟩, HR⟩, Hg⟩, Ho, ⟨%d0, H0⟩, ⟨%d1, H1⟩, ⟨%d2, H2⟩⟩
      iapply ((kernelRun3_B c (grid3.coords t) _ _ _ _ _ _ _ _ _ _ (fun h => h0 ((hcond3_0 t).mp h)) (fun h => h1 ((hcond3_1 t).mp h)) (iblk3 V c 0 t) (iblk3 V c 1 t) _ _).2.2.2 _ Set.univ _)
      iframe H0 H1 H2 HS0 HS1
      iintro ⟨H0, H1, H2, ⟨%es0, HS0⟩, ⟨%es1, HS1⟩⟩
      iframe HR Hg Ho H0 H1
      isplitr [H2]
      · isplitl [HS0]
        · unfold owns; iexists _; isplitr
          swap; · iexact HS0
          ipureintro; exact View.read_writes_of_cover _ _ _ _ _ (scover3_B_0 c _ _ _ _ _ _ _ _ _ _ _ _ _ _ _ _ _)
        unfold owns; iexists _; isplitr
        swap; · iexact HS1
        ipureintro; exact View.read_writes_of_cover _ _ _ _ _ (scover3_B_1 c _ _ _ _ _ _ _ _ _ _ _ _ _ _ _ _ _)
      iexists _; iexact H2

theorem body_obligation3 (c : Dev nD) : BodyObligation (dat3 (F := F) V c) (defs₀ (F := F)) Variants.none () Set.univ := fun t => by
  rw [bigSep_W3, bigSep_W3]
  exact sound_body3 V c t

theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

theorem Phi_out3 (c : Dev nD) (t : Fin (cfg3.N + 1)) (ht : t.val ≠ 0) : (dat3 V c).Φ t ⊢ Pipeline.ΦA spec3 c := by
  rw [show (dat3 V c).Φ t = PhiS3 V c t.val (Nat.le_of_lt_succ t.isLt) from rfl, PhiS3_pos V c _ _ ht, PhiA3_eq]; unfold acc3
  iintro ⟨⟨⟨HS0, HS1⟩, HR⟩, Hg⟩
  isplitl [HS0 HS1 HR]
  · isplitl [HS0 HS1]
    · isplitl [HS0]
      · iexists _; iexact HS0
      iexists _; iexact HS1
    iexact HR
  iexact Hg

theorem hout3 (c : Dev nD) : (dat3 V c).Φ (Fin.last cfg3.N) ⊢ Pipeline.ΦA spec3 c :=
  Phi_out3 V c _ (by rw [Fin.val_last]; have : cfg3.N = 25 := N_3; omega)

end Cert.Kernel.Hand

end
-- ==== Proof.K.Run.lean ====
import proofs.«411758_j88313117540961_2_alg».proof.Proof.Gen.Kernel.Launch
import proofs.«411758_j88313117540961_2_alg».proof.Proof.Gen.Kernel.Skeleton
import proofs.«411758_j88313117540961_2_alg».proof.Proof.Gen.Kernel.Points
import proofs.«411758_j88313117540961_2_alg».proof.Proof.Gen.Kernel.Regions
import proofs.«411758_j88313117540961_2_alg».proof.Proof.K.Fused0
import proofs.«411758_j88313117540961_2_alg».proof.Proof.K.Fused1
import proofs.«411758_j88313117540961_2_alg».proof.Proof.K.Fused2
import proofs.«411758_j88313117540961_2_alg».proof.Proof.K.Pool
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => (s₀ m ρ).mem ((c : Dev nD), b)
abbrev W1 : Dev nD → Valuation τ sig (Elt F) := fun c => StableHlo.after hostOps0 (W0 m ρ c)
theorem W1_of (c : Dev nD) (r : Ref sig .tc) (h : r ∉ hostOps0_W) :
    W1 m ρ c (Proc.devRef .tc r) = W0 m ρ c (Proc.devRef .tc r) :=
  StableHlo.after_of_writes_sub hostOps0 _ hostOps0_writes h
abbrev W2 : Dev nD → Valuation τ sig (Elt F) := fun c => StableHlo.after hostOps0_1 (W1 m ρ c)
theorem W2_of (c : Dev nD) (r : Ref sig .tc) (h : r ∉ hostOps0_1_W) :
    W2 m ρ c (Proc.devRef .tc r) = W1 m ρ c (Proc.devRef .tc r) :=
  StableHlo.after_of_writes_sub hostOps0_1 _ hostOps0_1_writes h
abbrev W3 : Dev nD → Valuation τ sig (Elt F) := fun c => StableHlo.after hostOps0_2 (W2 m ρ c)
abbrev V3 : (c : Dev nD) → (b : Ref sig .tc) → Buf (Elt F) ((c : Thread nD τ).loc b) := fun c b => W3 m ρ c b
theorem W3_of (c : Dev nD) (r : Ref sig .tc) (h : r ∉ hostOps0_2_W) :
    W3 m ρ c (Proc.devRef .tc r) = W2 m ρ c (Proc.devRef .tc r) :=
  StableHlo.after_of_writes_sub hostOps0_2 _ hostOps0_2_writes h
def W4 (c : Dev nD) : Valuation τ sig (Elt F) :=
  Pipeline.withArrays spec0 c (W3 m ρ c) fun w => (dat0 (V3 m ρ) c).arrAt w cfg0.N
theorem W4_arr (c : Dev nD) (w : Fin cfg0.W) :
    W4 m ρ c (Proc.devRef .tc (Pipeline.arrRef spec0 w)) = (dat0 (V3 m ρ) c).arrAt w cfg0.N :=
  Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) :=
  Pipeline.withArrays_of_ne spec0 c _ _ b hb
theorem W4_in (c : Dev nD) (w : Fin cfg0.W) (hin : (cfg0.win w).isOut = false) :
    W4 m ρ c (Proc.devRef .tc (Pipeline.arrRef spec0 w)) = W3 m ρ c (Proc.devRef .tc (Pipeline.arrRef spec0 w)) :=
  (W4_arr m ρ c w).trans (((dat0 (V3 m ρ) c).arrAt_in w hin _).trans (A_eq0 (V3 m ρ) c w))
abbrev W5 : Dev nD → Valuation τ sig (Elt F) := fun c => StableHlo.after hostOps1 (W4 m ρ c)
abbrev V5 : (c : Dev nD) → (b : Ref sig .tc) → Buf (Elt F) ((c : Thread nD τ).loc b) := fun c b => W5 m ρ c b
theorem W5_of (c : Dev nD) (r : Ref sig .tc) (h : r ∉ hostOps1_W) :
    W5 m ρ c (Proc.devRef .tc r) = W4 m ρ c (Proc.devRef .tc r) :=
  StableHlo.after_of_writes_sub hostOps1 _ hostOps1_writes h
def W6 (c : Dev nD) : Valuation τ sig (Elt F) :=
  Pipeline.withArrays spec1 c (W5 m ρ c) fun w => (dat1 (V5 m ρ) c).arrAt w cfg1.N
theorem W6_arr (c : Dev nD) (w : Fin cfg1.W) :
    W6 m ρ c (Proc.devRef .tc (Pipeline.arrRef spec1 w)) = (dat1 (V5 m ρ) c).arrAt w cfg1.N :=
  Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) :=
  Pipeline.withArrays_of_ne spec1 c _ _ b hb
theorem W6_in (c : Dev nD) (w : Fin cfg1.W) (hin : (cfg1.win w).isOut = false) :
    W6 m ρ c (Proc.devRef .tc (Pipeline.arrRef spec1 w)) = W5 m ρ c (Proc.devRef .tc (Pipeline.arrRef spec1 w)) :=
  (W6_arr m ρ c w).trans (((dat1 (V5 m ρ) c).arrAt_in w hin _).trans (A_eq1 (V5 m ρ) c w))
abbrev W7 : Dev nD → Valuation τ sig (Elt F) := fun c => StableHlo.after hostOps2 (W6 m ρ c)
abbrev V7 : (c : Dev nD) → (b : Ref sig .tc) → Buf (Elt F) ((c : Thread nD τ).loc b) := fun c b => W7 m ρ c b
theorem W7_of (c : Dev nD) (r : Ref sig .tc) (h : r ∉ hostOps2_W) :
    W7 m ρ c (Proc.devRef .tc r) = W6 m ρ c (Proc.devRef .tc r) :=
  StableHlo.after_of_writes_sub hostOps2 _ hostOps2_writes h
def W8 (c : Dev nD) : Valuation τ sig (Elt F) :=
  Pipeline.withArrays spec2 c (W7 m ρ c) fun w => (dat2 (V7 m ρ) c).arrAt w cfg2.N
theorem W8_arr (c : Dev nD) (w : Fin cfg2.W) :
    W8 m ρ c (Proc.devRef .tc (Pipeline.arrRef spec2 w)) = (dat2 (V7 m ρ) c).arrAt w cfg2.N :=
  Pipeline.withArrays_arr spec2 launch2.win.arr_inj c _ _ w
theorem W8_of_ne (c : Dev nD) (b : Ref sig .tc) (hb : ∀ w, Pipeline.arrRef spec2 w ≠ b) :
    W8 m ρ c (Proc.devRef .tc b) = W7 m ρ c (Proc.devRef .tc b) :=
  Pipeline.withArrays_of_ne spec2 c _ _ b hb
theorem W8_in (c : Dev nD) (w : Fin cfg2.W) (hin : (cfg2.win w).isOut = false) :
    W8 m ρ c (Proc.devRef .tc (Pipeline.arrRef spec2 w)) = W7 m ρ c (Proc.devRef .tc (Pipeline.arrRef spec2 w)) :=
  (W8_arr m ρ c w).trans (((dat2 (V7 m ρ) c).arrAt_in w hin _).trans (A_eq2 (V7 m ρ) c w))
abbrev W9 : Dev nD → Valuation τ sig (Elt F) := fun c => StableHlo.after hostOps3 (W8 m ρ c)
abbrev V9 : (c : Dev nD) → (b : Ref sig .tc) → Buf (Elt F) ((c : Thread nD τ).loc b) := fun c b => W9 m ρ c b
theorem W9_of (c : Dev nD) (r : Ref sig .tc) (h : r ∉ hostOps3_W) :
    W9 m ρ c (Proc.devRef .tc r) = W8 m ρ c (Proc.devRef .tc r) :=
  StableHlo.after_of_writes_sub hostOps3 _ hostOps3_writes h
def W10 (c : Dev nD) : Valuation τ sig (Elt F) :=
  Pipeline.withArrays spec3 c (W9 m ρ c) fun w => (dat3 (V9 m ρ) c).arrAt w cfg3.N
theorem W10_arr (c : Dev nD) (w : Fin cfg3.W) :
    W10 m ρ c (Proc.devRef .tc (Pipeline.arrRef spec3 w)) = (dat3 (V9 m ρ) c).arrAt w cfg3.N :=
  Pipeline.withArrays_arr spec3 launch3.win.arr_inj c _ _ w
theorem W10_of_ne (c : Dev nD) (b : Ref sig .tc) (hb : ∀ w, Pipeline.arrRef spec3 w ≠ b) :
    W10 m ρ c (Proc.devRef .tc b) = W9 m ρ c (Proc.devRef .tc b) :=
  Pipeline.withArrays_of_ne spec3 c _ _ b hb
theorem W10_in (c : Dev nD) (w : Fin cfg3.W) (hin : (cfg3.win w).isOut = false) :
    W10 m ρ c (Proc.devRef .tc (Pipeline.arrRef spec3 w)) = W9 m ρ c (Proc.devRef .tc (Pipeline.arrRef spec3 w)) :=
  (W10_arr m ρ c w).trans (((dat3 (V9 m ρ) c).arrAt_in w hin _).trans (A_eq3 (V9 m ρ) c w))
-- Agreement at `b`, by cases on whether `b` is one of the references `r w`.
theorem kept {ι : Type} {r : ι → Ref sig .tc} {P : ι → Prop} {f g : Valuation τ sig (Elt F)} (b : Ref sig .tc)
    (hne : (∀ w, r w ≠ b) → f (Proc.devRef .tc b) = g (Proc.devRef .tc b))
    (hin : ∀ w, P w → f (Proc.devRef .tc (r w)) = g (Proc.devRef .tc (r w))) (h : ∀ w, r w = b → P w) :
    f (Proc.devRef .tc b) = g (Proc.devRef .tc b) := by
  by_cases hb : ∃ w, r w = b
  · obtain ⟨w, rfl⟩ := hb; exact hin w (h w rfl)
  · exact hne fun w e => hb ⟨w, e⟩

abbrev Kept (b : Ref sig .tc) : Prop :=
  (b ∉ hostOps0_W ∧ b ∉ hostOps0_1_W ∧ b ∉ hostOps0_2_W ∧ b ∉ hostOps1_W ∧ b ∉ hostOps2_W ∧ b ∉ hostOps3_W) ∧
  (∀ w : Fin cfg0.W, Pipeline.arrRef spec0 w = b → (cfg0.win w).isOut = false) ∧
  (∀ w : Fin cfg1.W, Pipeline.arrRef spec1 w = b → (cfg1.win w).isOut = false) ∧
  (∀ w : Fin cfg2.W, Pipeline.arrRef spec2 w = b → (cfg2.win w).isOut = false) ∧
  (∀ w : Fin cfg3.W, Pipeline.arrRef spec3 w = b → (cfg3.win w).isOut = false)

-- No segment changes a kept reference, so its final contents are the initial ones.
theorem W10_kept (c : Dev nD) (b : Ref sig .tc) (h : Kept b) : W10 m ρ c (Proc.devRef .tc b) = m ((c : Thread nD τ).loc b) :=
  (kept b (W10_of_ne m ρ c b) (W10_in m ρ c) h.2.2.2.2).trans <| (W9_of m ρ c b h.1.2.2.2.2.2).trans <|
  (kept b (W8_of_ne m ρ c b) (W8_in m ρ c) h.2.2.2.1).trans <| (W7_of m ρ c b h.1.2.2.2.2.1).trans <|
  (kept b (W6_of_ne m ρ c b) (W6_in m ρ c) h.2.2.1).trans <| (W5_of m ρ c b h.1.2.2.2.1).trans <|
  (kept b (W4_of_ne m ρ c b) (W4_in m ρ c) h.2.1).trans <| (W3_of m ρ c b h.1.2.2.1).trans <|
  (W2_of m ρ c b h.1.2.1).trans <| W1_of m ρ c b h.1.1

theorem W10_main_arg0 (c : Dev nD) : W10 m ρ c (Proc.devRef .tc main_arg0) = m ((c : Thread nD τ).loc main_arg0) :=
  W10_kept m ρ c _ (by decide)
theorem W10_main_arg1 (c : Dev nD) : W10 m ρ c (Proc.devRef .tc main_arg1) = m ((c : Thread nD τ).loc main_arg1) :=
  W10_kept m ρ c _ (by decide)
theorem W10_main_arg2 (c : Dev nD) : W10 m ρ c (Proc.devRef .tc main_arg2) = m ((c : Thread nD τ).loc main_arg2) :=
  W10_kept m ρ c _ (by decide)
theorem W10_main_arg3 (c : Dev nD) : W10 m ρ c (Proc.devRef .tc main_arg3) = m ((c : Thread nD τ).loc main_arg3) :=
  W10_kept m ρ c _ (by decide)
theorem W10_main_arg4 (c : Dev nD) : W10 m ρ c (Proc.devRef .tc main_arg4) = m ((c : Thread nD τ).loc main_arg4) :=
  W10_kept m ρ c _ (by decide)
theorem W10_main_arg5 (c : Dev nD) : W10 m ρ c (Proc.devRef .tc main_arg5) = m ((c : Thread nD τ).loc main_arg5) :=
  W10_kept m ρ c _ (by decide)
theorem W10_main_arg6 (c : Dev nD) : W10 m ρ c (Proc.devRef .tc main_arg6) = m ((c : Thread nD τ).loc main_arg6) :=
  W10_kept m ρ c _ (by decide)
theorem W10_main_arg7 (c : Dev nD) : W10 m ρ c (Proc.devRef .tc main_arg7) = m ((c : Thread nD τ).loc main_arg7) :=
  W10_kept m ρ c _ (by decide)
theorem W10_main_arg8 (c : Dev nD) : W10 m ρ c (Proc.devRef .tc main_arg8) = m ((c : Thread nD τ).loc main_arg8) :=
  W10_kept m ρ c _ (by decide)
theorem W10_main_arg9 (c : Dev nD) : W10 m ρ c (Proc.devRef .tc main_arg9) = m ((c : Thread nD τ).loc main_arg9) :=
  W10_kept m ρ c _ (by decide)
theorem W10_main_arg10 (c : Dev nD) : W10 m ρ c (Proc.devRef .tc main_arg10) = m ((c : Thread nD τ).loc main_arg10) :=
  W10_kept m ρ c _ (by decide)
theorem W10_main_arg11 (c : Dev nD) : W10 m ρ c (Proc.devRef .tc main_arg11) = m ((c : Thread nD τ).loc main_arg11) :=
  W10_kept m ρ c _ (by decide)
theorem W10_main_arg12 (c : Dev nD) : W10 m ρ c (Proc.devRef .tc main_arg12) = m ((c : Thread nD τ).loc main_arg12) :=
  W10_kept m ρ c _ (by decide)
theorem W10_main_arg13 (c : Dev nD) : W10 m ρ c (Proc.devRef .tc main_arg13) = m ((c : Thread nD τ).loc main_arg13) :=
  W10_kept m ρ c _ (by decide)
theorem W10_main_arg14 (c : Dev nD) : W10 m ρ c (Proc.devRef .tc main_arg14) = m ((c : Thread nD τ).loc main_arg14) :=
  W10_kept m ρ c _ (by decide)

def pdats : (p : Fin 4) → (c : Dev nD) → Dat τ (Elt F) Unit ℕ (UR sig nD τ) ℕ (Pipeline.pin (pcfgs (F := F)) adm p) c
  | ⟨0, _⟩ => fun c => dat0 (V3 m ρ) c
  | ⟨1, _⟩ => fun c => dat1 (V5 m ρ) c
  | ⟨2, _⟩ => fun c => dat2 (V7 m ρ) c
  | ⟨3, _⟩ => fun c => dat3 (V9 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev TS (W : Dev nD → Valuation τ sig (Elt F)) (c : Dev nD) : sProp 𝕄 :=
  iprop(StableHlo.held (c : Thread nD τ) (Pipeline.ucRefs τ sig) (W c) ∗ R c)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W10 m ρ c) ∗ ∃ r, prngReg c r)

abbrev tcRead (W : Dev nD → Valuation τ sig (Elt F)) : (c : Dev nD) → (b : Ref sig .tc) → Buf (Elt F) ((c : Thread nD τ).loc b) :=
  fun c b => W c b

set_option backward.isDefEq.respectTransparency.types false in
-- A region as a segment from contents `Wi` to `Wo`: entry splits the windows' arrays off the held buffers, exit joins them back.
def reg (p : Fin 4) (lf : Pipeline.LaunchFacts (nD := nD) (τ := τ) cfgs p) (Wi Wo : Dev nD → Valuation τ sig (Elt F))
    (hb : ∀ c, BodyObligation (pdats m ρ p c) defs₀ 𝒱₀ () Set.univ)
    (howed : ∀ c t, (pdats m ρ p c).owed t = 0) (hq : ∀ c w, (pdats m ρ p c).q w = fullShare)
    (hrec : ∀ c x, x ∈ (pdats m ρ p c).recorded 0)
    (hA : ∀ c w, (pdats m ρ p c).A w = tcRead Wi c (Pipeline.arrRef (cfgs p).spec w))
    (hF : ∀ c w, Wo c (Proc.devRef .tc (Pipeline.arrRef (cfgs p).spec w)) = (pdats m ρ p c).arrAt w (cfgs p).N)
    (hrest : ∀ c (b : Ref sig .tc), (∀ w, Pipeline.arrRef (cfgs p).spec w ≠ b) → Wo c (Proc.devRef .tc b) = Wi c (Proc.devRef .tc b))
    (hΦi : ∀ c, Pipeline.ΦA (cfgs p).spec c ⊢ (pdats m ρ p c).Φ 0)
    (hΦo : ∀ c, (pdats m ρ p c).Φ (Fin.last _) ⊢ Pipeline.ΦA (cfgs p).spec c) :
    Pipeline.RegionSeg (pcfgs (F := F)) adm (pdats m ρ) () defs₀ 𝒱₀ L lv p where
  win := lf.win.to₀
  block_pos := lf.block_pos
  stage_whole := lf.stage_whole
  K := PEmpty
  osem k := k.elim
  ho := Pipeline.OwnSemFacts.none _
  hbody c := (hb c).loose
  hwaits := Pipeline.hwaits_of_owed_zero _ _ _ _ L lv p howed
  pre := TS Wi
  post := TS Wo
  X c := iprop(∃ r, prngReg c r)
  Y c := iprop(∃ r, prngReg c r)
  Z c := Pipeline.unscopedRest (cfgs p).spec c (tcRead Wi c)
  hentry c := by
    rw [Pipeline.ownSems0_none]
    have hsplit := Pipeline.arrays_of_unscopedBufs (p := p) (pcfgs (F := F)) adm (pdats m ρ) lf.win lf.arr_whole c
      ((pdats m ρ p c).share_full (hq c)) (tcRead Wi c) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin; rw [howed c]
      icases HO with ⟨%W, HO⟩; iexists W; isplitr; · ipureintro; exact fun x _ => Or.inl (hrec c x)
      iexact HO
    isplitl [Hp]; · iexact Hp
    iexact Hrest
  hin c := by
    refine BIBase.Entails.trans ?_ (hΦi c)
    unfold Pipeline.ΦA
    iintro ⟨Hp, -, Hr⟩
    isplitl [Hr]; · iexact Hr
    iexact Hp
  hout c := by
    rw [Pipeline.ownSems0_none]
    refine BIBase.Entails.trans (hΦo c) ?_
    unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm
      lf.win lf.arr_whole c (pdats m ρ) ((pdats m ρ p c).share_full (hq c)) (tcRead Wi c) (tcRead Wo c)
      ((pdats m ρ p c).arrAt · (cfgs p).N) (fun w => (hF c w).symm)
      fun b hb => hrest c b fun w e => hb (Finset.mem_image.mpr ⟨w, Finset.mem_univ _, e⟩)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin; rw [howed c]
    icases HO with ⟨%W, -, HO⟩; iexists W; iexact HO

def reg0 := reg m ρ 0 launch0 (W3 m ρ) (W4 m ρ) (body_obligation0 (V3 m ρ)) (fun _ _ => rfl) (fun _ _ => rfl) (fun _ _ => trivial)
  (A_eq0 (V3 m ρ)) (W4_arr m ρ) (W4_of_ne m ρ) (fun _ => .rfl) fun _ => .rfl
def reg1 := reg m ρ 1 launch1 (W5 m ρ) (W6 m ρ) (body_obligation1 (V5 m ρ)) (fun _ _ => rfl) (fun _ _ => rfl) (fun _ _ => trivial)
  (A_eq1 (V5 m ρ)) (W6_arr m ρ) (W6_of_ne m ρ) (fun _ => .rfl) fun _ => .rfl
def reg2 := reg m ρ 2 launch2 (W7 m ρ) (W8 m ρ) (body_obligation2 (V7 m ρ)) (fun _ _ => rfl) (fun _ _ => rfl) (fun _ _ => trivial)
  (A_eq2 (V7 m ρ)) (W8_arr m ρ) (W8_of_ne m ρ) (fun _ => .rfl) fun _ => .rfl
def reg3 := reg m ρ 3 launch3 (W9 m ρ) (W10 m ρ) (body_obligation3 (V9 m ρ)) (fun _ _ => rfl) (fun _ _ => rfl) (fun _ _ => trivial)
  (A_eq3 (V9 m ρ)) (W10_arr m ρ) (W10_of_ne m ρ) (hin3 (V9 m ρ)) (hout3 (V9 m ρ))

abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .host (hseg hostOps1 hostOps1_sub hostOps1_fresh (W4 m ρ)),
    .region (reg1 m ρ),
    .host (hseg hostOps2 hostOps2_sub hostOps2_fresh (W6 m ρ)),
    .region (reg2 m ρ),
    .host (hseg hostOps3 hostOps3_sub hostOps3_fresh (W8 m ρ)),
    .region (reg3 m ρ) ]

set_option backward.isDefEq.respectTransparency.types false in
theorem run_all : θ_run defs (onTc (τ := τ) (main (F := F))) ⟨m, fun _ => 0, ρ⟩ (fun r => ∀ c : Dev nD,
      ∀ b ∈ Pipeline.ucRefs τ sig, r.2.mem (((c : Thread nD τ)).1, b) = W10 m ρ c b) :=
  Pipeline.θ_run_regions_kit (pcfgs (F := F)) adm (pdats m ρ) () cellOf_inj emb₁ defs₀ 𝒱₀ L lv m ρ main (segs m ρ)
    (fun c Q => by
      rewrite [main_chain c, Pipeline.Seg.run_eq_chain]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU _ : sProp 𝕄) ⊢ BI.own (emb₁ _) from .rfl)
        iexact Hu
      iapply (show (BI.emp : sProp 𝕄) ⊢ bigSep Finset.univ (fun _ : Dev nD => (BI.emp : sProp 𝕄)) from by rw [BI.bigSep_emp_const])
      iempintro)
    (T₀ := TS (W0 m ρ)) (Tₙ := Tₙ m ρ)
    (hch := ⟨fun _ => .rfl, fun _ => .rfl, fun _ => .rfl, fun _ => .rfl, fun _ => .rfl, fun _ => .rfl, fun _ => .rfl, fun _ => .rfl,
      fun _ => .rfl, fun _ => .rfl, fun _ => Laws.sep_assoc.2⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h => h)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c =>
    have k (b : Ref sig .tc) (hs : ¬ (Proc.devRef .tc b : DevRef τ sig).isScoped)
        (e : W10 m ρ c (Proc.devRef .tc b) = m ((c : Thread nD τ).loc b)) :
        r.2.mem ((c : Thread nD τ).loc b) = m ((c : Thread nD τ).loc b) := (h c _ (mem_uc b hs)).trans e
    ⟨k _ (by decide) (W10_main_arg0 m ρ c), k _ (by decide) (W10_main_arg1 m ρ c), k _ (by decide) (W10_main_arg2 m ρ c), k _ (by decide) (W10_main_arg3 m ρ c), k _ (by decide) (W10_main_arg4 m ρ c),
      k _ (by decide) (W10_main_arg5 m ρ c), k _ (by decide) (W10_main_arg6 m ρ c), k _ (by decide) (W10_main_arg7 m ρ c), k _ (by decide) (W10_main_arg8 m ρ c), k _ (by decide) (W10_main_arg9 m ρ c),
      k _ (by decide) (W10_main_arg10 m ρ c), k _ (by decide) (W10_main_arg11 m ρ c), k _ (by decide) (W10_main_arg12 m ρ c), k _ (by decide) (W10_main_arg13 m ρ c), k _ (by decide) (W10_main_arg14 m ρ c)⟩)
    (run_all m ρ)

end Cert.Kernel.Hand

end
-- ==== Proof.KI.FusedBody.lean ====
import proofs.«411758_j88313117540961_2_alg».proof.Proof.Gen.KernelIdeal.Launch
import Idealize.ShloMosaic.Lib.Pipeline.FrameBody
import Idealize.ShloMosaic.Lib.Ring
import Idealize.ShloMosaic.Lib.Tactic

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] {α γ : Type}
  (p3 : Vec F S2000x128 .f32 → α)
  (p4 : Vec F S2000x128 .f32 → Vec F S2000x128 .f32 → Vec F S2000x1 .f32 → Vec F S128x128 .f32 → Vec F S1x128 .f32 → Vec F S1x128 .f32 → FVec F S2000x128 .f32)
  (p5 : Vec F S1x128 .f32 → γ)
  (pay1 : α → FVec F S2000x128 .f32 → γ → FVec F S2000x128 .f32) (pay2 : α → FVec F S2000x128 .f32 → γ → FVec F S2000x128 .bf16)
  (arg1 arg2 : Memref sig .tc .vmem S2000x128 .f32) (arg3 : Memref sig .tc .vmem S2000x1 .f32) (arg4 : Memref sig .tc .vmem S128x128 .f32)
  (arg5 arg6 arg7 : Memref sig .tc .vmem S1x128 .f32) (arg8 : Memref sig .tc .vmem S2000x128 .f32) (arg9 : Memref sig .tc .vmem S2000x128 .bf16)
  (harg9 : arg9.IsWhole)

abbrev q0 : Rect S2000x128 := Rect.unit (s := S2000x128) ![0, 0] S2000x128.size inb_S2000x128_S2000x128_0_0
abbrev q1 : Rect S2000x1 := Rect.unit (s := S2000x1) ![0, 0] S2000x1.size inb_S2000x1_S2000x1_0_0
abbrev q2 : Rect S128x128 := Rect.unit (s := S128x128) ![0, 0] S128x128.size inb_S128x128_S128x128_0_0
abbrev q3 : Rect S1x128 := Rect.unit (s := S1x128) ![0, 0] S1x128.size inb_S1x128_S1x128_0_0

-- the seven whole-block loads and the three values handed on
def partG : Prog (TpuEff nD τ sig (Elt F) Λ₀ .tc) (Σ' (_ : α) (_ : FVec F S2000x128 .f32), γ) := do
  let v0 : Vec F S2000x128 .f32 ← Prog.lift (.load arg2 (Rect.unit (s := S2000x128) ![0, 0] S2000x128.size inb_S2000x128_S2000x128_0_0).toLoadRect (View.loadsAt_vmem h_S2000x128))
  let v2 : Vec F S2000x128 .f32 ← Prog.lift (.load arg1 (Rect.unit (s := S2000x128) ![0, 0] S2000x128.size inb_S2000x128_S2000x128_0_0).toLoadRect (View.loadsAt_vmem h_S2000x128))
  let v4 : Vec F S2000x1 .f32 ← Prog.lift (.load arg3 (Rect.unit (s := S2000x1) ![0, 0] S2000x1.size inb_S2000x1_S2000x1_0_0).toLoadRect (View.loadsAt_vmem h_S2000x1))
  let v10 : Vec F S128x128 .f32 ← Prog.lift (.load arg4 (Rect.unit (s := S128x128) ![0, 0] S128x128.size inb_S128x128_S128x128_0_0).toLoadRect (View.loadsAt_vmem h_S128x128))
  let v13 : Vec F S1x128 .f32 ← Prog.lift (.load arg5 (Rect.unit (s := S1x128) ![0, 0] S1x128.size inb_S1x128_S1x128_0_0).toLoadRect (View.loadsAt_vmem h_S1x128))
  let v33 : Vec F S1x128 .f32 ← Prog.lift (.load arg6 (Rect.unit (s := S1x128) ![0, 0] S1x128.size inb_S1x128_S1x128_0_0).toLoadRect (View.loadsAt_vmem h_S1x128))
  let v37 : Vec F S1x128 .f32 ← Prog.lift (.load arg7 (Rect.unit (s := S1x128) ![0, 0] S1x128.size inb_S1x128_S1x128_0_0).toLoadRect (View.loadsAt_vmem h_S1x128))
  pure ⟨p3 v0, p4 v0 v2 v4 v10 v13 v33, p5 v37⟩

-- then one whole-block store into each output
def fusedG (part : Prog (TpuEff nD τ sig (Elt F) Λ₀ .tc) (Σ' (_ : α) (_ : FVec F S2000x128 .f32), γ)) : Prog (TpuEff nD τ sig (Elt F) Λ₀ .tc) PUnit := do
  let ⟨a, b, c⟩ : Σ' (_ : α) (_ : FVec F S2000x128 .f32), γ ← part
  let v44 : Vec F S2000x128 .f32 ← Prog.lift (.load arg8 (Rect.unit (s := S2000x128) ![0, 0] S2000x128.size inb_S2000x128_S2000x128_0_0).toLoadRect (View.loadsAt_vmem h_S2000x128))
  Prog.lift (.store arg8 (Rect.unit (s := S2000x128) ![0, 0] S2000x128.size inb_S2000x128_S2000x128_0_0) (pay1 a b c) Finset.univ (View.stores_vmem_bits_univ h_S2000x128 rfl) (.inl rfl))
  let v46 : Vec F S2000x128 .bf16 ← Prog.lift (.load arg9 (Rect.unit (s := S2000x128) ![0, 0] S2000x128.size inb_S2000x128_S2000x128_0_0).toLoadRect (View.loadsAt_vmem h_S2000x128))
  Prog.lift (.store arg9 (Rect.unit (s := S2000x128) ![0, 0] S2000x128.size inb_S2000x128_S2000x128_0_0) (pay2 a b c) Finset.univ (View.stores_vmem h_S2000x128 (harg9.storeExact_slice rfl _ packedbf16_S2000x128_S2000x128_0_0) (fun _ => rfl)) (.inl rfl))
  pure ⟨⟩

-- a single piece over the whole rectangle covers every index
theorem coverG {e : EltTy} (p : Vec F S2000x128 e) (y : S2000x128.Idx) :
    ∃ pc ∈ ([⟨q0, p⟩] : List (View.Piece (Elt F) S2000x128 e)), y ∈ pc.1.set :=
  View.cover_of_tiled [⟨q0, p⟩] S2000x128.size (by rfl) y

-- each of the two stores covers its target, so what is read back is the canonical contents of the stored piece
theorem sound_fusedG (c : Dev nD) (E : Set ℕ) (x0 x1 : Vec F S2000x128 .f32) (x2 : Vec F S2000x1 .f32) (x3 : Vec F S128x128 .f32) (x4 x5 x6 : Vec F S1x128 .f32)
    (d7 : Vec F S2000x128 .f32) (d8 : Vec F S2000x128 .bf16) (K : PUnit → sProp (MT nD τ sig Unit (Elt F) ℕ (UR sig nD τ) ℕ)) :
    iprop(owns c.tc arg1 fullShare x0 ∗ owns c.tc arg2 fullShare x1 ∗ owns c.tc arg3 fullShare x2 ∗ owns c.tc arg4 fullShare x3 ∗ owns c.tc arg5 fullShare x4 ∗ owns c.tc arg6 fullShare x5 ∗ owns c.tc arg7 fullShare x6 ∗ owns c.tc arg8 fullShare d7 ∗ owns c.tc arg9 fullShare d8
        ∗ (iprop(owns c.tc arg1 fullShare x0 ∗ owns c.tc arg2 fullShare x1 ∗ owns c.tc arg3 fullShare x2 ∗ owns c.tc arg4 fullShare x3 ∗ owns c.tc arg5 fullShare x4 ∗ owns c.tc arg6 fullShare x5 ∗ owns c.tc arg7 fullShare x6 ∗ owns c.tc arg8 fullShare (View.canon [⟨q0, pay1 (p3 (View.ld x1 q0)) (p4 (View.ld x1 q0) (View.ld x0 q0) (View.ld x2 q1) (View.ld x3 q2) (View.ld x4 q3) (View.ld x5 q3)) (p5 (View.ld x6 q3))⟩]) ∗ owns c.tc arg9 fullShare (View.canon [⟨q0, pay2 (p3 (View.ld x1 q0)) (p4 (View.ld x1 q0) (View.ld x0 q0) (View.ld x2 q1) (View.ld x3 q2) (View.ld x4 q3) (View.ld x5 q3)) (p5 (View.ld x6 q3))⟩])) -∗ K ⟨⟩))
      ⊢ wp frame (wpE (defs₀ (F := F)) Variants.none c none) E (fusedG pay1 pay2 arg8 arg9 harg9 (partG p3 p4 p5 arg1 arg2 arg3 arg4 arg5 arg6 arg7)) K := by
  unfold fusedG partG owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, -, H7⟩, ⟨%f8, -, H8⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr; swap; · iexact H7
    ipureintro; exact View.read_writes_eq_canon _ _ _ (coverG _)
  iexists _; isplitr; swap; · iexact H8
  ipureintro; exact View.read_writes_eq_canon _ _ _ (coverG _)

end Cert.KernelIdeal.Hand

end
-- ==== Proof.KI.Fused0.lean ====
import proofs.«411758_j88313117540961_2_alg».proof.Proof.Gen.KernelIdeal.Launch
import proofs.«411758_j88313117540961_2_alg».proof.Proof.Gen.KernelIdeal.Skeleton
import proofs.«411758_j88313117540961_2_alg».proof.Proof.Gen.KernelIdeal.Points
import proofs.«411758_j88313117540961_2_alg».proof.Proof.KI.FusedBody
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.KernelIdeal Cert.KernelIdeal.Gen

variable {F : FTy → Type} [FloatOps F]

section Regions
variable (V : (c : Dev nD) → (b : Ref sig .tc) → Buf (Elt F) ((c : Thread nD τ).loc b)) (c : Dev nD)

def iblk0 (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S2000x128 := Rect.unit (s := S2000x128) ![0, 0] S2000x128.size inb_S2000x128_S2000x128_0_0
abbrev r0_1 : Rect S2000x1 := Rect.unit (s := S2000x1) ![0, 0] S2000x1.size inb_S2000x1_S2000x1_0_0
abbrev r0_2 : Rect S128x128 := Rect.unit (s := S128x128) ![0, 0] S128x128.size inb_S128x128_S128x128_0_0
abbrev r0_3 : Rect S1x128 := Rect.unit (s := S1x128) ![0, 0] S1x128.size inb_S1x128_S1x128_0_0

variable (x0 x1 : Vec F S2000x128 .f32) (x2 : Vec F S2000x1 .f32) (x3 : Vec F S128x128 .f32) (x4 x5 x6 : Vec F S1x128 .f32)

abbrev mid0_v0 : Vec F S2000x128 .f32 := View.ld x1 r0_0
abbrev mid0_v35 : FVec F S2000x128 .f32 :=
  k0_pay3 (View.ld x1 r0_0) (View.ld x0 r0_0) (View.ld x2 r0_1) (View.ld x3 r0_2) (View.ld x4 r0_3) (View.ld x5 r0_3)
abbrev mid0_v38 : FVec F S2000x128 .f32 := k0_pay4 (View.ld x6 r0_3)

def out0_7 : Vec F S2000x128 .f32 :=
  View.canon [⟨r0_0, k0_pay1 (mid0_v0 x1) (mid0_v35 x0 x1 x2 x3 x4 x5) (mid0_v38 x6)⟩]

def out0_8 : Vec F S2000x128 .bf16 :=
  View.canon [⟨r0_0, k0_pay2 (mid0_v0 x1) (mid0_v35 x0 x1 x2 x3 x4 x5) (mid0_v38 x6)⟩]

-- the kernel function is the shared body at this region's payloads
theorem kernel0_eq : cc0__fused_block_kernel (F := F) = fun i a1 _ a2 _ a3 _ a4 _ a5 _ a6 _ a7 _ a8 _ a9 h9 =>
    fusedG k0_pay1 k0_pay2 a8 a9 h9 (partG (fun v => v) k0_pay3 k0_pay4 a1 a2 a3 a4 a5 a6 a7) :=
  cc0__fused_block_kernel_eq_skeleton.trans (by unfold cc0__fused_block_kernel_skel; rw [k0_part1_eq_skeleton]; rfl)

def dat0 : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 2 t) (iblk0 V c 3 t) (iblk0 V c 4 t) (iblk0 V c 5 t) (iblk0 V c 6 t)
    | ⟨8, _⟩ => out0_8 (iblk0 V c 0 t) (iblk0 V c 1 t) (iblk0 V c 2 t) (iblk0 V c 3 t) (iblk0 V c 4 t) (iblk0 V c 5 t) (iblk0 V c 6 t)
  Φ _ := Pipeline.ΦA spec0 c
  q _ := fullShare
  owed _ := 0

theorem A_eq0 (w : Fin cfg0.W) : (dat0 V c).A w = V c (Pipeline.arrRef spec0 w) := by
  dsimp only [dat0]

theorem after0_7 (t : Fin cfg0.N) : (dat0 V c).after 7 t = out0_7 (iblk0 V c 0 t) (iblk0 V c 1 t) (iblk0 V c 2 t) (iblk0 V c 3 t) (iblk0 V c 4 t) (iblk0 V c 5 t) (iblk0 V c 6 t) := by dsimp only [dat0]
theorem after0_8 (t : Fin cfg0.N) : (dat0 V c).after 8 t = out0_8 (iblk0 V c 0 t) (iblk0 V c 1 t) (iblk0 V c 2 t) (iblk0 V c 3 t) (iblk0 V c 4 t) (iblk0 V c 5 t) (iblk0 V c 6 t) := by dsimp only [dat0]

-- for the seven inputs `before` equals `after`: both are the block read off the entry array
theorem before0 (t : Fin cfg0.N) : ∀ w : Fin cfg0.W, w.val < 7 → ∀ d, (dat0 V c).before w t d = (dat0 V c).after w t
  | ⟨0, _⟩, _, d | ⟨1, _⟩, _, d | ⟨2, _⟩, _, d | ⟨3, _⟩, _, d | ⟨4, _⟩, _, d | ⟨5, _⟩, _, d | ⟨6, _⟩, _, d =>
    Eq.trans ((dat0 V c).before_in_eq_fetched _ rfl (fun _ => rfl) (fun _ _ _ => rfl)
      (fun t => by dsimp only [dat0]; unfold Dat.blockOf iblk0; try rfl) t d)
      (by unfold Dat.fetched Dat.blockOf; dsimp only [dat0]; unfold iblk0; try rfl)
  | ⟨_ + 7, _⟩, h, _ => absurd h (Nat.not_lt.mpr (Nat.le_add_left ..))

-- rewrite the inputs by `before`, apply the shared body's triple; the invariant and the owed tallies pass through
theorem body_obligation0 : BodyObligation (dat0 (F := F) V c) (defs₀ (F := F)) Variants.none () Set.univ := fun t => by
  rw [bigSep_W0, bigSep_W0, show (dat0 V c).owesAt () t.succ = (dat0 V c).owesAt () t.castSucc from rfl]
  simp (disch := decide) only [before0 V c t]
  dsimp only [dat0, out0_7, out0_8]
  change _ ⊢ wp _ _ _ (bodyAt0 t) _
  unfold bodyAt0
  rw [kernel0_eq]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply sound_fusedG (c := c) (E := Set.univ)
  iframe H0 H1 H2 H3 H4 H5 H6 H7 H8
  iintro ⟨H0, H1, H2, H3, H4, H5, H6, H7, H8⟩
  iframe

end Regions

end Cert.KernelIdeal.Hand

end
-- ==== Proof.KI.Fused1.lean ====
import proofs.«411758_j88313117540961_2_alg».proof.Proof.Gen.KernelIdeal.Launch
import proofs.«411758_j88313117540961_2_alg».proof.Proof.Gen.KernelIdeal.Skeleton
import proofs.«411758_j88313117540961_2_alg».proof.Proof.Gen.KernelIdeal.Points
import proofs.«411758_j88313117540961_2_alg».proof.Proof.KI.FusedBody
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.KernelIdeal Cert.KernelIdeal.Gen

variable {F : FTy → Type} [FloatOps F]

section Regions
variable (V : (c : Dev nD) → (b : Ref sig .tc) → Buf (Elt F) ((c : Thread nD τ).loc b)) (c : Dev nD)

def iblk1 (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S2000x128 := Rect.unit (s := S2000x128) ![0, 0] S2000x128.size inb_S2000x128_S2000x128_0_0
abbrev r1_1 : Rect S2000x1 := Rect.unit (s := S2000x1) ![0, 0] S2000x1.size inb_S2000x1_S2000x1_0_0
abbrev r1_2 : Rect S128x128 := Rect.unit (s := S128x128) ![0, 0] S128x128.size inb_S128x128_S128x128_0_0
abbrev r1_3 : Rect S1x128 := Rect.unit (s := S1x128) ![0, 0] S1x128.size inb_S1x128_S1x128_0_0

variable (x0 x1 : Vec F S2000x128 .f32) (x2 : Vec F S2000x1 .f32) (x3 : Vec F S128x128 .f32) (x4 x5 x6 : Vec F S1x128 .f32)

abbrev mid1_a : FVec F S2000x128 .f32 := k1_pay3 (View.ld x1 r1_0)
abbrev mid1_b : FVec F S2000x128 .f32 :=
  k1_pay4 (View.ld x1 r1_0) (View.ld x0 r1_0) (View.ld x2 r1_1) (View.ld x3 r1_2) (View.ld x4 r1_3) (View.ld x5 r1_3)
abbrev mid1_c : FVec F S1x128 .f32 := k1_pay5 (View.ld x6 r1_3)

def out1_7 : Vec F S2000x128 .f32 :=
  View.canon [⟨r1_0, k1_pay1 (mid1_a x1) (mid1_b x0 x1 x2 x3 x4 x5) (mid1_c x6)⟩]

def out1_8 : Vec F S2000x128 .bf16 :=
  View.canon [⟨r1_0, k1_pay2 (mid1_a x1) (mid1_b x0 x1 x2 x3 x4 x5) (mid1_c x6)⟩]

-- the kernel function is the shared body at this region's payloads
theorem kernel1_eq : cc1__fused_block_kernel (F := F) = fun i a1 _ a2 _ a3 _ a4 _ a5 _ a6 _ a7 _ a8 _ a9 h9 =>
    fusedG k1_pay1 k1_pay2 a8 a9 h9 (partG k1_pay3 k1_pay4 k1_pay5 a1 a2 a3 a4 a5 a6 a7) :=
  cc1__fused_block_kernel_eq_skeleton.trans (by unfold cc1__fused_block_kernel_skel; rw [k1_part1_eq_skeleton]; rfl)

def dat1 : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t) (iblk1 V c 3 t) (iblk1 V c 4 t) (iblk1 V c 5 t) (iblk1 V c 6 t)
    | ⟨8, _⟩ => out1_8 (iblk1 V c 0 t) (iblk1 V c 1 t) (iblk1 V c 2 t) (iblk1 V c 3 t) (iblk1 V c 4 t) (iblk1 V c 5 t) (iblk1 V c 6 t)
  Φ _ := Pipeline.ΦA spec1 c
  q _ := fullShare
  owed _ := 0

theorem A_eq1 (w : Fin cfg1.W) : (dat1 V c).A w = V c (Pipeline.arrRef spec1 w) := by
  dsimp only [dat1]

theorem after1_7 (t : Fin cfg1.N) : (dat1 V c).after 7 t = out1_7 (iblk1 V c 0 t) (iblk1 V c 1 t) (iblk1 V c 2 t) (iblk1 V c 3 t) (iblk1 V c 4 t) (iblk1 V c 5 t) (iblk1 V c 6 t) := by dsimp only [dat1]
theorem after1_8 (t : Fin cfg1.N) : (dat1 V c).after 8 t = out1_8 (iblk1 V c 0 t) (iblk1 V c 1 t) (iblk1 V c 2 t) (iblk1 V c 3 t) (iblk1 V c 4 t) (iblk1 V c 5 t) (iblk1 V c 6 t) := by dsimp only [dat1]

-- for the seven inputs `before` equals `after`: both are the block read off the entry array
theorem before1 (t : Fin cfg1.N) : ∀ w : Fin cfg1.W, w.val < 7 → ∀ d, (dat1 V c).before w t d = (dat1 V c).after w t
  | ⟨0, _⟩, _, d | ⟨1, _⟩, _, d | ⟨2, _⟩, _, d | ⟨3, _⟩, _, d | ⟨4, _⟩, _, d | ⟨5, _⟩, _, d | ⟨6, _⟩, _, d =>
    Eq.trans ((dat1 V c).before_in_eq_fetched _ rfl (fun _ => rfl) (fun _ _ _ => rfl)
      (fun t => by dsimp only [dat1]; unfold Dat.blockOf iblk1; try rfl) t d)
      (by unfold Dat.fetched Dat.blockOf; dsimp only [dat1]; unfold iblk1; try rfl)
  | ⟨_ + 7, _⟩, h, _ => absurd h (Nat.not_lt.mpr (Nat.le_add_left ..))

-- rewrite the inputs by `before`, apply the shared body's triple; the invariant and the owed tallies pass through
theorem body_obligation1 : BodyObligation (dat1 (F := F) V c) (defs₀ (F := F)) Variants.none () Set.univ := fun t => by
  rw [bigSep_W1, bigSep_W1, show (dat1 V c).owesAt () t.succ = (dat1 V c).owesAt () t.castSucc from rfl]
  simp (disch := decide) only [before1 V c t]
  dsimp only [dat1, out1_7, out1_8]
  change _ ⊢ wp _ _ _ (bodyAt1 t) _
  unfold bodyAt1
  rw [kernel1_eq]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply sound_fusedG (c := c) (E := Set.univ)
  iframe H0 H1 H2 H3 H4 H5 H6 H7 H8
  iintro ⟨H0, H1, H2, H3, H4, H5, H6, H7, H8⟩
  iframe

end Regions

end Cert.KernelIdeal.Hand

end
-- ==== Proof.KI.Fused2.lean ====
import proofs.«411758_j88313117540961_2_alg».proof.Proof.Gen.KernelIdeal.Launch
import proofs.«411758_j88313117540961_2_alg».proof.Proof.Gen.KernelIdeal.Skeleton
import proofs.«411758_j88313117540961_2_alg».proof.Proof.Gen.KernelIdeal.Points
import proofs.«411758_j88313117540961_2_alg».proof.Proof.KI.FusedBody
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.KernelIdeal Cert.KernelIdeal.Gen

variable {F : FTy → Type} [FloatOps F]

section Regions
variable (V : (c : Dev nD) → (b : Ref sig .tc) → Buf (Elt F) ((c : Thread nD τ).loc b)) (c : Dev nD)

def iblk2 (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_0 : Rect S2000x128 := Rect.unit (s := S2000x128) ![0, 0] S2000x128.size inb_S2000x128_S2000x128_0_0
abbrev r2_1 : Rect S2000x1 := Rect.unit (s := S2000x1) ![0, 0] S2000x1.size inb_S2000x1_S2000x1_0_0
abbrev r2_2 : Rect S128x128 := Rect.unit (s := S128x128) ![0, 0] S128x128.size inb_S128x128_S128x128_0_0
abbrev r2_3 : Rect S1x128 := Rect.unit (s := S1x128) ![0, 0] S1x128.size inb_S1x128_S1x128_0_0

variable (x0 x1 : Vec F S2000x128 .f32) (x2 : Vec F S2000x1 .f32) (x3 : Vec F S128x128 .f32) (x4 x5 x6 : Vec F S1x128 .f32)

abbrev mid2_a : FVec F S2000x128 .f32 := k2_pay3 (View.ld x1 r2_0)
abbrev mid2_b : FVec F S2000x128 .f32 :=
  k2_pay4 (View.ld x1 r2_0) (View.ld x0 r2_0) (View.ld x2 r2_1) (View.ld x3 r2_2) (View.ld x4 r2_3) (View.ld x5 r2_3)
abbrev mid2_c : FVec F S1x128 .f32 := k2_pay5 (View.ld x6 r2_3)

def out2_7 : Vec F S2000x128 .f32 :=
  View.canon [⟨r2_0, k2_pay1 (mid2_a x1) (mid2_b x0 x1 x2 x3 x4 x5) (mid2_c x6)⟩]

def out2_8 : Vec F S2000x128 .bf16 :=
  View.canon [⟨r2_0, k2_pay2 (mid2_a x1) (mid2_b x0 x1 x2 x3 x4 x5) (mid2_c x6)⟩]

-- the kernel function is the shared body at this region's payloads
theorem kernel2_eq : cc2__fused_block_kernel (F := F) = fun i a1 _ a2 _ a3 _ a4 _ a5 _ a6 _ a7 _ a8 _ a9 h9 =>
    fusedG k2_pay1 k2_pay2 a8 a9 h9 (partG k2_pay3 k2_pay4 k2_pay5 a1 a2 a3 a4 a5 a6 a7) :=
  cc2__fused_block_kernel_eq_skeleton.trans (by unfold cc2__fused_block_kernel_skel; rw [k2_part1_eq_skeleton]; rfl)

def dat2 : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => out2_7 (iblk2 V c 0 t) (iblk2 V c 1 t) (iblk2 V c 2 t) (iblk2 V c 3 t) (iblk2 V c 4 t) (iblk2 V c 5 t) (iblk2 V c 6 t)
    | ⟨8, _⟩ => out2_8 (iblk2 V c 0 t) (iblk2 V c 1 t) (iblk2 V c 2 t) (iblk2 V c 3 t) (iblk2 V c 4 t) (iblk2 V c 5 t) (iblk2 V c 6 t)
  Φ _ := Pipeline.ΦA spec2 c
  q _ := fullShare
  owed _ := 0

theorem A_eq2 (w : Fin cfg2.W) : (dat2 V c).A w = V c (Pipeline.arrRef spec2 w) := by
  dsimp only [dat2]

theorem after2_7 (t : Fin cfg2.N) : (dat2 V c).after 7 t = out2_7 (iblk2 V c 0 t) (iblk2 V c 1 t) (iblk2 V c 2 t) (iblk2 V c 3 t) (iblk2 V c 4 t) (iblk2 V c 5 t) (iblk2 V c 6 t) := by dsimp only [dat2]
theorem after2_8 (t : Fin cfg2.N) : (dat2 V c).after 8 t = out2_8 (iblk2 V c 0 t) (iblk2 V c 1 t) (iblk2 V c 2 t) (iblk2 V c 3 t) (iblk2 V c 4 t) (iblk2 V c 5 t) (iblk2 V c 6 t) := by dsimp only [dat2]

-- for the seven inputs `before` equals `after`: both are the block read off the entry array
theorem before2 (t : Fin cfg2.N) : ∀ w : Fin cfg2.W, w.val < 7 → ∀ d, (dat2 V c).before w t d = (dat2 V c).after w t
  | ⟨0, _⟩, _, d | ⟨1, _⟩, _, d | ⟨2, _⟩, _, d | ⟨3, _⟩, _, d | ⟨4, _⟩, _, d | ⟨5, _⟩, _, d | ⟨6, _⟩, _, d =>
    Eq.trans ((dat2 V c).before_in_eq_fetched _ rfl (fun _ => rfl) (fun _ _ _ => rfl)
      (fun t => by dsimp only [dat2]; unfold Dat.blockOf iblk2; try rfl) t d)
      (by unfold Dat.fetched Dat.blockOf; dsimp only [dat2]; unfold iblk2; try rfl)
  | ⟨_ + 7, _⟩, h, _ => absurd h (Nat.not_lt.mpr (Nat.le_add_left ..))

-- rewrite the inputs by `before`, apply the shared body's triple; the invariant and the owed tallies pass through
theorem body_obligation2 : BodyObligation (dat2 (F := F) V c) (defs₀ (F := F)) Variants.none () Set.univ := fun t => by
  rw [bigSep_W2, bigSep_W2, show (dat2 V c).owesAt () t.succ = (dat2 V c).owesAt () t.castSucc from rfl]
  simp (disch := decide) only [before2 V c t]
  dsimp only [dat2, out2_7, out2_8]
  change _ ⊢ wp _ _ _ (bodyAt2 t) _
  unfold bodyAt2
  rw [kernel2_eq]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply sound_fusedG (c := c) (E := Set.univ)
  iframe H0 H1 H2 H3 H4 H5 H6 H7 H8
  iintro ⟨H0, H1, H2, H3, H4, H5, H6, H7, H8⟩
  iframe

end Regions

end Cert.KernelIdeal.Hand

end
-- ==== Proof.KI.Pool.Runs.lean ====
import proofs.«411758_j88313117540961_2_alg».proof.Proof.Gen.KernelIdeal.Launch
import proofs.«411758_j88313117540961_2_alg».proof.Proof.Gen.KernelIdeal.Skeleton
import proofs.«411758_j88313117540961_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev cond3_0 (i : grid3.Coords) : Prop := (Scalar.cmpi .ne (Scalar.extui (Scalar.cmpi .eq (BitVec.ofNat 32 (i 0).val) 0#32)) 0#32) = 1#1

theorem hcond3_0 : ∀ t : Fin cfg3.N, cond3_0 (grid3.coords t) ↔ t.val % 25 = 0 :=
  (by decide +kernel : ∀ t : Fin grid3.N, cond3_0 (grid3.coords t) ↔ t.val % 25 = 0)

abbrev cond3_1 (i : grid3.Coords) : Prop := k3_cond2 i = 1#1

theorem hcond3_1 : ∀ t : Fin cfg3.N, cond3_1 (grid3.coords t) ↔ t.val % 25 = 24 :=
  (by decide +kernel : ∀ t : Fin grid3.N, cond3_1 (grid3.coords t) ↔ t.val % 25 = 24)

theorem idle3_2 : ∀ t : Fin cfg3.N, cfg3.idle 2 (grid3.coords t) = false ↔ t.val % 25 = 24 :=
  (by decide +kernel : ∀ t : Fin grid3.N, cfg3.idle 2 (grid3.coords t) = false ↔ t.val % 25 = 24)

abbrev VO3_2 : View sig .tc .vmem S128x128 .f32 := (Memref.whole cc3_stg2_0 : Memref sig .tc .vmem S128x128 .f32).view

abbrev ms3_0 (t : Fin cfg3.N) : Memref sig .tc .vmem S2000x128 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S2000x1 .i32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S128x128 .f32 := win3_2.stage (cfg3.slots t 2)
abbrev hs3_2 (t : Fin cfg3.N) : (ms3_2 t).IsWhole := hstage3_2 ((cfg3.slots t 2).cast nbuf3_2)

abbrev scM3_0 : Memref sig .tc .vmem S128x128 .f32 := Memref.whole cc3_scratch0
abbrev scM3_1 : Memref sig .tc .vmem S1x128 .f32 := Memref.whole cc3_scratch1

abbrev VS3_0 : View sig .tc .vmem S128x128 .f32 := scM3_0.view
abbrev VS3_1 : View sig .tc .vmem S1x128 .f32 := scM3_1.view

theorem PhiA3_eq (c : Dev nD) :
    (Pipeline.ΦA spec3 c : sProp 𝕄)
      = iprop(iprop(iprop((∃ d, owns (c : Thread nD τ) scM3_0 fullShare d) ∗ (∃ d, owns (c : Thread nD τ) scM3_1 fullShare d))
          ∗ Pipeline.scopedRestBut (Ix := Unit) (Name := ℕ) (U := UR sig nD τ) (Lvl := ℕ) (Val := Elt F) spec3 c [cc3_scratch0, cc3_scratch1]) ∗ (∃ r, prngReg c r)) := by
  unfold Pipeline.ΦA; rw [scopedRest3_split]; simp only [scM3_0, scM3_1, owns_whole]; try rfl

section Run
variable (c : Dev nD) (i : grid3.Coords) (arg1 : Memref sig .tc .vmem S2000x128 .f32) (harg1 : arg1.IsWhole) (arg2 : Memref sig .tc .vmem S2000x1 .i32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole)

set_option maxHeartbeats 1000000 in
/-- The first point: both accumulators are cleared and the block is added to them; the output is left as it was. -/
noncomputable def kernelRun3_A (hc0 : cond3_0 i) (hc1 : ¬cond3_1 i)
    (x0 : Vec F S2000x128 .f32) (x1 : Vec F S2000x1 .i32) :
    Σ' (L2 : List (View.Piece (Elt F) S128x128 .f32)) (LS0 : List (View.Piece (Elt F) S128x128 .f32)), { LS1 : List (View.Piece (Elt F) S1x128 .f32) //
      ∀ (xi2 : Vec F S128x128 .f32) (E : Set ℕ) (K : PUnit → sProp 𝕄),
        iprop(owns (c : Thread nD τ) arg1 fullShare x0 ∗ owns (c : Thread nD τ) arg2 fullShare x1 ∗ owns (c : Thread nD τ) arg3 fullShare xi2
            ∗ (∃ d, owns (c : Thread nD τ) arg4 fullShare d) ∗ (∃ d, owns (c : Thread nD τ) arg5 fullShare d)
            ∗ (iprop(owns (c : Thread nD τ) arg1 fullShare x0 ∗ owns (c : Thread nD τ) arg2 fullShare x1 ∗ owns (c : Thread nD τ) arg3 fullShare xi2
                ∗ (∃ f, arg4.view.loc (c : Thread nD τ) ↦[arg4.view.set]{fullShare} arg4.view.writes (Elt F) f LS0)
                ∗ (∃ f, arg5.view.loc (c : Thread nD τ) ↦[arg5.view.set]{fullShare} arg5.view.writes (Elt F) f LS1)) -∗ K ⟨⟩))
          ⊢ wp frame (wpE (defs₀ (F := F)) Variants.none c none) E (cc3__pool_kernel i arg1 harg1 arg2 harg2 arg3 harg3 arg4 harg4 arg5 harg5) K } := by
  refine ⟨[], ?_, ?_, fun xi2 E K => ?run⟩
  case run =>
    simp only [cc3__pool_kernel_eq_skeleton]; unfold cc3__pool_kernel_skel
    unfold owns
    iintro ⟨⟨%f0, %hf0, H0⟩, ⟨%f1, %hf1, H1⟩, ⟨%f2, %hf2, H2⟩, ⟨%ds0, %fs0, -, HS0⟩, ⟨%ds1, %fs1, -, HS1⟩, Hk⟩
    obtain rfl := harg1.eq_unread hf0; obtain rfl := harg2.eq_unread hf1; obtain rfl := harg3.eq_unread hf2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [HS0]; · iexists _; iexact HS0
    iexists _; iexact HS1

set_option maxHeartbeats 1000000 in
/-- A middle point: the block is added to both accumulators; the output is left as it was. -/
noncomputable def kernelRun3_B (hc0 : ¬cond3_0 i) (hc1 : ¬cond3_1 i)
    (x0 : Vec F S2000x128 .f32) (x1 : Vec F S2000x1 .i32) (xs0 : Vec F S128x128 .f32) (xs1 : Vec F S1x128 .f32) :
    Σ' (L2 : List (View.Piece (Elt F) S128x128 .f32)) (LS0 : List (View.Piece (Elt F) S128x128 .f32)), { LS1 : List (View.Piece (Elt F) S1x128 .f32) //
      ∀ (xi2 : Vec F S128x128 .f32) (E : Set ℕ) (K : PUnit → sProp 𝕄),
        iprop(owns (c : Thread nD τ) arg1 fullShare x0 ∗ owns (c : Thread nD τ) arg2 fullShare x1 ∗ owns (c : Thread nD τ) arg3 fullShare xi2
            ∗ owns (c : Thread nD τ) arg4 fullShare xs0 ∗ owns (c : Thread nD τ) arg5 fullShare xs1
            ∗ (iprop(owns (c : Thread nD τ) arg1 fullShare x0 ∗ owns (c : Thread nD τ) arg2 fullShare x1 ∗ owns (c : Thread nD τ) arg3 fullShare xi2
                ∗ (∃ f, arg4.view.loc (c : Thread nD τ) ↦[arg4.view.set]{fullShare} arg4.view.writes (Elt F) f LS0)
                ∗ (∃ f, arg5.view.loc (c : Thread nD τ) ↦[arg5.view.set]{fullShare} arg5.view.writes (Elt F) f LS1)) -∗ K ⟨⟩))
          ⊢ wp frame (wpE (defs₀ (F := F)) Variants.none c none) E (cc3__pool_kernel i arg1 harg1 arg2 harg2 arg3 harg3 arg4 harg4 arg5 harg5) K } := by
  refine ⟨[], ?_, ?_, fun xi2 E K => ?run⟩
  case run =>
    simp only [cc3__pool_kernel_eq_skeleton]; unfold cc3__pool_kernel_skel
    unfold owns
    iintro ⟨⟨%f0, %hf0, H0⟩, ⟨%f1, %hf1, H1⟩, ⟨%f2, %hf2, H2⟩, ⟨%fs0, %hfs0, HS0⟩, ⟨%fs1, %hfs1, HS1⟩, Hk⟩
    obtain rfl := harg1.eq_unread hf0; obtain rfl := harg2.eq_unread hf1; obtain rfl := harg3.eq_unread hf2
    obtain rfl := harg4.eq_unread hfs0; obtain rfl := harg5.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [HS0]; · iexists _; iexact HS0
    iexists _; iexact HS1

set_option maxHeartbeats 1000000 in
/-- The last point: the block is added to both accumulators, and the output gets the sums divided by the counts. -/
noncomputable def kernelRun3_C (hc0 : ¬cond3_0 i) (hc1 : cond3_1 i)
    (x0 : Vec F S2000x128 .f32) (x1 : Vec F S2000x1 .i32) (xs0 : Vec F S128x128 .f32) (xs1 : Vec F S1x128 .f32) :
    Σ' (L2 : List (View.Piece (Elt F) S128x128 .f32)) (LS0 : List (View.Piece (Elt F) S128x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d)
            ∗ owns (c : Thread nD τ) arg4 fullShare xs0 ∗ owns (c : Thread nD τ) arg5 fullShare xs1
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L2)
                ∗ (∃ f, arg4.view.loc (c : Thread nD τ) ↦[arg4.view.set]{fullShare} arg4.view.writes (Elt F) f LS0)
                ∗ (∃ f, arg5.view.loc (c : Thread nD τ) ↦[arg5.view.set]{fullShare} arg5.view.writes (Elt F) f LS1)) -∗ K ⟨⟩))
          ⊢ wp frame (wpE (defs₀ (F := F)) Variants.none c none) E (cc3__pool_kernel i arg1 harg1 arg2 harg2 arg3 harg3 arg4 harg4 arg5 harg5) K } := by
  refine ⟨?_, ?_, ?_, fun E K => ?run⟩
  case run =>
    simp only [cc3__pool_kernel_eq_skeleton]; unfold cc3__pool_kernel_skel
    unfold owns
    iintro ⟨⟨%f0, %hf0, H0⟩, ⟨%f1, %hf1, H1⟩, ⟨%d2, %f2, -, H2⟩, ⟨%fs0, %hfs0, HS0⟩, ⟨%fs1, %hfs1, HS1⟩, Hk⟩
    obtain rfl := harg1.eq_unread hf0; obtain rfl := harg2.eq_unread hf1
    obtain rfl := harg4.eq_unread hfs0; obtain rfl := harg5.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [HS0]; · iexists _; iexact HS0
    iexists _; iexact HS1

end Run

end Cert.KernelIdeal.Hand

end
-- ==== Proof.KI.Pool.lean ====
import proofs.«411758_j88313117540961_2_alg».proof.Proof.KI.Pool.Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

section Cases
variable (c : Dev nD) (i : grid3.Coords) (arg1 : Memref sig .tc .vmem S2000x128 .f32) (harg1 : arg1.IsWhole) (arg2 : Memref sig .tc .vmem S2000x1 .i32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole)

section A
variable (hc0 : cond3_0 i) (hc1 : ¬cond3_1 i) (x0 : Vec F S2000x128 .f32) (x1 : Vec F S2000x1 .i32)

theorem scover3_A_0 (y : S128x128.Idx) : ∃ pc ∈ (kernelRun3_A c i arg1 harg1 arg2 harg2 arg3 harg3 arg4 harg4 arg5 harg5 hc0 hc1 x0 x1).2.1, y ∈ pc.1.set :=
  View.cover_of_tiledL _ S128x128.size (by sl_kernel_rfl) y

def sout3_A_0 : Vec F S128x128 .f32 :=
  VS3_0.read (Elt F) (VS3_0.writes (Elt F) VS3_0.junk (kernelRun3_A c i arg1 harg1 arg2 harg2 arg3 harg3 arg4 harg4 arg5 harg5 hc0 hc1 x0 x1).2.1)

theorem scover3_A_1 (y : S1x128.Idx) : ∃ pc ∈ (kernelRun3_A c i arg1 harg1 arg2 harg2 arg3 harg3 arg4 harg4 arg5 harg5 hc0 hc1 x0 x1).2.2.1, y ∈ pc.1.set :=
  View.cover_of_tiledL _ S1x128.size (by sl_kernel_rfl) y

def sout3_A_1 : Vec F S1x128 .f32 :=
  VS3_1.read (Elt F) (VS3_1.writes (Elt F) VS3_1.junk (kernelRun3_A c i arg1 harg1 arg2 harg2 arg3 harg3 arg4 harg4 arg5 harg5 hc0 hc1 x0 x1).2.2.1)

abbrev outs3_A : Vec F S128x128 .f32 × Vec F S128x128 .f32 × Vec F S1x128 .f32 :=
  (VO3_2.read (Elt F) VO3_2.junk, sout3_A_0 c i arg1 harg1 arg2 harg2 arg3 harg3 arg4 harg4 arg5 harg5 hc0 hc1 x0 x1, sout3_A_1 c i arg1 harg1 arg2 harg2 arg3 harg3 arg4 harg4 arg5 harg5 hc0 hc1 x0 x1)

end A

section B
variable (hc0 : ¬cond3_0 i) (hc1 : ¬cond3_1 i) (x0 : Vec F S2000x128 .f32) (x1 : Vec F S2000x1 .i32) (xs0 : Vec F S128x128 .f32) (xs1 : Vec F S1x128 .f32)

theorem scover3_B_0 (y : S128x128.Idx) : ∃ pc ∈ (kernelRun3_B c i arg1 harg1 arg2 harg2 arg3 harg3 arg4 harg4 arg5 harg5 hc0 hc1 x0 x1 xs0 xs1).2.1, y ∈ pc.1.set :=
  View.cover_of_tiledL _ S128x128.size (by sl_kernel_rfl) y

def sout3_B_0 : Vec F S128x128 .f32 :=
  VS3_0.read (Elt F) (VS3_0.writes (Elt F) VS3_0.junk (kernelRun3_B c i arg1 harg1 arg2 harg2 arg3 harg3 arg4 harg4 arg5 harg5 hc0 hc1 x0 x1 xs0 xs1).2.1)

theorem scover3_B_1 (y : S1x128.Idx) : ∃ pc ∈ (kernelRun3_B c i arg1 harg1 arg2 harg2 arg3 harg3 arg4 harg4 arg5 harg5 hc0 hc1 x0 x1 xs0 xs1).2.2.1, y ∈ pc.1.set :=
  View.cover_of_tiledL _ S1x128.size (by sl_kernel_rfl) y

def sout3_B_1 : Vec F S1x128 .f32 :=
  VS3_1.read (Elt F) (VS3_1.writes (Elt F) VS3_1.junk (kernelRun3_B c i arg1 harg1 arg2 harg2 arg3 harg3 arg4 harg4 arg5 harg5 hc0 hc1 x0 x1 xs0 xs1).2.2.1)

abbrev outs3_B : Vec F S128x128 .f32 × Vec F S128x128 .f32 × Vec F S1x128 .f32 :=
  (VO3_2.read (Elt F) VO3_2.junk, sout3_B_0 c i arg1 harg1 arg2 harg2 arg3 harg3 arg4 harg4 arg5 harg5 hc0 hc1 x0 x1 xs0 xs1, sout3_B_1 c i arg1 harg1 arg2 harg2 arg3 harg3 arg4 harg4 arg5 harg5 hc0 hc1 x0 x1 xs0 xs1)

end B

section C
variable (hc0 : ¬cond3_0 i) (hc1 : cond3_1 i) (x0 : Vec F S2000x128 .f32) (x1 : Vec F S2000x1 .i32) (xs0 : Vec F S128x128 .f32) (xs1 : Vec F S1x128 .f32)

theorem cover3_C_2 (y : S128x128.Idx) : ∃ pc ∈ (kernelRun3_C c i arg1 harg1 arg2 harg2 arg3 harg3 arg4 harg4 arg5 harg5 hc0 hc1 x0 x1 xs0 xs1).1, y ∈ pc.1.set :=
  View.cover_of_tiledL _ S128x128.size (by sl_kernel_rfl) y

def out3_C_2 : Vec F S128x128 .f32 :=
  VO3_2.read (Elt F) (VO3_2.writes (Elt F) VO3_2.junk (kernelRun3_C c i arg1 harg1 arg2 harg2 arg3 harg3 arg4 harg4 arg5 harg5 hc0 hc1 x0 x1 xs0 xs1).1)

theorem scover3_C_0 (y : S128x128.Idx) : ∃ pc ∈ (kernelRun3_C c i arg1 harg1 arg2 harg2 arg3 harg3 arg4 harg4 arg5 harg5 hc0 hc1 x0 x1 xs0 xs1).2.1, y ∈ pc.1.set :=
  View.cover_of_tiledL _ S128x128.size (by sl_kernel_rfl) y

def sout3_C_0 : Vec F S128x128 .f32 :=
  VS3_0.read (Elt F) (VS3_0.writes (Elt F) VS3_0.junk (kernelRun3_C c i arg1 harg1 arg2 harg2 arg3 harg3 arg4 harg4 arg5 harg5 hc0 hc1 x0 x1 xs0 xs1).2.1)

theorem scover3_C_1 (y : S1x128.Idx) : ∃ pc ∈ (kernelRun3_C c i arg1 harg1 arg2 harg2 arg3 harg3 arg4 harg4 arg5 harg5 hc0 hc1 x0 x1 xs0 xs1).2.2.1, y ∈ pc.1.set :=
  View.cover_of_tiledL _ S1x128.size (by sl_kernel_rfl) y

def sout3_C_1 : Vec F S1x128 .f32 :=
  VS3_1.read (Elt F) (VS3_1.writes (Elt F) VS3_1.junk (kernelRun3_C c i arg1 harg1 arg2 harg2 arg3 harg3 arg4 harg4 arg5 harg5 hc0 hc1 x0 x1 xs0 xs1).2.2.1)

abbrev outs3_C : Vec F S128x128 .f32 × Vec F S128x128 .f32 × Vec F S1x128 .f32 :=
  (out3_C_2 c i arg1 harg1 arg2 harg2 arg3 harg3 arg4 harg4 arg5 harg5 hc0 hc1 x0 x1 xs0 xs1, sout3_C_0 c i arg1 harg1 arg2 harg2 arg3 harg3 arg4 harg4 arg5 harg5 hc0 hc1 x0 x1 xs0 xs1, sout3_C_1 c i arg1 harg1 arg2 harg2 arg3 harg3 arg4 harg4 arg5 harg5 hc0 hc1 x0 x1 xs0 xs1)

end C

end Cases

/-- The output block, the running sums and the running counts after position `n`, by recursion on the point before. -/
def outsAt3 (c : Dev nD) : (n : ℕ) → n < cfg3.N → Vec F S128x128 .f32 × Vec F S128x128 .f32 × Vec F S1x128 .f32
  | 0, hn => outs3_A c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) scM3_0 (Memref.isWhole_whole _) scM3_1 (Memref.isWhole_whole _) ((hcond3_0 ⟨0, hn⟩).mpr (Nat.zero_mod _)) (fun h => by have h := (hcond3_1 ⟨0, hn⟩).mp h; dsimp only at h; omega) (iblk3 V c 0 ⟨0, hn⟩) (iblk3 V c 1 ⟨0, hn⟩)
  | n + 1, hn =>
    if h0 : (n + 1) % 25 = 0 then
      outs3_A c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) scM3_0 (Memref.isWhole_whole _) scM3_1 (Memref.isWhole_whole _) ((hcond3_0 ⟨n + 1, hn⟩).mpr h0) (fun h => by have h := (hcond3_1 ⟨n + 1, hn⟩).mp h; dsimp only at h; omega) (iblk3 V c 0 ⟨n + 1, hn⟩) (iblk3 V c 1 ⟨n + 1, hn⟩)
    else if h1 : (n + 1) % 25 = 24 then
      outs3_C c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) scM3_0 (Memref.isWhole_whole _) scM3_1 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (outsAt3 c n (Nat.lt_of_succ_lt hn)).2.1 (outsAt3 c n (Nat.lt_of_succ_lt hn)).2.2
    else
      outs3_B c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) scM3_0 (Memref.isWhole_whole _) scM3_1 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (outsAt3 c n (Nat.lt_of_succ_lt hn)).2.1 (outsAt3 c n (Nat.lt_of_succ_lt hn)).2.2

theorem outsAt3_A (c : Dev nD) (t : Fin cfg3.N) (h0 : t.val % 25 = 0) (h1 : ¬t.val % 25 = 24) :
    outsAt3 V c t.val t.isLt = outs3_A c (grid3.coords t) (ms3_0 t) (hs3_0 t) (ms3_1 t) (hs3_1 t) (ms3_2 t) (hs3_2 t) scM3_0 (Memref.isWhole_whole _) scM3_1 (Memref.isWhole_whole _) ((hcond3_0 t).mpr h0) (fun h => h1 ((hcond3_1 t).mp h)) (iblk3 V c 0 t) (iblk3 V c 1 t) := by
  obtain ⟨n, hn⟩ := t
  cases n with
  | zero => rfl
  | succ n => exact (dif_pos h0).trans rfl

theorem outsAt3_B (c : Dev nD) (t : Fin cfg3.N) (h0 : ¬t.val % 25 = 0) (h1 : ¬t.val % 25 = 24) :
    outsAt3 V c t.val t.isLt = outs3_B c (grid3.coords t) (ms3_0 t) (hs3_0 t) (ms3_1 t) (hs3_1 t) (ms3_2 t) (hs3_2 t) scM3_0 (Memref.isWhole_whole _) scM3_1 (Memref.isWhole_whole _) (fun h => h0 ((hcond3_0 t).mp h)) (fun h => h1 ((hcond3_1 t).mp h)) (iblk3 V c 0 t) (iblk3 V c 1 t) (outsAt3 V c (t.val - 1) (Nat.lt_of_le_of_lt (Nat.sub_le _ _) t.isLt)).2.1 (outsAt3 V c (t.val - 1) (Nat.lt_of_le_of_lt (Nat.sub_le _ _) t.isLt)).2.2 := by
  obtain ⟨n, hn⟩ := t
  cases n with
  | zero => exact absurd (Nat.zero_mod _) h0
  | succ n => exact (dif_neg h0).trans ((dif_neg h1).trans rfl)

theorem outsAt3_C (c : Dev nD) (t : Fin cfg3.N) (h0 : ¬t.val % 25 = 0) (h1 : t.val % 25 = 24) :
    outsAt3 V c t.val t.isLt = outs3_C c (grid3.coords t) (ms3_0 t) (hs3_0 t) (ms3_1 t) (hs3_1 t) (ms3_2 t) (hs3_2 t) scM3_0 (Memref.isWhole_whole _) scM3_1 (Memref.isWhole_whole _) (fun h => h0 ((hcond3_0 t).mp h)) ((hcond3_1 t).mpr h1) (iblk3 V c 0 t) (iblk3 V c 1 t) (outsAt3 V c (t.val - 1) (Nat.lt_of_le_of_lt (Nat.sub_le _ _) t.isLt)).2.1 (outsAt3 V c (t.val - 1) (Nat.lt_of_le_of_lt (Nat.sub_le _ _) t.isLt)).2.2 := by
  obtain ⟨n, hn⟩ := t
  cases n with
  | zero => exact absurd (Nat.zero_mod _) h0
  | succ n => exact (dif_neg h0).trans ((dif_pos h1).trans rfl)

/-- The invariant after position `n`: both accumulators at what that point left in them. -/
def acc3 (c : Dev nD) (n : ℕ) (hn : n < cfg3.N) : sProp 𝕄 :=
  iprop(iprop(iprop(owns (c : Thread nD τ) scM3_0 fullShare (outsAt3 V c n hn).2.1 ∗ owns (c : Thread nD τ) scM3_1 fullShare (outsAt3 V c n hn).2.2)
    ∗ Pipeline.scopedRestBut (Ix := Unit) (Name := ℕ) (U := UR sig nD τ) (Lvl := ℕ) (Val := Elt F) spec3 c [cc3_scratch0, cc3_scratch1]) ∗ (∃ r, prngReg c r))

/-- The region invariant before position `n`: the launch's before the first point, `acc3` afterwards. -/
def PhiS3 (c : Dev nD) : (n : ℕ) → n ≤ cfg3.N → sProp 𝕄
  | 0, _ => Pipeline.ΦA spec3 c
  | n + 1, hn => acc3 V c n hn

theorem PhiS3_zero (c : Dev nD) (n : ℕ) (h : n ≤ cfg3.N) (hz : n = 0) : PhiS3 V c n h = Pipeline.ΦA spec3 c := by
  subst hz; rfl

theorem PhiS3_pos (c : Dev nD) (n : ℕ) (h : n ≤ cfg3.N) (hz : n ≠ 0) : PhiS3 V c n h = acc3 V c (n - 1) (by omega) := by
  cases n with
  | zero => exact absurd rfl hz
  | succ n => rfl

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => (outsAt3 V c t.val t.isLt).1
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem PhiS3_castSucc (c : Dev nD) (t : Fin cfg3.N) :
    (dat3 V c).Φ t.castSucc = PhiS3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = (outsAt3 V c t.val t.isLt).1 := by dsimp only [dat3]

theorem before3_0 (c : Dev nD) (t : Fin cfg3.N) (d) : (dat3 V c).before 0 t d = iblk3 V c 0 t :=
  ((dat3 V c).before_in_eq_fetched 0 rfl (fun _ => rfl) (fun _ _ _ => rfl) (fun t => by rw [after3_0]; unfold Dat.blockOf iblk3; rw [A_eq3]; try rfl) t d).trans
    (by unfold Dat.fetched Dat.blockOf iblk3; rw [A_eq3]; try rfl)
theorem before3_1 (c : Dev nD) (t : Fin cfg3.N) (d) : (dat3 V c).before 1 t d = iblk3 V c 1 t :=
  ((dat3 V c).before_in_eq_fetched 1 rfl (fun _ => rfl) (fun _ _ _ => rfl) (fun t => by rw [after3_1]; unfold Dat.blockOf iblk3; rw [A_eq3]; try rfl) t d).trans
    (by unfold Dat.fetched Dat.blockOf iblk3; rw [A_eq3]; try rfl)

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t)

set_option maxHeartbeats 4800000 in
/-- At every point the body takes the invariant before the point to the invariant after it, case by case. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).owesAt () t.succ = (dat3 V c).owesAt () t.castSucc from rfl,
    show (dat3 V c).Φ t.succ = acc3 V c t.val t.isLt from rfl, PhiS3_castSucc V c t,
    show (dat3 V c).leavesExact 0 t = owns (c : Thread nD τ) (ms3_0 t) fullShare ((dat3 V c).after 0 t) from rfl, after3_0,
    show (dat3 V c).leavesExact 1 t = owns (c : Thread nD τ) (ms3_1 t) fullShare ((dat3 V c).after 1 t) from rfl, after3_1]
  unfold acc3
  have hN : t.val < 25 := lt_of_lt_of_eq t.isLt (show cfg3.N = 25 from N_3)
  by_cases h1 : t.val % 25 = 24
  · have h0 : ¬t.val % 25 = 0 := by omega
    rw [show (dat3 V c).leavesExact 2 t = owns (c : Thread nD τ) (ms3_2 t) fullShare ((dat3 V c).after 2 t) from by
      unfold Dat.leavesExact; rw [(idle3_2 t).mpr h1], after3_2, outsAt3_C V c t h0 h1]
    dsimp only; unfold out3_C_2 sout3_C_0 sout3_C_1
    rw [PhiS3_pos V c t.val _ (by omega)]; unfold acc3
    iintro ⟨⟨⟨⟨HS0, HS1⟩, HR⟩, Hg⟩, Ho, ⟨%d0, H0⟩, ⟨%d1, H1⟩, H2⟩
    iapply ((kernelRun3_C c (grid3.coords t) _ _ _ _ _ _ _ _ _ _ (fun h => h0 ((hcond3_0 t).mp h)) ((hcond3_1 t).mpr h1) (iblk3 V c 0 t) (iblk3 V c 1 t) _ _).2.2.2 Set.univ _)
    iframe H0 H1 HS0 HS1
    isplitl [H2]
    · icases H2 with ⟨%d2, H2⟩; iexists _; iexact H2
    iintro ⟨H0, H1, ⟨%e2, H2⟩, ⟨%es0, HS0⟩, ⟨%es1, HS1⟩⟩
    iframe HR Hg Ho H0 H1
    isplitr [H2]
    · isplitl [HS0]
      · unfold owns; iexists _; isplitr
        swap; · iexact HS0
        ipureintro; exact View.read_writes_of_cover _ _ _ _ _ (scover3_C_0 c _ _ _ _ _ _ _ _ _ _ _ _ _ _ _ _ _)
      unfold owns; iexists _; isplitr
      swap; · iexact HS1
      ipureintro; exact View.read_writes_of_cover _ _ _ _ _ (scover3_C_1 c _ _ _ _ _ _ _ _ _ _ _ _ _ _ _ _ _)
    unfold owns; iexists _; isplitr
    swap; · iexact H2
    ipureintro; exact View.read_writes_of_cover _ _ _ _ _ (cover3_C_2 c _ _ _ _ _ _ _ _ _ _ _ _ _ _ _ _ _)
  · rw [Dat.leavesExact_idle (dat3 V c) 2 t (eq_true_of_ne_false (mt (idle3_2 t).mp h1)) (eq_false_of_ne_true (mt (flush3_2 t).mp h1))]
    by_cases h0 : t.val % 25 = 0
    · rw [outsAt3_A V c t h0 h1]
      dsimp only; unfold sout3_A_0 sout3_A_1
      rw [PhiS3_zero V c t.val _ (by omega), PhiA3_eq]
      iintro ⟨⟨⟨⟨HS0, HS1⟩, HR⟩, Hg⟩, Ho, ⟨%d0, H0⟩, ⟨%d1, H1⟩, ⟨%d2, H2⟩⟩
      iapply ((kernelRun3_A c (grid3.coords t) _ _ _ _ _ _ _ _ _ _ ((hcond3_0 t).mpr h0) (fun h => h1 ((hcond3_1 t).mp h)) (iblk3 V c 0 t) (iblk3 V c 1 t)).2.2.2 _ Set.univ _)
      iframe H0 H1 H2 HS0 HS1
      iintro ⟨H0, H1, H2, ⟨%es0, HS0⟩, ⟨%es1, HS1⟩⟩
      iframe HR Hg Ho H0 H1
      isplitr [H2]
      · isplitl [HS0]
        · unfold owns; iexists _; isplitr
          swap; · iexact HS0
          ipureintro; exact View.read_writes_of_cover _ _ _ _ _ (scover3_A_0 c _ _ _ _ _ _ _ _ _ _ _ _ _ _ _)
        unfold owns; iexists _; isplitr
        swap; · iexact HS1
        ipureintro; exact View.read_writes_of_cover _ _ _ _ _ (scover3_A_1 c _ _ _ _ _ _ _ _ _ _ _ _ _ _ _)
      iexists _; iexact H2
    · rw [outsAt3_B V c t h0 h1]
      dsimp only; unfold sout3_B_0 sout3_B_1
      rw [PhiS3_pos V c t.val _ (by omega)]; unfold acc3
      iintro ⟨⟨⟨⟨HS0, HS1⟩, HR⟩, Hg⟩, Ho, ⟨%d0, H0⟩, ⟨%d1, H1⟩, ⟨%d2, H2⟩⟩
      iapply ((kernelRun3_B c (grid3.coords t) _ _ _ _ _ _ _ _ _ _ (fun h => h0 ((hcond3_0 t).mp h)) (fun h => h1 ((hcond3_1 t).mp h)) (iblk3 V c 0 t) (iblk3 V c 1 t) _ _).2.2.2 _ Set.univ _)
      iframe H0 H1 H2 HS0 HS1
      iintro ⟨H0, H1, H2, ⟨%es0, HS0⟩, ⟨%es1, HS1⟩⟩
      iframe HR Hg Ho H0 H1
      isplitr [H2]
      · isplitl [HS0]
        · unfold owns; iexists _; isplitr
          swap; · iexact HS0
          ipureintro; exact View.read_writes_of_cover _ _ _ _ _ (scover3_B_0 c _ _ _ _ _ _ _ _ _ _ _ _ _ _ _ _ _)
        unfold owns; iexists _; isplitr
        swap; · iexact HS1
        ipureintro; exact View.read_writes_of_cover _ _ _ _ _ (scover3_B_1 c _ _ _ _ _ _ _ _ _ _ _ _ _ _ _ _ _)
      iexists _; iexact H2

theorem body_obligation3 (c : Dev nD) : BodyObligation (dat3 (F := F) V c) (defs₀ (F := F)) Variants.none () Set.univ := fun t => by
  rw [bigSep_W3, bigSep_W3]
  exact sound_body3 V c t

theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

theorem Phi_out3 (c : Dev nD) (t : Fin (cfg3.N + 1)) (ht : t.val ≠ 0) : (dat3 V c).Φ t ⊢ Pipeline.ΦA spec3 c := by
  rw [show (dat3 V c).Φ t = PhiS3 V c t.val (Nat.le_of_lt_succ t.isLt) from rfl, PhiS3_pos V c _ _ ht, PhiA3_eq]; unfold acc3
  iintro ⟨⟨⟨HS0, HS1⟩, HR⟩, Hg⟩
  isplitl [HS0 HS1 HR]
  · isplitl [HS0 HS1]
    · isplitl [HS0]
      · iexists _; iexact HS0
      iexists _; iexact HS1
    iexact HR
  iexact Hg

theorem hout3 (c : Dev nD) : (dat3 V c).Φ (Fin.last cfg3.N) ⊢ Pipeline.ΦA spec3 c :=
  Phi_out3 V c _ (by rw [Fin.val_last]; have : cfg3.N = 25 := N_3; omega)

end Cert.KernelIdeal.Hand

end
-- ==== Proof.KI.Run.lean ====
import proofs.«411758_j88313117540961_2_alg».proof.Proof.Gen.KernelIdeal.Launch
import proofs.«411758_j88313117540961_2_alg».proof.Proof.Gen.KernelIdeal.Skeleton
import proofs.«411758_j88313117540961_2_alg».proof.Proof.Gen.KernelIdeal.Points
import proofs.«411758_j88313117540961_2_alg».proof.Proof.Gen.KernelIdeal.Regions
import proofs.«411758_j88313117540961_2_alg».proof.Proof.KI.Fused0
import proofs.«411758_j88313117540961_2_alg».proof.Proof.KI.Fused1
import proofs.«411758_j88313117540961_2_alg».proof.Proof.KI.Fused2
import proofs.«411758_j88313117540961_2_alg».proof.Proof.KI.Pool
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => (s₀ m ρ).mem ((c : Dev nD), b)
abbrev W1 : Dev nD → Valuation τ sig (Elt F) := fun c => StableHlo.after hostOps0 (W0 m ρ c)
theorem W1_of (c : Dev nD) (r : Ref sig .tc) (h : r ∉ hostOps0_W) :
    W1 m ρ c (Proc.devRef .tc r) = W0 m ρ c (Proc.devRef .tc r) :=
  StableHlo.after_of_writes_sub hostOps0 _ hostOps0_writes h
abbrev W2 : Dev nD → Valuation τ sig (Elt F) := fun c => StableHlo.after hostOps0_1 (W1 m ρ c)
theorem W2_of (c : Dev nD) (r : Ref sig .tc) (h : r ∉ hostOps0_1_W) :
    W2 m ρ c (Proc.devRef .tc r) = W1 m ρ c (Proc.devRef .tc r) :=
  StableHlo.after_of_writes_sub hostOps0_1 _ hostOps0_1_writes h
abbrev W3 : Dev nD → Valuation τ sig (Elt F) := fun c => StableHlo.after hostOps0_2 (W2 m ρ c)
abbrev V3 : (c : Dev nD) → (b : Ref sig .tc) → Buf (Elt F) ((c : Thread nD τ).loc b) := fun c b => W3 m ρ c b
theorem W3_of (c : Dev nD) (r : Ref sig .tc) (h : r ∉ hostOps0_2_W) :
    W3 m ρ c (Proc.devRef .tc r) = W2 m ρ c (Proc.devRef .tc r) :=
  StableHlo.after_of_writes_sub hostOps0_2 _ hostOps0_2_writes h
def W4 (c : Dev nD) : Valuation τ sig (Elt F) :=
  Pipeline.withArrays spec0 c (W3 m ρ c) fun w => (dat0 (V3 m ρ) c).arrAt w cfg0.N
theorem W4_arr (c : Dev nD) (w : Fin cfg0.W) :
    W4 m ρ c (Proc.devRef .tc (Pipeline.arrRef spec0 w)) = (dat0 (V3 m ρ) c).arrAt w cfg0.N :=
  Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) :=
  Pipeline.withArrays_of_ne spec0 c _ _ b hb
theorem W4_in (c : Dev nD) (w : Fin cfg0.W) (hin : (cfg0.win w).isOut = false) :
    W4 m ρ c (Proc.devRef .tc (Pipeline.arrRef spec0 w)) = W3 m ρ c (Proc.devRef .tc (Pipeline.arrRef spec0 w)) :=
  (W4_arr m ρ c w).trans (((dat0 (V3 m ρ) c).arrAt_in w hin _).trans (A_eq0 (V3 m ρ) c w))
abbrev W5 : Dev nD → Valuation τ sig (Elt F) := fun c => StableHlo.after hostOps1 (W4 m ρ c)
abbrev V5 : (c : Dev nD) → (b : Ref sig .tc) → Buf (Elt F) ((c : Thread nD τ).loc b) := fun c b => W5 m ρ c b
theorem W5_of (c : Dev nD) (r : Ref sig .tc) (h : r ∉ hostOps1_W) :
    W5 m ρ c (Proc.devRef .tc r) = W4 m ρ c (Proc.devRef .tc r) :=
  StableHlo.after_of_writes_sub hostOps1 _ hostOps1_writes h
def W6 (c : Dev nD) : Valuation τ sig (Elt F) :=
  Pipeline.withArrays spec1 c (W5 m ρ c) fun w => (dat1 (V5 m ρ) c).arrAt w cfg1.N
theorem W6_arr (c : Dev nD) (w : Fin cfg1.W) :
    W6 m ρ c (Proc.devRef .tc (Pipeline.arrRef spec1 w)) = (dat1 (V5 m ρ) c).arrAt w cfg1.N :=
  Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) :=
  Pipeline.withArrays_of_ne spec1 c _ _ b hb
theorem W6_in (c : Dev nD) (w : Fin cfg1.W) (hin : (cfg1.win w).isOut = false) :
    W6 m ρ c (Proc.devRef .tc (Pipeline.arrRef spec1 w)) = W5 m ρ c (Proc.devRef .tc (Pipeline.arrRef spec1 w)) :=
  (W6_arr m ρ c w).trans (((dat1 (V5 m ρ) c).arrAt_in w hin _).trans (A_eq1 (V5 m ρ) c w))
abbrev W7 : Dev nD → Valuation τ sig (Elt F) := fun c => StableHlo.after hostOps2 (W6 m ρ c)
abbrev V7 : (c : Dev nD) → (b : Ref sig .tc) → Buf (Elt F) ((c : Thread nD τ).loc b) := fun c b => W7 m ρ c b
theorem W7_of (c : Dev nD) (r : Ref sig .tc) (h : r ∉ hostOps2_W) :
    W7 m ρ c (Proc.devRef .tc r) = W6 m ρ c (Proc.devRef .tc r) :=
  StableHlo.after_of_writes_sub hostOps2 _ hostOps2_writes h
def W8 (c : Dev nD) : Valuation τ sig (Elt F) :=
  Pipeline.withArrays spec2 c (W7 m ρ c) fun w => (dat2 (V7 m ρ) c).arrAt w cfg2.N
theorem W8_arr (c : Dev nD) (w : Fin cfg2.W) :
    W8 m ρ c (Proc.devRef .tc (Pipeline.arrRef spec2 w)) = (dat2 (V7 m ρ) c).arrAt w cfg2.N :=
  Pipeline.withArrays_arr spec2 launch2.win.arr_inj c _ _ w
theorem W8_of_ne (c : Dev nD) (b : Ref sig .tc) (hb : ∀ w, Pipeline.arrRef spec2 w ≠ b) :
    W8 m ρ c (Proc.devRef .tc b) = W7 m ρ c (Proc.devRef .tc b) :=
  Pipeline.withArrays_of_ne spec2 c _ _ b hb
theorem W8_in (c : Dev nD) (w : Fin cfg2.W) (hin : (cfg2.win w).isOut = false) :
    W8 m ρ c (Proc.devRef .tc (Pipeline.arrRef spec2 w)) = W7 m ρ c (Proc.devRef .tc (Pipeline.arrRef spec2 w)) :=
  (W8_arr m ρ c w).trans (((dat2 (V7 m ρ) c).arrAt_in w hin _).trans (A_eq2 (V7 m ρ) c w))
abbrev W9 : Dev nD → Valuation τ sig (Elt F) := fun c => StableHlo.after hostOps3 (W8 m ρ c)
abbrev V9 : (c : Dev nD) → (b : Ref sig .tc) → Buf (Elt F) ((c : Thread nD τ).loc b) := fun c b => W9 m ρ c b
theorem W9_of (c : Dev nD) (r : Ref sig .tc) (h : r ∉ hostOps3_W) :
    W9 m ρ c (Proc.devRef .tc r) = W8 m ρ c (Proc.devRef .tc r) :=
  StableHlo.after_of_writes_sub hostOps3 _ hostOps3_writes h
def W10 (c : Dev nD) : Valuation τ sig (Elt F) :=
  Pipeline.withArrays spec3 c (W9 m ρ c) fun w => (dat3 (V9 m ρ) c).arrAt w cfg3.N
theorem W10_arr (c : Dev nD) (w : Fin cfg3.W) :
    W10 m ρ c (Proc.devRef .tc (Pipeline.arrRef spec3 w)) = (dat3 (V9 m ρ) c).arrAt w cfg3.N :=
  Pipeline.withArrays_arr spec3 launch3.win.arr_inj c _ _ w
theorem W10_of_ne (c : Dev nD) (b : Ref sig .tc) (hb : ∀ w, Pipeline.arrRef spec3 w ≠ b) :
    W10 m ρ c (Proc.devRef .tc b) = W9 m ρ c (Proc.devRef .tc b) :=
  Pipeline.withArrays_of_ne spec3 c _ _ b hb
theorem W10_in (c : Dev nD) (w : Fin cfg3.W) (hin : (cfg3.win w).isOut = false) :
    W10 m ρ c (Proc.devRef .tc (Pipeline.arrRef spec3 w)) = W9 m ρ c (Proc.devRef .tc (Pipeline.arrRef spec3 w)) :=
  (W10_arr m ρ c w).trans (((dat3 (V9 m ρ) c).arrAt_in w hin _).trans (A_eq3 (V9 m ρ) c w))
-- Agreement at `b`, by cases on whether `b` is one of the references `r w`.
theorem kept {ι : Type} {r : ι → Ref sig .tc} {P : ι → Prop} {f g : Valuation τ sig (Elt F)} (b : Ref sig .tc)
    (hne : (∀ w, r w ≠ b) → f (Proc.devRef .tc b) = g (Proc.devRef .tc b))
    (hin : ∀ w, P w → f (Proc.devRef .tc (r w)) = g (Proc.devRef .tc (r w))) (h : ∀ w, r w = b → P w) :
    f (Proc.devRef .tc b) = g (Proc.devRef .tc b) := by
  by_cases hb : ∃ w, r w = b
  · obtain ⟨w, rfl⟩ := hb; exact hin w (h w rfl)
  · exact hne fun w e => hb ⟨w, e⟩

abbrev Kept (b : Ref sig .tc) : Prop :=
  (b ∉ hostOps0_W ∧ b ∉ hostOps0_1_W ∧ b ∉ hostOps0_2_W ∧ b ∉ hostOps1_W ∧ b ∉ hostOps2_W ∧ b ∉ hostOps3_W) ∧
  (∀ w : Fin cfg0.W, Pipeline.arrRef spec0 w = b → (cfg0.win w).isOut = false) ∧
  (∀ w : Fin cfg1.W, Pipeline.arrRef spec1 w = b → (cfg1.win w).isOut = false) ∧
  (∀ w : Fin cfg2.W, Pipeline.arrRef spec2 w = b → (cfg2.win w).isOut = false) ∧
  (∀ w : Fin cfg3.W, Pipeline.arrRef spec3 w = b → (cfg3.win w).isOut = false)

-- No segment changes a kept reference, so its final contents are the initial ones.
theorem W10_kept (c : Dev nD) (b : Ref sig .tc) (h : Kept b) : W10 m ρ c (Proc.devRef .tc b) = m ((c : Thread nD τ).loc b) :=
  (kept b (W10_of_ne m ρ c b) (W10_in m ρ c) h.2.2.2.2).trans <| (W9_of m ρ c b h.1.2.2.2.2.2).trans <|
  (kept b (W8_of_ne m ρ c b) (W8_in m ρ c) h.2.2.2.1).trans <| (W7_of m ρ c b h.1.2.2.2.2.1).trans <|
  (kept b (W6_of_ne m ρ c b) (W6_in m ρ c) h.2.2.1).trans <| (W5_of m ρ c b h.1.2.2.2.1).trans <|
  (kept b (W4_of_ne m ρ c b) (W4_in m ρ c) h.2.1).trans <| (W3_of m ρ c b h.1.2.2.1).trans <|
  (W2_of m ρ c b h.1.2.1).trans <| W1_of m ρ c b h.1.1

theorem W10_main_arg0 (c : Dev nD) : W10 m ρ c (Proc.devRef .tc main_arg0) = m ((c : Thread nD τ).loc main_arg0) :=
  W10_kept m ρ c _ (by decide)
theorem W10_main_arg1 (c : Dev nD) : W10 m ρ c (Proc.devRef .tc main_arg1) = m ((c : Thread nD τ).loc main_arg1) :=
  W10_kept m ρ c _ (by decide)
theorem W10_main_arg2 (c : Dev nD) : W10 m ρ c (Proc.devRef .tc main_arg2) = m ((c : Thread nD τ).loc main_arg2) :=
  W10_kept m ρ c _ (by decide)
theorem W10_main_arg3 (c : Dev nD) : W10 m ρ c (Proc.devRef .tc main_arg3) = m ((c : Thread nD τ).loc main_arg3) :=
  W10_kept m ρ c _ (by decide)
theorem W10_main_arg4 (c : Dev nD) : W10 m ρ c (Proc.devRef .tc main_arg4) = m ((c : Thread nD τ).loc main_arg4) :=
  W10_kept m ρ c _ (by decide)
theorem W10_main_arg5 (c : Dev nD) : W10 m ρ c (Proc.devRef .tc main_arg5) = m ((c : Thread nD τ).loc main_arg5) :=
  W10_kept m ρ c _ (by decide)
theorem W10_main_arg6 (c : Dev nD) : W10 m ρ c (Proc.devRef .tc main_arg6) = m ((c : Thread nD τ).loc main_arg6) :=
  W10_kept m ρ c _ (by decide)
theorem W10_main_arg7 (c : Dev nD) : W10 m ρ c (Proc.devRef .tc main_arg7) = m ((c : Thread nD τ).loc main_arg7) :=
  W10_kept m ρ c _ (by decide)
theorem W10_main_arg8 (c : Dev nD) : W10 m ρ c (Proc.devRef .tc main_arg8) = m ((c : Thread nD τ).loc main_arg8) :=
  W10_kept m ρ c _ (by decide)
theorem W10_main_arg9 (c : Dev nD) : W10 m ρ c (Proc.devRef .tc main_arg9) = m ((c : Thread nD τ).loc main_arg9) :=
  W10_kept m ρ c _ (by decide)
theorem W10_main_arg10 (c : Dev nD) : W10 m ρ c (Proc.devRef .tc main_arg10) = m ((c : Thread nD τ).loc main_arg10) :=
  W10_kept m ρ c _ (by decide)
theorem W10_main_arg11 (c : Dev nD) : W10 m ρ c (Proc.devRef .tc main_arg11) = m ((c : Thread nD τ).loc main_arg11) :=
  W10_kept m ρ c _ (by decide)
theorem W10_main_arg12 (c : Dev nD) : W10 m ρ c (Proc.devRef .tc main_arg12) = m ((c : Thread nD τ).loc main_arg12) :=
  W10_kept m ρ c _ (by decide)
theorem W10_main_arg13 (c : Dev nD) : W10 m ρ c (Proc.devRef .tc main_arg13) = m ((c : Thread nD τ).loc main_arg13) :=
  W10_kept m ρ c _ (by decide)
theorem W10_main_arg14 (c : Dev nD) : W10 m ρ c (Proc.devRef .tc main_arg14) = m ((c : Thread nD τ).loc main_arg14) :=
  W10_kept m ρ c _ (by decide)

def pdats : (p : Fin 4) → (c : Dev nD) → Dat τ (Elt F) Unit ℕ (UR sig nD τ) ℕ (Pipeline.pin (pcfgs (F := F)) adm p) c
  | ⟨0, _⟩ => fun c => dat0 (V3 m ρ) c
  | ⟨1, _⟩ => fun c => dat1 (V5 m ρ) c
  | ⟨2, _⟩ => fun c => dat2 (V7 m ρ) c
  | ⟨3, _⟩ => fun c => dat3 (V9 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev TS (W : Dev nD → Valuation τ sig (Elt F)) (c : Dev nD) : sProp 𝕄 :=
  iprop(StableHlo.held (c : Thread nD τ) (Pipeline.ucRefs τ sig) (W c) ∗ R c)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W10 m ρ c) ∗ ∃ r, prngReg c r)

abbrev tcRead (W : Dev nD → Valuation τ sig (Elt F)) : (c : Dev nD) → (b : Ref sig .tc) → Buf (Elt F) ((c : Thread nD τ).loc b) :=
  fun c b => W c b

set_option backward.isDefEq.respectTransparency.types false in
-- A region as a segment from contents `Wi` to `Wo`: entry splits the windows' arrays off the held buffers, exit joins them back.
def reg (p : Fin 4) (lf : Pipeline.LaunchFacts (nD := nD) (τ := τ) cfgs p) (Wi Wo : Dev nD → Valuation τ sig (Elt F))
    (hb : ∀ c, BodyObligation (pdats m ρ p c) defs₀ 𝒱₀ () Set.univ)
    (howed : ∀ c t, (pdats m ρ p c).owed t = 0) (hq : ∀ c w, (pdats m ρ p c).q w = fullShare)
    (hrec : ∀ c x, x ∈ (pdats m ρ p c).recorded 0)
    (hA : ∀ c w, (pdats m ρ p c).A w = tcRead Wi c (Pipeline.arrRef (cfgs p).spec w))
    (hF : ∀ c w, Wo c (Proc.devRef .tc (Pipeline.arrRef (cfgs p).spec w)) = (pdats m ρ p c).arrAt w (cfgs p).N)
    (hrest : ∀ c (b : Ref sig .tc), (∀ w, Pipeline.arrRef (cfgs p).spec w ≠ b) → Wo c (Proc.devRef .tc b) = Wi c (Proc.devRef .tc b))
    (hΦi : ∀ c, Pipeline.ΦA (cfgs p).spec c ⊢ (pdats m ρ p c).Φ 0)
    (hΦo : ∀ c, (pdats m ρ p c).Φ (Fin.last _) ⊢ Pipeline.ΦA (cfgs p).spec c) :
    Pipeline.RegionSeg (pcfgs (F := F)) adm (pdats m ρ) () defs₀ 𝒱₀ L lv p where
  win := lf.win.to₀
  block_pos := lf.block_pos
  stage_whole := lf.stage_whole
  K := PEmpty
  osem k := k.elim
  ho := Pipeline.OwnSemFacts.none _
  hbody c := (hb c).loose
  hwaits := Pipeline.hwaits_of_owed_zero _ _ _ _ L lv p howed
  pre := TS Wi
  post := TS Wo
  X c := iprop(∃ r, prngReg c r)
  Y c := iprop(∃ r, prngReg c r)
  Z c := Pipeline.unscopedRest (cfgs p).spec c (tcRead Wi c)
  hentry c := by
    rw [Pipeline.ownSems0_none]
    have hsplit := Pipeline.arrays_of_unscopedBufs (p := p) (pcfgs (F := F)) adm (pdats m ρ) lf.win lf.arr_whole c
      ((pdats m ρ p c).share_full (hq c)) (tcRead Wi c) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin; rw [howed c]
      icases HO with ⟨%W, HO⟩; iexists W; isplitr; · ipureintro; exact fun x _ => Or.inl (hrec c x)
      iexact HO
    isplitl [Hp]; · iexact Hp
    iexact Hrest
  hin c := by
    refine BIBase.Entails.trans ?_ (hΦi c)
    unfold Pipeline.ΦA
    iintro ⟨Hp, -, Hr⟩
    isplitl [Hr]; · iexact Hr
    iexact Hp
  hout c := by
    rw [Pipeline.ownSems0_none]
    refine BIBase.Entails.trans (hΦo c) ?_
    unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm
      lf.win lf.arr_whole c (pdats m ρ) ((pdats m ρ p c).share_full (hq c)) (tcRead Wi c) (tcRead Wo c)
      ((pdats m ρ p c).arrAt · (cfgs p).N) (fun w => (hF c w).symm)
      fun b hb => hrest c b fun w e => hb (Finset.mem_image.mpr ⟨w, Finset.mem_univ _, e⟩)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin; rw [howed c]
    icases HO with ⟨%W, -, HO⟩; iexists W; iexact HO

def reg0 := reg m ρ 0 launch0 (W3 m ρ) (W4 m ρ) (body_obligation0 (V3 m ρ)) (fun _ _ => rfl) (fun _ _ => rfl) (fun _ _ => trivial)
  (A_eq0 (V3 m ρ)) (W4_arr m ρ) (W4_of_ne m ρ) (fun _ => .rfl) fun _ => .rfl
def reg1 := reg m ρ 1 launch1 (W5 m ρ) (W6 m ρ) (body_obligation1 (V5 m ρ)) (fun _ _ => rfl) (fun _ _ => rfl) (fun _ _ => trivial)
  (A_eq1 (V5 m ρ)) (W6_arr m ρ) (W6_of_ne m ρ) (fun _ => .rfl) fun _ => .rfl
def reg2 := reg m ρ 2 launch2 (W7 m ρ) (W8 m ρ) (body_obligation2 (V7 m ρ)) (fun _ _ => rfl) (fun _ _ => rfl) (fun _ _ => trivial)
  (A_eq2 (V7 m ρ)) (W8_arr m ρ) (W8_of_ne m ρ) (fun _ => .rfl) fun _ => .rfl
def reg3 := reg m ρ 3 launch3 (W9 m ρ) (W10 m ρ) (body_obligation3 (V9 m ρ)) (fun _ _ => rfl) (fun _ _ => rfl) (fun _ _ => trivial)
  (A_eq3 (V9 m ρ)) (W10_arr m ρ) (W10_of_ne m ρ) (hin3 (V9 m ρ)) (hout3 (V9 m ρ))

abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .host (hseg hostOps1 hostOps1_sub hostOps1_fresh (W4 m ρ)),
    .region (reg1 m ρ),
    .host (hseg hostOps2 hostOps2_sub hostOps2_fresh (W6 m ρ)),
    .region (reg2 m ρ),
    .host (hseg hostOps3 hostOps3_sub hostOps3_fresh (W8 m ρ)),
    .region (reg3 m ρ) ]

set_option backward.isDefEq.respectTransparency.types false in
theorem run_all : θ_run defs (onTc (τ := τ) (main (F := F))) ⟨m, fun _ => 0, ρ⟩ (fun r => ∀ c : Dev nD,
      ∀ b ∈ Pipeline.ucRefs τ sig, r.2.mem (((c : Thread nD τ)).1, b) = W10 m ρ c b) :=
  Pipeline.θ_run_regions_kit (pcfgs (F := F)) adm (pdats m ρ) () cellOf_inj emb₁ defs₀ 𝒱₀ L lv m ρ main (segs m ρ)
    (fun c Q => by
      rewrite [main_chain c, Pipeline.Seg.run_eq_chain]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU _ : sProp 𝕄) ⊢ BI.own (emb₁ _) from .rfl)
        iexact Hu
      iapply (show (BI.emp : sProp 𝕄) ⊢ bigSep Finset.univ (fun _ : Dev nD => (BI.emp : sProp 𝕄)) from by rw [BI.bigSep_emp_const])
      iempintro)
    (T₀ := TS (W0 m ρ)) (Tₙ := Tₙ m ρ)
    (hch := ⟨fun _ => .rfl, fun _ => .rfl, fun _ => .rfl, fun _ => .rfl, fun _ => .rfl, fun _ => .rfl, fun _ => .rfl, fun _ => .rfl,
      fun _ => .rfl, fun _ => .rfl, fun _ => Laws.sep_assoc.2⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h => h)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c =>
    have k (b : Ref sig .tc) (hs : ¬ (Proc.devRef .tc b : DevRef τ sig).isScoped)
        (e : W10 m ρ c (Proc.devRef .tc b) = m ((c : Thread nD τ).loc b)) :
        r.2.mem ((c : Thread nD τ).loc b) = m ((c : Thread nD τ).loc b) := (h c _ (mem_uc b hs)).trans e
    ⟨k _ (by decide) (W10_main_arg0 m ρ c), k _ (by decide) (W10_main_arg1 m ρ c), k _ (by decide) (W10_main_arg2 m ρ c), k _ (by decide) (W10_main_arg3 m ρ c), k _ (by decide) (W10_main_arg4 m ρ c),
      k _ (by decide) (W10_main_arg5 m ρ c), k _ (by decide) (W10_main_arg6 m ρ c), k _ (by decide) (W10_main_arg7 m ρ c), k _ (by decide) (W10_main_arg8 m ρ c), k _ (by decide) (W10_main_arg9 m ρ c),
      k _ (by decide) (W10_main_arg10 m ρ c), k _ (by decide) (W10_main_arg11 m ρ c), k _ (by decide) (W10_main_arg12 m ρ c), k _ (by decide) (W10_main_arg13 m ρ c), k _ (by decide) (W10_main_arg14 m ρ c)⟩)
    (run_all m ρ)

end Cert.KernelIdeal.Hand

end
-- ==== Proof.Spec.lean ====
import Idealize.ShloMosaic.PureOps.Ideal
import Idealize.ShloMosaic.Lib.ValueIdx

noncomputable section

namespace Cert.Spec

open Idealize.ShloMosaic Idealize.ShloMosaic.ValueIdx

abbrev SN : Shape := ⟨1, ![50000]⟩
abbrev SND : Shape := ⟨2, ![50000, 128]⟩
abbrev SDD : Shape := ⟨2, ![128, 128]⟩
abbrev SD : Shape := ⟨1, ![128]⟩
abbrev S2E : Shape := ⟨2, ![2, 600000]⟩

abbrev cZero : EReal := Ideal.ofBits .f32 0x00000000#32
abbrev cOne : EReal := Ideal.ofBits .f32 0x3F800000#32
abbrev c128 : EReal := Ideal.ofBits .f32 0x43000000#32
abbrev cEps : EReal := Ideal.ofBits .f32 0x3727C5AC#32

def gatherRow (w : BitVec 32) : Fin 50000 :=
  ⟨min (if w.toInt < 0 then w + 50000#32 else w).toInt.toNat 49999, by omega⟩

def scatterRow (n : Nat) (w : BitVec 32) : Option (Fin n) :=
  if h : 0 ≤ w.toInt ∧ w.toInt < n then some ⟨w.toInt.toNat, by omega⟩ else none

def srcW (edge : S2E.Idx → BitVec 32) (e : Fin 650000) : BitVec 32 :=
  if h : e.val < 600000 then edge (ix2 0 ⟨e.val, h⟩) else BitVec.ofNat 32 (e.val - 600000)

def dstW (edge : S2E.Idx → BitVec 32) (e : Fin 650000) : BitVec 32 :=
  if h : e.val < 600000 then edge (ix2 1 ⟨e.val, h⟩) else BitVec.ofNat 32 (e.val - 600000)

def deg (edge : S2E.Idx → BitVec 32) (i : Fin 50000) : EReal :=
  cZero + ∑ e ∈ Finset.univ.filter (fun e : Fin 650000 => scatterRow 50000 (dstW edge e) = some i), cOne

def dinv (edge : S2E.Idx → BitVec 32) (i : Fin 50000) : EReal :=
  if cZero < deg edge i then Ideal.rsqrt (deg edge i) else cZero

def norm (edge : S2E.Idx → BitVec 32) (e : Fin 650000) : EReal :=
  dinv edge (gatherRow (srcW edge e)) * dinv edge (gatherRow (dstW edge e))

def normR (edge : S2E.Idx → BitVec 32) (e : Fin 600000) : EReal :=
  dinv edge (gatherRow (edge (ix2 0 e))) * dinv edge (gatherRow (edge (ix2 1 e)))

def aggK (x : SND.Idx → EReal) (edge : S2E.Idx → BitVec 32) (i : Fin 50000) (k : Fin 128) : EReal :=
  cZero + ∑ e ∈ Finset.univ.filter (fun e : Fin 600000 => scatterRow 50000 (edge (ix2 1 e)) = some i),
    x (ix2 (gatherRow (edge (ix2 0 e))) k) * normR edge e

abbrev SE : Shape := ⟨1, ![600000]⟩

def aggFrom (xb : SND.Idx → EReal) (srcw dstw : SE.Idx → BitVec 32) (nrm : SE.Idx → EReal) (i : Fin 50000) (k : Fin 128) : EReal :=
  cZero + ∑ e ∈ Finset.univ.filter (fun e : Fin 600000 => scatterRow 50000 (dstw (ix1 e)) = some i),
    xb (ix2 (gatherRow (srcw (ix1 e))) k) * nrm (ix1 e)

theorem aggK_eq_aggFrom (x : SND.Idx → EReal) (edge : S2E.Idx → BitVec 32) (i : Fin 50000) (k : Fin 128) :
    aggK x edge i k = aggFrom x (fun y => edge (ix2 0 (y 0))) (fun y => edge (ix2 1 (y 0))) (fun y => normR edge (y 0)) i k := rfl

def preKAt (x : SND.Idx → EReal) (W : SDD.Idx → EReal) (b : SD.Idx → EReal) (edge : S2E.Idx → BitVec 32) (i : Fin 50000) (j : Fin 128) : EReal :=
  (∑ k : Fin 128, (aggK x edge i k + (dinv edge i * dinv edge i) * x (ix2 i k)) * W (ix2 k j)) + b (ix1 j)

def preK (x : SND.Idx → EReal) (W : SDD.Idx → EReal) (b : SD.Idx → EReal) (edge : S2E.Idx → BitVec 32) : SND.Idx → EReal :=
  fun y => preKAt x W b edge (y 0) (y 1)

def preRAt (x : SND.Idx → EReal) (W : SDD.Idx → EReal) (b : SD.Idx → EReal) (edge : S2E.Idx → BitVec 32) (i : Fin 50000) (j : Fin 128) : EReal :=
  (cZero + ∑ e ∈ Finset.univ.filter (fun e : Fin 650000 => scatterRow 50000 (dstW edge e) = some i),
      (∑ k : Fin 128, x (ix2 (gatherRow (srcW edge e)) k) * W (ix2 k j)) * norm edge e) + b (ix1 j)

def preR (x : SND.Idx → EReal) (W : SDD.Idx → EReal) (b : SD.Idx → EReal) (edge : S2E.Idx → BitVec 32) : SND.Idx → EReal :=
  fun y => preRAt x W b edge (y 0) (y 1)

abbrev SA : Shape := ⟨1, ![650000]⟩

def preRFrom (x : SND.Idx → EReal) (W : SDD.Idx → EReal) (b : SD.Idx → EReal) (srcw dstw : SA.Idx → BitVec 32) (nrm : SA.Idx → EReal)
    (i : Fin 50000) (j : Fin 128) : EReal :=
  (cZero + ∑ e ∈ Finset.univ.filter (fun e : Fin 650000 => scatterRow 50000 (dstw (ix1 e)) = some i),
      (∑ k : Fin 128, x (ix2 (gatherRow (srcw (ix1 e))) k) * W (ix2 k j)) * nrm (ix1 e)) + b (ix1 j)

theorem preRAt_eq_preRFrom (x : SND.Idx → EReal) (W : SDD.Idx → EReal) (b : SD.Idx → EReal) (edge : S2E.Idx → BitVec 32) (i : Fin 50000) (j : Fin 128) :
    preRAt x W b edge i j = preRFrom x W b (fun y => srcW edge (y 0)) (fun y => dstW edge (y 0)) (fun y => norm edge (y 0)) i j := rfl

def rowMean (p : SND.Idx → EReal) (i : Fin 50000) : EReal := Ideal.div (∑ j : Fin 128, p (ix2 i j)) c128

def rowVar (p : SND.Idx → EReal) (i : Fin 50000) : EReal :=
  Ideal.div (∑ j : Fin 128, (p (ix2 i j) - rowMean p i) * (p (ix2 i j) - rowMean p i)) c128

def post (p x : SND.Idx → EReal) (g be : SD.Idx → EReal) : SND.Idx → EReal :=
  fun y =>
    let r := (p y - rowMean p (y 0)) * Ideal.rsqrt (rowVar p (y 0) + cEps) * g (ix1 (y 1)) + be (ix1 (y 1)) + x y
    r * Ideal.logistic r

def layerK (x : SND.Idx → EReal) (edge : S2E.Idx → BitVec 32) (W : SDD.Idx → EReal) (b g be : SD.Idx → EReal) : SND.Idx → EReal :=
  post (preK x W b edge) x g be

def layerR (x : SND.Idx → EReal) (edge : S2E.Idx → BitVec 32) (W : SDD.Idx → EReal) (b g be : SD.Idx → EReal) : SND.Idx → EReal :=
  post (preR x W b edge) x g be

def layerRFrom (x : SND.Idx → EReal) (W : SDD.Idx → EReal) (b g be : SD.Idx → EReal) (srcw dstw : SA.Idx → BitVec 32) (nrm : SA.Idx → EReal) : SND.Idx → EReal :=
  post (fun y => preRFrom x W b srcw dstw nrm (y 0) (y 1)) x g be

theorem layerR_eq_layerRFrom (x : SND.Idx → EReal) (edge : S2E.Idx → BitVec 32) (W : SDD.Idx → EReal) (b g be : SD.Idx → EReal) :
    layerR x edge W b g be = layerRFrom x W b g be (fun y => srcW edge (y 0)) (fun y => dstW edge (y 0)) (fun y => norm edge (y 0)) := rfl

def oneHot (w : BitVec 32) (gI : Fin 128) : EReal := if w = BitVec.ofNat 32 gI.val then 1 else 0

def poolKAt (x : SND.Idx → EReal) (batch : SN.Idx → BitVec 32) (gI : Fin 128) (d : Fin 128) : EReal :=
  Ideal.div (∑ n : Fin 50000, oneHot (batch (ix1 n)) gI * x (ix2 n d))
    (max (∑ n : Fin 50000, oneHot (batch (ix1 n)) gI) cOne)

def poolK (x : SND.Idx → EReal) (batch : SN.Idx → BitVec 32) : SDD.Idx → EReal :=
  fun y => poolKAt x batch (y 0) (y 1)

def poolRAt (x : SND.Idx → EReal) (batch : SN.Idx → BitVec 32) (gI : Fin 128) (d : Fin 128) : EReal :=
  Ideal.div (cZero + ∑ n ∈ Finset.univ.filter (fun n : Fin 50000 => scatterRow 128 (batch (ix1 n)) = some gI), x (ix2 n d))
    (max (cZero + ∑ n ∈ Finset.univ.filter (fun n : Fin 50000 => scatterRow 128 (batch (ix1 n)) = some gI), cOne) cOne)

def poolR (x : SND.Idx → EReal) (batch : SN.Idx → BitVec 32) : SDD.Idx → EReal :=
  fun y => poolRAt x batch (y 0) (y 1)

def kernelOut (x : SND.Idx → EReal) (edge : S2E.Idx → BitVec 32) (batch : SN.Idx → BitVec 32)
    (W0 : SDD.Idx → EReal) (b0 g0 be0 : SD.Idx → EReal) (W1 : SDD.Idx → EReal) (b1 g1 be1 : SD.Idx → EReal)
    (W2 : SDD.Idx → EReal) (b2 g2 be2 : SD.Idx → EReal) : SDD.Idx → EReal :=
  poolK (layerK (layerK (layerK x edge W0 b0 g0 be0) edge W1 b1 g1 be1) edge W2 b2 g2 be2) batch

def refOut (x : SND.Idx → EReal) (edge : S2E.Idx → BitVec 32) (batch : SN.Idx → BitVec 32)
    (W0 : SDD.Idx → EReal) (b0 g0 be0 : SD.Idx → EReal) (W1 : SDD.Idx → EReal) (b1 g1 be1 : SD.Idx → EReal)
    (W2 : SDD.Idx → EReal) (b2 g2 be2 : SD.Idx → EReal) : SDD.Idx → EReal :=
  poolR (layerR (layerR (layerR x edge W0 b0 g0 be0) edge W1 b1 g1 be1) edge W2 b2 g2 be2) batch

abbrev SN1 : Shape := ⟨2, ![50000, 1]⟩
abbrev S1D : Shape := ⟨2, ![1, 128]⟩

def fusedPre (a xr : Fin 128 → EReal) (d2 : EReal) (W : SDD.Idx → EReal) (b : Fin 128 → EReal) (j : Fin 128) : EReal :=
  (∑ k : Fin 128, (a k + d2 * xr k) * W (ix2 k j)) + b j

def fusedAt (a xr : Fin 128 → EReal) (d2 : EReal) (W : SDD.Idx → EReal) (b g be : Fin 128 → EReal) (j : Fin 128) : EReal :=
  let mu := Ideal.div (∑ j' : Fin 128, fusedPre a xr d2 W b j') c128
  let var := Ideal.div (∑ j' : Fin 128, (fusedPre a xr d2 W b j' - mu) * (fusedPre a xr d2 W b j' - mu)) c128
  let r := (fusedPre a xr d2 W b j - mu) * Ideal.rsqrt (var + cEps) * g j + be j + xr j
  r * Ideal.logistic r

def fusedArr (agg x : SND.Idx → EReal) (d2 : SN1.Idx → EReal) (W : SDD.Idx → EReal) (b g be : S1D.Idx → EReal) : SND.Idx → EReal :=
  fun y => fusedAt (fun k => agg (ix2 (y 0) k)) (fun k => x (ix2 (y 0) k)) (d2 (ix2 (y 0) 0)) W
    (fun k => b (ix2 0 k)) (fun k => g (ix2 0 k)) (fun k => be (ix2 0 k)) (y 1)

def poolArr (x : SND.Idx → EReal) (b2 : SN1.Idx → BitVec 32) : SDD.Idx → EReal :=
  fun y => Ideal.div (∑ n : Fin 50000, oneHot (b2 (ix2 n 0)) (y 0) * x (ix2 n (y 1)))
    (max (∑ n : Fin 50000, oneHot (b2 (ix2 n 0)) (y 0)) cOne)

def IsReal {s : Shape} (f : s.Idx → EReal) : Prop := ∀ i, ∃ r : ℝ, f i = (r : EReal)

end Cert.Spec

end
-- ==== Proof.KI.FusedVal0.lean ====
import proofs.«411758_j88313117540961_2_alg».proof.Proof.Gen.KernelIdeal.Skeleton
import proofs.«411758_j88313117540961_2_alg».proof.Proof.Spec
import proofs.«411758_j88313117540961_2_alg».proof.Proof.KI.Fused0
import Idealize.ShloMosaic.Lib.Decide
import Idealize.ShloMosaic.PureOps.Ideal
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.HandVal

open Idealize.ShloMosaic Idealize.SL.Sem
open Cert.KernelIdeal Cert.KernelIdeal.Gen Cert.Spec Idealize.ShloMosaic.ValueIdx

namespace Fused

theorem col_apply {α : Type} (v : S2000x1.Idx → α) (r : Fin 2000) (j : Fin 128) :
    broadcastTo S2000x128 v broadcasts_S2000x1_S2000x128 (ix2 r j) = v (ix2 r (0 : Fin 1)) := by
  refine broadcastTo_apply v broadcasts_S2000x1_S2000x128 (ix2 r j) (ix2 r (0 : Fin 1)) fun ax => ?_
  match ax with
  | ⟨0, _⟩ => rfl
  | ⟨1, _⟩ => rfl

theorem keep_apply {α : Type} (v : S2000.Idx → α) (r : Fin 2000) (u : Fin 1) :
    shapeCast S2000x1 v shapeCasts_S2000_S2000x1 (ix2 r u) = v (ix1 r) :=
  shapeCast_apply v shapeCasts_S2000_S2000x1 (ix2 r u) (ix1 r) (by
    have hu : u.val = 0 := by omega
    rw [Shape.rowMajor_val_two, Shape.rowMajor_val_one]
    show r.val = r.val * 1 + u.val
    rw [hu, Nat.mul_one, Nat.add_zero])

theorem rowsum_apply (src : FVec Ideal S2000x128 .f32) (r : Fin 2000) :
    multiReduction (F := Ideal) .add [1] S2000 src 0x00000000#32 reduces_S2000x128_S2000 (.inl rfl) rfl (ix1 r)
      = ∑ k : Fin 128, src (ix2 r k) := by
  refine (Ideal.multiReduction_add_single src 0x00000000#32 reduces_S2000x128_S2000 (.inl rfl) rfl (ix1 r)).trans ?_
  refine Finset.sum_congr rfl fun k _ => congrArg src (funext fun ax => Fin.ext ?_)
  match ax with
  | ⟨0, _⟩ => rfl
  | ⟨1, _⟩ => rfl

/-- Entry (r, j) of a block times the weight: the contraction index is its one coordinate k. -/
theorem prod_apply {φ₁ φ₂ : FTy} (lhs : FVec Ideal S2000x128 φ₁) (rhs : FVec Ideal S128x128 φ₂) (r : Fin 2000) (j : Fin 128) :
    matmul dot_S2000x128_S128x128_S2000x128_1_0_0_1_n_n none lhs rhs (constant (F := Ideal) S2000x128 .f32 0x00000000#32) (ix2 r j)
      = ∑ k : Fin 128, lhs (ix2 r k) * rhs (ix2 k j) := by
  refine (Ideal.matmul_constant_zero_apply dot_S2000x128_S128x128_S2000x128_1_0_0_1_n_n none lhs rhs (ix2 r j)).trans ?_
  rw [← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  rw [show dot_S2000x128_S128x128_S2000x128_1_0_0_1_n_n.lhsIdx (ix2 r j) ((ValueIdx.contrEquiv1 dot_S2000x128_S128x128_S2000x128_1_0_0_1_n_n 128 rfl rfl).symm k) = ix2 r k from
      Shape.idx_ext₂ rfl ((dot_S2000x128_S128x128_S2000x128_1_0_0_1_n_n.lhsIdx_val_of_single rfl _ _).trans hk),
    show dot_S2000x128_S128x128_S2000x128_1_0_0_1_n_n.rhsIdx (ix2 r j) ((ValueIdx.contrEquiv1 dot_S2000x128_S128x128_S2000x128_1_0_0_1_n_n 128 rfl rfl).symm k) = ix2 k j from
      Shape.idx_ext₂ ((dot_S2000x128_S128x128_S2000x128_1_0_0_1_n_n.rhsIdx_val_of_single rfl _ _).trans hk) rfl]

/-- (aggregate + scale * features) times the weight, plus the bias. -/
def lin (xr a : FVec Ideal S2000x128 .f32) (d2 : Vec Ideal S2000x1 .f32) (W : Vec Ideal S128x128 .f32)
    (b : Vec Ideal S1x128 .f32) : FVec Ideal S2000x128 .f32 :=
  addf
    (matmul dot_S2000x128_S128x128_S2000x128_1_0_0_1_n_n none
      (truncf .bf16 (addf (shapeCast S2000x128 a shapeCasts_S2000x128_S2000x128)
        (mulf (broadcastTo S2000x128 (shapeCast S2000x1 d2 shapeCasts_S2000x1_S2000x1) broadcasts_S2000x1_S2000x128) xr)) bitsLt_bf16_f32)
      (truncf .bf16 W bitsLt_bf16_f32)
      (constant S2000x128 .f32 0x00000000#32))
    (broadcastTo S2000x128 (shapeCast S1x128 b shapeCasts_S1x128_S1x128) broadcasts_S1x128_S2000x128)

/-- A block minus its rows' means. -/
def cen (p : FVec Ideal S2000x128 .f32) : FVec Ideal S2000x128 .f32 :=
  subf p (broadcastTo S2000x128
    (divf (shapeCast S2000x1 (multiReduction .add [1] S2000 p 0x00000000#32 reduces_S2000x128_S2000 (.inl rfl) rfl) shapeCasts_S2000_S2000x1)
      (broadcast S2000x1 (Scalar.ofBits .f32 0x43000000#32))) broadcasts_S2000x1_S2000x128)

/-- A block times the reciprocal square root of (its rows' mean squares plus epsilon). -/
def nrm (q : FVec Ideal S2000x128 .f32) : FVec Ideal S2000x128 .f32 :=
  mulf q (broadcastTo S2000x128
    (rsqrt (addf
      (divf (shapeCast S2000x1 (multiReduction .add [1] S2000 (mulf q q) 0x00000000#32 reduces_S2000x128_S2000 (.inl rfl) rfl) shapeCasts_S2000_S2000x1)
        (broadcast S2000x1 (Scalar.ofBits .f32 0x43000000#32)))
      (broadcast S2000x1 (Scalar.ofBits .f32 0x3727C5AC#32)))) broadcasts_S2000x1_S2000x128)

theorem lin_apply (xr a : Vec Ideal S2000x128 .f32) (d2 : Vec Ideal S2000x1 .f32) (W : Vec Ideal S128x128 .f32)
    (b : Vec Ideal S1x128 .f32) (r : Fin 2000) (j : Fin 128) :
    lin xr a d2 W b (ix2 r j)
      = fusedPre (fun k => a (ix2 r k)) (fun k => xr (ix2 r k)) (d2 (ix2 r (0 : Fin 1))) W (fun k => b (ix2 (0 : Fin 1) k)) j := by
  unfold lin fusedPre
  refine congrArg₂ (· + ·) ((prod_apply _ _ r j).trans (Finset.sum_congr rfl fun k _ => ?_)) ?_
  · show (shapeCast S2000x128 a shapeCasts_S2000x128_S2000x128 (ix2 r k)
        + broadcastTo S2000x128 (shapeCast S2000x1 d2 shapeCasts_S2000x1_S2000x1) broadcasts_S2000x1_S2000x128 (ix2 r k)
          * xr (ix2 r k)) * W (ix2 k j) = _
    rw [col_apply, shapeCast_self, shapeCast_self]
  · rw [broadcastTo_1b_ab_apply, shapeCast_self]

theorem cen_apply (p : FVec Ideal S2000x128 .f32) (r : Fin 2000) (j : Fin 128) :
    cen p (ix2 r j) = p (ix2 r j) - Ideal.div (∑ k : Fin 128, p (ix2 r k)) c128 :=
  congrArg (p (ix2 r j) - ·) ((col_apply _ r j).trans
    (congrArg (Ideal.div · c128) ((keep_apply _ r 0).trans (rowsum_apply p r))))

theorem nrm_apply (q : FVec Ideal S2000x128 .f32) (r : Fin 2000) (j : Fin 128) :
    nrm q (ix2 r j)
      = q (ix2 r j) * Ideal.rsqrt (Ideal.div (∑ k : Fin 128, q (ix2 r k) * q (ix2 r k)) c128 + cEps) :=
  congrArg (q (ix2 r j) * ·) ((col_apply _ r j).trans
    (congrArg (fun s => Ideal.rsqrt (Ideal.div s c128 + cEps)) ((keep_apply _ r 0).trans (rowsum_apply (mulf q q) r))))

/-- Entry (r, j) of the block the body stores is the layer's row function of row r's operands. -/
theorem pay_apply (a xr : Vec Ideal S2000x128 .f32) (d2 : Vec Ideal S2000x1 .f32) (W : Vec Ideal S128x128 .f32)
    (b g be : Vec Ideal S1x128 .f32) (r : Fin 2000) (j : Fin 128) :
    k0_pay1 (F := Ideal) xr (k0_pay3 xr a d2 W b g) (k0_pay4 be) (ix2 r j)
      = fusedAt (fun k => a (ix2 r k)) (fun k => xr (ix2 r k)) (d2 (ix2 r (0 : Fin 1))) W
          (fun k => b (ix2 (0 : Fin 1) k)) (fun k => g (ix2 (0 : Fin 1) k)) (fun k => be (ix2 (0 : Fin 1) k)) j := by
  show (fun s => s * Ideal.logistic s) (k0_pay3 (F := Ideal) xr a d2 W b g (ix2 r j) + k0_pay4 (F := Ideal) be (ix2 r j) + xr (ix2 r j)) = _
  refine congrArg (fun s => s * Ideal.logistic s) (congrArg₂ (· + ·) (congrArg₂ (· + ·) ?_ ?_) rfl)
  · show nrm (cen (lin xr a d2 W b)) (ix2 r j)
        * broadcastTo S2000x128 (shapeCast S1x128 g shapeCasts_S1x128_S1x128) broadcasts_S1x128_S2000x128 (ix2 r j) = _
    rw [nrm_apply, broadcastTo_1b_ab_apply, shapeCast_self]
    simp only [cen_apply, lin_apply]
  · show broadcastTo S2000x128 (shapeCast S1x128 be shapeCasts_S1x128_S1x128) broadcasts_S1x128_S2000x128 (ix2 r j) = _
    rw [broadcastTo_1b_ab_apply, shapeCast_self]

/-- The later layers' body casts the features to their own shape first: the same block. -/
theorem pay1_eq (a xr : Vec Ideal S2000x128 .f32) (d2 : Vec Ideal S2000x1 .f32) (W : Vec Ideal S128x128 .f32)
    (b g be : Vec Ideal S1x128 .f32) :
    k1_pay1 (F := Ideal) (k1_pay3 xr) (k1_pay4 xr a d2 W b g) (k1_pay5 be) = k0_pay1 xr (k0_pay3 xr a d2 W b g) (k0_pay4 be) := by
  show k0_pay1 (F := Ideal) (k1_pay3 xr) (k0_pay3 (k1_pay3 xr) a d2 W b g) (k0_pay4 be) = _
  rw [show k1_pay3 (F := Ideal) xr = xr from shapeCast_self _ _]

/-- Row p of the block of 2000 rows at point t is row 2000 t + p; row x lies in block x / 2000. -/
def rowOf (t : Fin 25) (p : Fin 2000) : Fin 50000 := ⟨2000 * t.val + p.val, by omega⟩
def blkOf (x : Fin 50000) : Fin 25 := ⟨x.val / 2000, by omega⟩

theorem at_row {a : ℕ} {t : Fin 25} {p : Fin 2000} (h : a = t.val) : a * 2000 + 1 * p.val = (rowOf t p).val := by
  subst h; show _ = 2000 * t.val + p.val; omega
theorem at_zero {a n y : ℕ} (h : a = 0) : a * n + 1 * y = y := by subst h; omega
theorem in_row {a : ℕ} (x : Fin 50000) (h : a = (blkOf x).val) : a * 2000 ≤ x.val ∧ x.val < a * 2000 + 2000 := by
  subst h; show x.val / 2000 * 2000 ≤ _ ∧ _ < x.val / 2000 * 2000 + 2000; omega
theorem in_col {a : ℕ} (x : Fin 128) (h : a = 0) : a * 128 ≤ x.val ∧ x.val < a * 128 + 128 := by subst h; omega

theorem hz : (![0, 0] : Fin 2 → Nat) = fun _ => 0 := funext fun a => by fin_cases a <;> rfl

/-- Row p of the stored block is row i of the layer's array, where the row blocks' row p is the arrays' row i. -/
theorem blk_fused (A X : SND.Idx → EReal) (D : SN1.Idx → EReal) (Wt : SDD.Idx → EReal) (B G E : S1D.Idx → EReal)
    (x0 x1 : Vec Ideal S2000x128 .f32) (x2 : Vec Ideal S2000x1 .f32) (x3 : Vec Ideal S128x128 .f32)
    (x4 x5 x6 : Vec Ideal S1x128 .f32) (i : Fin 50000) (p : Fin 2000) (q : Fin 128)
    (h0 : ∀ k : Fin 128, x0 (ix2 p k) = A (ix2 i k)) (h1 : ∀ k : Fin 128, x1 (ix2 p k) = X (ix2 i k))
    (h2 : x2 (ix2 p (0 : Fin 1)) = D (ix2 i (0 : Fin 1))) (h3 : x3 = Wt) (h4 : x4 = B) (h5 : x5 = G) (h6 : x6 = E) :
    k0_pay1 (F := Ideal) x1 (k0_pay3 x1 x0 x2 x3 x4 x5) (k0_pay4 x6) (ix2 p q) = fusedArr A X D Wt B G E (ix2 i q) := by
  subst h3 h4 h5 h6
  rw [pay_apply]
  unfold fusedArr
  simp only [h0, h1, h2]

/-- A block whose row p is row 2000 t + p of an array is that array read through a placement of (p, q) at (2000 t + p, q). -/
theorem blk_eq_read {X : S2000x128.Idx → EReal} {G : S50000x128.Idx → EReal} {t : Fin 25} {emb : S2000x128.Idx → S50000x128.Idx}
    {a0 a1 : ℕ} (hX : ∀ p q, X (ix2 p q) = G (ix2 (rowOf t p) q))
    (he0 : ∀ y, ((emb y) 0 : ℕ) = a0 * 2000 + 1 * (y 0).val) (he1 : ∀ y, ((emb y) 1 : ℕ) = a1 * 128 + 1 * (y 1).val)
    (e0 : a0 = t.val) (e1 : a1 = 0) : X = fun y => G (emb y) := by
  funext y
  obtain ⟨p, q, rfl⟩ : ∃ (p : Fin 2000) (q : Fin 128), y = ix2 p q := ⟨y 0, y 1, eq_ix2 y⟩
  rw [show emb (ix2 p q) = ix2 (rowOf t p) q from Shape.idx_ext₂ ((he0 _).trans (at_row e0)) ((he1 _).trans (at_zero e1))]
  exact hX p q

end Fused

open Fused

section Region0

open Cert.KernelIdeal.Hand
open Idealize.ShloMosaic.Pipeline (Dat)
open Idealize.ShloMosaic.TcCoe

variable (V : (c : Dev nD) → (b : Ref sig .tc) → Buf (Elt Ideal) ((c : Thread nD τ).loc b))

theorem f0_idx : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0
    ∧ win0_8.index t (0 : Fin 2) = t.val ∧ win0_8.index t (1 : Fin 2) = 0 :=
  (by decide +kernel : ∀ t : Fin grid0.N, _)

theorem f0_out_eq (x0 x1 : Vec Ideal S2000x128 .f32) (x2 : Vec Ideal S2000x1 .f32) (x3 : Vec Ideal S128x128 .f32)
    (x4 x5 x6 : Vec Ideal S1x128 .f32) :
    out0_7 x0 x1 x2 x3 x4 x5 x6 = k0_pay1 x1 (k0_pay3 x1 x0 x2 x3 x4 x5) (k0_pay4 x6)
    ∧ out0_8 x0 x1 x2 x3 x4 x5 x6 = k0_pay1 x1 (k0_pay3 x1 x0 x2 x3 x4 x5) (k0_pay4 x6) := by
  unfold out0_7 out0_8
  rw [View.canon_unit_zero hz, View.canon_unit_zero hz]
  simp only [mid0_v0, mid0_v35, mid0_v38, r0_0, r0_1, r0_2, r0_3, View.ld_unit_zero (S := S2000x128) hz, View.ld_unit_zero (S := S2000x1) hz,
    View.ld_unit_zero (S := S128x128) hz, View.ld_unit_zero (S := S1x128) hz]
  exact ⟨trivial, rfl⟩

/-- Row p of what point t stores is row 2000 t + p of the layer's array of the seven operand arrays. -/
theorem f0_row (c : Dev nD) (t : Fin cfg0.N) (p : Fin 2000) (q : Fin 128) :
    k0_pay1 (F := Ideal) (iblk0 V c 1 t) (k0_pay3 (iblk0 V c 1 t) (iblk0 V c 0 t) (iblk0 V c 2 t) (iblk0 V c 3 t) (iblk0 V c 4 t) (iblk0 V c 5 t))
        (k0_pay4 (iblk0 V c 6 t)) (ix2 p q)
      = fusedArr (V c main_v46) (V c main_arg0) (V c main_v31) (V c main_arg3) (V c main_v47) (V c main_v48) (V c main_v49)
          (ix2 (rowOf t p) q) := by
  obtain ⟨e00, e01, e10, e11, e20, e21, e30, e31, e40, e41, e50, e51, e60, e61, -⟩ := f0_idx t
  exact blk_fused _ _ _ _ _ _ _ _ _ _ _ _ _ _ _ p q
    (fun k => congrArg (V c main_v46) (Shape.idx_ext₂ (at_row e00) (at_zero e01)))
    (fun k => congrArg (V c main_arg0) (Shape.idx_ext₂ (at_row e10) (at_zero e11)))
    (congrArg (V c main_v31) (Shape.idx_ext₂ (at_row e20) (at_zero e21)))
    (funext fun z => congrArg (V c main_arg3) (Shape.idx_ext₂ (at_zero e30) (at_zero e31)))
    (funext fun z => congrArg (V c main_v47) (Shape.idx_ext₂ (at_zero e40) (at_zero e41)))
    (funext fun z => congrArg (V c main_v48) (Shape.idx_ext₂ (at_zero e50) (at_zero e51)))
    (funext fun z => congrArg (V c main_v49) (Shape.idx_ext₂ (at_zero e60) (at_zero e61)))

theorem fused0_arr7 (c : Dev nD) :
    (dat0 V c).arrAt 7 cfg0.N
      = fusedArr (V c main_v46) (V c main_arg0) (V c main_v31) (V c main_arg3) (V c main_v47) (V c main_v48) (V c main_v49) :=
  (dat0 V c).arrAt_eq_of_cover 7 _ (fun t _ => by
    obtain ⟨-, -, -, -, -, -, -, -, -, -, -, -, -, -, e0, e1, -⟩ := f0_idx t
    show (cfg0.win 7).cut (grid0.coords t) ((dat0 V c).after 7 t) = _
    rw [after0_7, (f0_out_eq _ _ _ _ _ _ _).1]
    exact blk_eq_read (emb := ((cfg0.win 7).blk t).view.emb) (f0_row V c t) (fun _ => rfl) (fun _ => rfl) e0 e1) fun i => by
  obtain ⟨-, -, -, -, -, -, -, -, -, -, -, -, -, -, e0, e1, -⟩ := f0_idx (blkOf (i 0))
  refine ⟨blkOf (i 0), flush0_7 _, ?_⟩
  show i ∈ ((View.whole main_v50_0).slice (win0_7.rect (blkOf (i 0)))).set
  rw [View.set_slice_whole, Rect.mem_set_unit]
  exact Fin.forall_fin_two.2 ⟨in_row _ e0, in_col _ e1⟩

theorem fused0_arr8 (c : Dev nD) :
    (dat0 V c).arrAt 8 cfg0.N
      = fusedArr (V c main_v46) (V c main_arg0) (V c main_v31) (V c main_arg3) (V c main_v47) (V c main_v48) (V c main_v49) :=
  (dat0 V c).arrAt_eq_of_cover 8 _ (fun t _ => by
    obtain ⟨-, -, -, -, -, -, -, -, -, -, -, -, -, -, -, -, e0, e1⟩ := f0_idx t
    show (cfg0.win 8).cut (grid0.coords t) ((dat0 V c).after 8 t) = _
    rw [after0_8, (f0_out_eq _ _ _ _ _ _ _).2]
    exact blk_eq_read (emb := ((cfg0.win 8).blk t).view.emb) (f0_row V c t) (fun _ => rfl) (fun _ => rfl) e0 e1) fun i => by
  obtain ⟨-, -, -, -, -, -, -, -, -, -, -, -, -, -, -, -, e0, e1⟩ := f0_idx (blkOf (i 0))
  refine ⟨blkOf (i 0), flush0_8 _, ?_⟩
  show i ∈ ((View.whole main_v50_1).slice (win0_8.rect (blkOf (i 0)))).set
  rw [View.set_slice_whole, Rect.mem_set_unit]
  exact Fin.forall_fin_two.2 ⟨in_row _ e0, in_col _ e1⟩

end Region0

end Cert.KernelIdeal.HandVal

end
-- ==== Proof.KI.FusedVal1.lean ====
import proofs.«411758_j88313117540961_2_alg».proof.Proof.KI.FusedVal0
import proofs.«411758_j88313117540961_2_alg».proof.Proof.KI.Fused1

noncomputable section

namespace Cert.KernelIdeal.HandVal

open Idealize.ShloMosaic Idealize.SL.Sem
open Cert.KernelIdeal Cert.KernelIdeal.Gen Cert.Spec Idealize.ShloMosaic.ValueIdx
open Fused

section Region1

open Cert.KernelIdeal.Hand
open Idealize.ShloMosaic.Pipeline (Dat)
open Idealize.ShloMosaic.TcCoe

variable (V : (c : Dev nD) → (b : Ref sig .tc) → Buf (Elt Ideal) ((c : Thread nD τ).loc b))

theorem f1_idx : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0
    ∧ win1_8.index t (0 : Fin 2) = t.val ∧ win1_8.index t (1 : Fin 2) = 0 :=
  (by decide +kernel : ∀ t : Fin grid1.N, _)

theorem f1_out_eq (x0 x1 : Vec Ideal S2000x128 .f32) (x2 : Vec Ideal S2000x1 .f32) (x3 : Vec Ideal S128x128 .f32)
    (x4 x5 x6 : Vec Ideal S1x128 .f32) :
    out1_7 x0 x1 x2 x3 x4 x5 x6 = k0_pay1 x1 (k0_pay3 x1 x0 x2 x3 x4 x5) (k0_pay4 x6)
    ∧ out1_8 x0 x1 x2 x3 x4 x5 x6 = k0_pay1 x1 (k0_pay3 x1 x0 x2 x3 x4 x5) (k0_pay4 x6) := by
  unfold out1_7 out1_8
  rw [View.canon_unit_zero hz, View.canon_unit_zero hz]
  simp only [mid1_a, mid1_b, mid1_c, r1_0, r1_1, r1_2, r1_3, View.ld_unit_zero (S := S2000x128) hz, View.ld_unit_zero (S := S2000x1) hz,
    View.ld_unit_zero (S := S128x128) hz, View.ld_unit_zero (S := S1x128) hz]
  exact ⟨pay1_eq x0 x1 x2 x3 x4 x5 x6, pay1_eq x0 x1 x2 x3 x4 x5 x6⟩

/-- Row p of what point t stores is row 2000 t + p of the layer's array of the seven operand arrays. -/
theorem f1_row (c : Dev nD) (t : Fin cfg1.N) (p : Fin 2000) (q : Fin 128) :
    k0_pay1 (F := Ideal) (iblk1 V c 1 t) (k0_pay3 (iblk1 V c 1 t) (iblk1 V c 0 t) (iblk1 V c 2 t) (iblk1 V c 3 t) (iblk1 V c 4 t) (iblk1 V c 5 t))
        (k0_pay4 (iblk1 V c 6 t)) (ix2 p q)
      = fusedArr (V c main_v64) (V c main_v50_0) (V c main_v31) (V c main_arg7) (V c main_v65) (V c main_v66) (V c main_v67)
          (ix2 (rowOf t p) q) := by
  obtain ⟨e00, e01, e10, e11, e20, e21, e30, e31, e40, e41, e50, e51, e60, e61, -⟩ := f1_idx t
  exact blk_fused _ _ _ _ _ _ _ _ _ _ _ _ _ _ _ p q
    (fun k => congrArg (V c main_v64) (Shape.idx_ext₂ (at_row e00) (at_zero e01)))
    (fun k => congrArg (V c main_v50_0) (Shape.idx_ext₂ (at_row e10) (at_zero e11)))
    (congrArg (V c main_v31) (Shape.idx_ext₂ (at_row e20) (at_zero e21)))
    (funext fun z => congrArg (V c main_arg7) (Shape.idx_ext₂ (at_zero e30) (at_zero e31)))
    (funext fun z => congrArg (V c main_v65) (Shape.idx_ext₂ (at_zero e40) (at_zero e41)))
    (funext fun z => congrArg (V c main_v66) (Shape.idx_ext₂ (at_zero e50) (at_zero e51)))
    (funext fun z => congrArg (V c main_v67) (Shape.idx_ext₂ (at_zero e60) (at_zero e61)))

theorem fused1_arr7 (c : Dev nD) :
    (dat1 V c).arrAt 7 cfg1.N
      = fusedArr (V c main_v64) (V c main_v50_0) (V c main_v31) (V c main_arg7) (V c main_v65) (V c main_v66) (V c main_v67) :=
  (dat1 V c).arrAt_eq_of_cover 7 _ (fun t _ => by
    obtain ⟨-, -, -, -, -, -, -, -, -, -, -, -, -, -, e0, e1, -⟩ := f1_idx t
    show (cfg1.win 7).cut (grid1.coords t) ((dat1 V c).after 7 t) = _
    rw [after1_7, (f1_out_eq _ _ _ _ _ _ _).1]
    exact blk_eq_read (emb := ((cfg1.win 7).blk t).view.emb) (f1_row V c t) (fun _ => rfl) (fun _ => rfl) e0 e1) fun i => by
  obtain ⟨-, -, -, -, -, -, -, -, -, -, -, -, -, -, e0, e1, -⟩ := f1_idx (blkOf (i 0))
  refine ⟨blkOf (i 0), flush1_7 _, ?_⟩
  show i ∈ ((View.whole main_v68_0).slice (win1_7.rect (blkOf (i 0)))).set
  rw [View.set_slice_whole, Rect.mem_set_unit]
  exact Fin.forall_fin_two.2 ⟨in_row _ e0, in_col _ e1⟩

theorem fused1_arr8 (c : Dev nD) :
    (dat1 V c).arrAt 8 cfg1.N
      = fusedArr (V c main_v64) (V c main_v50_0) (V c main_v31) (V c main_arg7) (V c main_v65) (V c main_v66) (V c main_v67) :=
  (dat1 V c).arrAt_eq_of_cover 8 _ (fun t _ => by
    obtain ⟨-, -, -, -, -, -, -, -, -, -, -, -, -, -, -, -, e0, e1⟩ := f1_idx t
    show (cfg1.win 8).cut (grid1.coords t) ((dat1 V c).after 8 t) = _
    rw [after1_8, (f1_out_eq _ _ _ _ _ _ _).2]
    exact blk_eq_read (emb := ((cfg1.win 8).blk t).view.emb) (f1_row V c t) (fun _ => rfl) (fun _ => rfl) e0 e1) fun i => by
  obtain ⟨-, -, -, -, -, -, -, -, -, -, -, -, -, -, -, -, e0, e1⟩ := f1_idx (blkOf (i 0))
  refine ⟨blkOf (i 0), flush1_8 _, ?_⟩
  show i ∈ ((View.whole main_v68_1).slice (win1_8.rect (blkOf (i 0)))).set
  rw [View.set_slice_whole, Rect.mem_set_unit]
  exact Fin.forall_fin_two.2 ⟨in_row _ e0, in_col _ e1⟩

end Region1

end Cert.KernelIdeal.HandVal

end
-- ==== Proof.KI.FusedVal2.lean ====
import proofs.«411758_j88313117540961_2_alg».proof.Proof.KI.FusedVal0
import proofs.«411758_j88313117540961_2_alg».proof.Proof.KI.Fused2

noncomputable section

namespace Cert.KernelIdeal.HandVal

open Idealize.ShloMosaic Idealize.SL.Sem
open Cert.KernelIdeal Cert.KernelIdeal.Gen Cert.Spec Idealize.ShloMosaic.ValueIdx
open Fused

section Region2

open Cert.KernelIdeal.Hand
open Idealize.ShloMosaic.Pipeline (Dat)
open Idealize.ShloMosaic.TcCoe

variable (V : (c : Dev nD) → (b : Ref sig .tc) → Buf (Elt Ideal) ((c : Thread nD τ).loc b))

theorem f2_idx : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = t.val ∧ win2_7.index t (1 : Fin 2) = 0
    ∧ win2_8.index t (0 : Fin 2) = t.val ∧ win2_8.index t (1 : Fin 2) = 0 :=
  (by decide +kernel : ∀ t : Fin grid2.N, _)

theorem f2_out_eq (x0 x1 : Vec Ideal S2000x128 .f32) (x2 : Vec Ideal S2000x1 .f32) (x3 : Vec Ideal S128x128 .f32)
    (x4 x5 x6 : Vec Ideal S1x128 .f32) :
    out2_7 x0 x1 x2 x3 x4 x5 x6 = k0_pay1 x1 (k0_pay3 x1 x0 x2 x3 x4 x5) (k0_pay4 x6)
    ∧ out2_8 x0 x1 x2 x3 x4 x5 x6 = k0_pay1 x1 (k0_pay3 x1 x0 x2 x3 x4 x5) (k0_pay4 x6) := by
  unfold out2_7 out2_8
  rw [View.canon_unit_zero hz, View.canon_unit_zero hz]
  simp only [mid2_a, mid2_b, mid2_c, r2_0, r2_1, r2_2, r2_3, View.ld_unit_zero (S := S2000x128) hz, View.ld_unit_zero (S := S2000x1) hz,
    View.ld_unit_zero (S := S128x128) hz, View.ld_unit_zero (S := S1x128) hz]
  exact ⟨pay1_eq x0 x1 x2 x3 x4 x5 x6, pay1_eq x0 x1 x2 x3 x4 x5 x6⟩

/-- Row p of what point t stores is row 2000 t + p of the layer's array of the seven operand arrays. -/
theorem f2_row (c : Dev nD) (t : Fin cfg2.N) (p : Fin 2000) (q : Fin 128) :
    k0_pay1 (F := Ideal) (iblk2 V c 1 t) (k0_pay3 (iblk2 V c 1 t) (iblk2 V c 0 t) (iblk2 V c 2 t) (iblk2 V c 3 t) (iblk2 V c 4 t) (iblk2 V c 5 t))
        (k0_pay4 (iblk2 V c 6 t)) (ix2 p q)
      = fusedArr (V c main_v82) (V c main_v68_0) (V c main_v31) (V c main_arg11) (V c main_v83) (V c main_v84) (V c main_v85)
          (ix2 (rowOf t p) q) := by
  obtain ⟨e00, e01, e10, e11, e20, e21, e30, e31, e40, e41, e50, e51, e60, e61, -⟩ := f2_idx t
  exact blk_fused _ _ _ _ _ _ _ _ _ _ _ _ _ _ _ p q
    (fun k => congrArg (V c main_v82) (Shape.idx_ext₂ (at_row e00) (at_zero e01)))
    (fun k => congrArg (V c main_v68_0) (Shape.idx_ext₂ (at_row e10) (at_zero e11)))
    (congrArg (V c main_v31) (Shape.idx_ext₂ (at_row e20) (at_zero e21)))
    (funext fun z => congrArg (V c main_arg11) (Shape.idx_ext₂ (at_zero e30) (at_zero e31)))
    (funext fun z => congrArg (V c main_v83) (Shape.idx_ext₂ (at_zero e40) (at_zero e41)))
    (funext fun z => congrArg (V c main_v84) (Shape.idx_ext₂ (at_zero e50) (at_zero e51)))
    (funext fun z => congrArg (V c main_v85) (Shape.idx_ext₂ (at_zero e60) (at_zero e61)))

theorem fused2_arr7 (c : Dev nD) :
    (dat2 V c).arrAt 7 cfg2.N
      = fusedArr (V c main_v82) (V c main_v68_0) (V c main_v31) (V c main_arg11) (V c main_v83) (V c main_v84) (V c main_v85) :=
  (dat2 V c).arrAt_eq_of_cover 7 _ (fun t _ => by
    obtain ⟨-, -, -, -, -, -, -, -, -, -, -, -, -, -, e0, e1, -⟩ := f2_idx t
    show (cfg2.win 7).cut (grid2.coords t) ((dat2 V c).after 7 t) = _
    rw [after2_7, (f2_out_eq _ _ _ _ _ _ _).1]
    exact blk_eq_read (emb := ((cfg2.win 7).blk t).view.emb) (f2_row V c t) (fun _ => rfl) (fun _ => rfl) e0 e1) fun i => by
  obtain ⟨-, -, -, -, -, -, -, -, -, -, -, -, -, -, e0, e1, -⟩ := f2_idx (blkOf (i 0))
  refine ⟨blkOf (i 0), flush2_7 _, ?_⟩
  show i ∈ ((View.whole main_v86_0).slice (win2_7.rect (blkOf (i 0)))).set
  rw [View.set_slice_whole, Rect.mem_set_unit]
  exact Fin.forall_fin_two.2 ⟨in_row _ e0, in_col _ e1⟩

theorem fused2_arr8 (c : Dev nD) :
    (dat2 V c).arrAt 8 cfg2.N
      = fusedArr (V c main_v82) (V c main_v68_0) (V c main_v31) (V c main_arg11) (V c main_v83) (V c main_v84) (V c main_v85) :=
  (dat2 V c).arrAt_eq_of_cover 8 _ (fun t _ => by
    obtain ⟨-, -, -, -, -, -, -, -, -, -, -, -, -, -, -, -, e0, e1⟩ := f2_idx t
    show (cfg2.win 8).cut (grid2.coords t) ((dat2 V c).after 8 t) = _
    rw [after2_8, (f2_out_eq _ _ _ _ _ _ _).2]
    exact blk_eq_read (emb := ((cfg2.win 8).blk t).view.emb) (f2_row V c t) (fun _ => rfl) (fun _ => rfl) e0 e1) fun i => by
  obtain ⟨-, -, -, -, -, -, -, -, -, -, -, -, -, -, -, -, e0, e1⟩ := f2_idx (blkOf (i 0))
  refine ⟨blkOf (i 0), flush2_8 _, ?_⟩
  show i ∈ ((View.whole main_v86_1).slice (win2_8.rect (blkOf (i 0)))).set
  rw [View.set_slice_whole, Rect.mem_set_unit]
  exact Fin.forall_fin_two.2 ⟨in_row _ e0, in_col _ e1⟩

end Region2

end Cert.KernelIdeal.HandVal

end
-- ==== Proof.KI.PoolVal.lean ====
import proofs.«411758_j88313117540961_2_alg».proof.Proof.Gen.KernelIdeal.Skeleton
import proofs.«411758_j88313117540961_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.HandVal

open Idealize.ShloMosaic Idealize.SL.Sem
open Cert.KernelIdeal Cert.KernelIdeal.Gen Cert.Spec Idealize.ShloMosaic.ValueIdx

theorem oneHot_word (a : BitVec 32) (gI : Fin 128) :
    (FloatOps.sitofp (F := Ideal) .f32 ((IntOp.cmpi .eq a (BitVec.ofNat 32 gI.val)).setWidth 32) : EReal)
      = Cert.Spec.oneHot a gI := by
  unfold Cert.Spec.oneHot
  show ((((IntOp.cmpi .eq a (BitVec.ofNat 32 gI.val)).setWidth 32).toInt : ℝ) : EReal) = _
  by_cases h : a = BitVec.ofNat 32 gI.val
  · have e : IntOp.cmpi .eq a (BitVec.ofNat 32 gI.val) = 1#1 := by simp [IntOp.cmpi, h]
    have e1 : ((1#1 : BitVec 1).setWidth 32).toInt = 1 := by decide
    rw [if_pos h, e, e1]; simp
  · have e : IntOp.cmpi .eq a (BitVec.ofNat 32 gI.val) = 0#1 := by
      show BitVec.ofBool (a == BitVec.ofNat 32 gI.val) = 0#1
      rw [beq_eq_false_iff_ne.mpr h]; rfl
    have e0 : ((0#1 : BitVec 1).setWidth 32).toInt = 0 := by decide
    rw [if_neg h, e, e0]; simp

theorem oneHot_apply (w : Vec Ideal S2000x1 .i32) (r : Fin 2000) (gI : Fin 128) :
    k3_pay3 (F := Ideal) w (ix2 r gI) = Cert.Spec.oneHot (w (ix2 r (0 : Fin 1))) gI := by
  unfold k3_pay3
  simp only [shapeCast_self]
  refine Eq.trans ?_ (oneHot_word (w (ix2 r (0 : Fin 1))) gI)
  show FloatOps.sitofp (F := Ideal) .f32 ((IntOp.cmpi .eq
      (broadcastTo S2000x128 w broadcasts_S2000x1_S2000x128 (ix2 r gI))
      (iota .tc S2000x128 32 [1] iota_S2000x128_d1_w32 (ix2 r gI))).setWidth 32) = _
  have eb : broadcastTo S2000x128 w broadcasts_S2000x1_S2000x128 (ix2 r gI) = w (ix2 r (0 : Fin 1)) :=
    broadcastTo_apply w broadcasts_S2000x1_S2000x128 (ix2 r gI) (ix2 r (0 : Fin 1)) fun a => match a with
      | ⟨0, _⟩ => by show r.val = if (2000 : Nat) = 1 then 0 else r.val; rw [if_neg (by decide)]
      | ⟨1, _⟩ => rfl
  have ei : iota .tc S2000x128 32 [1] iota_S2000x128_d1_w32 (ix2 r gI) = BitVec.ofNat 32 gI.val :=
    iota_single_apply .tc S2000x128 32 1 iota_S2000x128_d1_w32 (ix2 r gI)
  rw [eb, ei]

theorem dotL_1 (i : S128x128.Idx) (q : dot_S2000x128_S2000x128_S128x128_0_0_1_1_n_n.contr.Idx) :
    (dot_S2000x128_S2000x128_S128x128_0_0_1_1_n_n.lhsIdx i q 1).val = (i 0).val := by
  unfold DotDims.lhsIdx
  rw [dif_neg (show ¬(1 : Fin S2000x128.rank) ∈ dot_S2000x128_S2000x128_S128x128_0_0_1_1_n_n.lhsBatch by decide), dif_pos (show (1 : Fin S2000x128.rank) ∈ dot_S2000x128_S2000x128_S128x128_0_0_1_1_n_n.lhsNonContracting by decide)]
  rfl
theorem dotR_1 (i : S128x128.Idx) (q : dot_S2000x128_S2000x128_S128x128_0_0_1_1_n_n.contr.Idx) :
    (dot_S2000x128_S2000x128_S128x128_0_0_1_1_n_n.rhsIdx i q 1).val = (i 1).val := by
  unfold DotDims.rhsIdx
  rw [dif_neg (show ¬(1 : Fin S2000x128.rank) ∈ dot_S2000x128_S2000x128_S128x128_0_0_1_1_n_n.rhsBatch by decide), dif_pos (show (1 : Fin S2000x128.rank) ∈ dot_S2000x128_S2000x128_S128x128_0_0_1_1_n_n.rhsNonContracting by decide)]
  rfl

theorem dot_apply (a b : FVec Ideal S2000x128 .bf16) (gI d : Fin 128) :
    FloatOps.matmul dot_S2000x128_S2000x128_S128x128_0_0_1_1_n_n none a b (constant (F := Ideal) S128x128 .f32 0x00000000#32) (ix2 gI d)
      = ∑ r : Fin 2000, a (ix2 r gI) * b (ix2 r d) := by
  rw [Ideal.matmul_constant_zero_apply, ← Equiv.sum_comp (ValueIdx.contrEquiv1 dot_S2000x128_S2000x128_S128x128_0_0_1_1_n_n 2000 rfl rfl).symm]
  refine Finset.sum_congr rfl fun k _ => ?_
  have hk := ValueIdx.contrEquiv1_symm_val dot_S2000x128_S2000x128_S128x128_0_0_1_1_n_n 2000 rfl rfl k
  have el : dot_S2000x128_S2000x128_S128x128_0_0_1_1_n_n.lhsIdx (ix2 gI d) ((ValueIdx.contrEquiv1 dot_S2000x128_S2000x128_S128x128_0_0_1_1_n_n 2000 rfl rfl).symm k) = ix2 k gI := funext fun ax => Fin.ext (by
    match ax with
    | ⟨0, _⟩ => exact (dot_S2000x128_S2000x128_S128x128_0_0_1_1_n_n.lhsIdx_val_of_single rfl _ _).trans hk
    | ⟨1, _⟩ => exact dotL_1 _ _)
  have er : dot_S2000x128_S2000x128_S128x128_0_0_1_1_n_n.rhsIdx (ix2 gI d) ((ValueIdx.contrEquiv1 dot_S2000x128_S2000x128_S128x128_0_0_1_1_n_n 2000 rfl rfl).symm k) = ix2 k d := funext fun ax => Fin.ext (by
    match ax with
    | ⟨0, _⟩ => exact (dot_S2000x128_S2000x128_S128x128_0_0_1_1_n_n.rhsIdx_val_of_single rfl _ _).trans hk
    | ⟨1, _⟩ => exact dotR_1 _ _)
  rw [el, er]

theorem sums_apply (w : Vec Ideal S2000x1 .i32) (x : Vec Ideal S2000x128 .f32) (s : Vec Ideal S128x128 .f32)
    (gI d : Fin 128) :
    k3_pay4 (F := Ideal) w x s (ix2 gI d)
      = s (ix2 gI d) + ∑ r : Fin 2000, Cert.Spec.oneHot (w (ix2 r (0 : Fin 1))) gI * x (ix2 r d) := by
  unfold k3_pay4
  simp only [shapeCast_self]
  refine (addf_apply _ _ _).trans ?_
  refine congrArg (s (ix2 gI d) + ·) ?_
  refine (dot_apply _ _ gI d).trans ?_
  refine Finset.sum_congr rfl fun r _ => ?_
  show k3_pay3 (F := Ideal) w (ix2 r gI) * x (ix2 r d) = _
  rw [oneHot_apply]

theorem counts_apply (w : Vec Ideal S2000x1 .i32) (cnt : Vec Ideal S1x128 .f32) (gI : Fin 128) :
    k3_pay5 (F := Ideal) w cnt (ix2 (0 : Fin 1) gI)
      = cnt (ix2 (0 : Fin 1) gI) + ∑ r : Fin 2000, Cert.Spec.oneHot (w (ix2 r (0 : Fin 1))) gI := by
  unfold k3_pay5
  simp only [shapeCast_self]
  refine (addf_apply _ _ _).trans ?_
  refine congrArg (cnt (ix2 (0 : Fin 1) gI) + ·) ?_
  refine (shapeCast_a_1a_apply _ shapeCasts_S128_S1x128 (0 : Fin 1) gI).trans ?_
  refine (Ideal.multiReduction_add_single (k3_pay3 (F := Ideal) w) 0x00000000#32 reduces_S2000x128_S128 (.inl rfl) rfl (ix1 gI)).trans ?_
  show ∑ r : Fin 2000, k3_pay3 (F := Ideal) w (reduces_S2000x128_S128.lift (ix1 gI) r) = _
  refine Finset.sum_congr rfl fun r _ => ?_
  have e : reduces_S2000x128_S128.lift (ix1 gI) r = ix2 r gI := funext fun ax => Fin.ext (by
    match ax with
    | ⟨0, _⟩ => rfl
    | ⟨1, _⟩ => rfl)
  rw [e, oneHot_apply]

theorem zeroSums_apply (i : S128x128.Idx) : k3_pay1 (F := Ideal) i = 0 := by
  unfold k3_pay1
  simp only [shapeCast_self]
  show Ideal.ofBits .f32 0x00000000#32 = 0
  exact Ideal.ofBits_zero_f32

theorem zeroCounts_apply (i : S1x128.Idx) : k3_pay2 (F := Ideal) i = 0 := by
  unfold k3_pay2
  simp only [shapeCast_self]
  show Ideal.ofBits .f32 0x00000000#32 = 0
  exact Ideal.ofBits_zero_f32

theorem final_apply (cnt : Vec Ideal S1x128 .f32) (s : Vec Ideal S128x128 .f32) (gI d : Fin 128) :
    k3_pay6 (F := Ideal) cnt s (ix2 gI d)
      = Ideal.div (s (ix2 gI d)) (max (cnt (ix2 (0 : Fin 1) gI)) Cert.Spec.cOne) := by
  unfold k3_pay6
  refine (divf_apply _ _ _).trans ?_
  refine congrArg (Ideal.div (s (ix2 gI d))) ?_
  refine (broadcastTo_apply _ broadcasts_S128x1_S128x128 (ix2 gI d) (ix2 gI (0 : Fin 1)) fun a => match a with
      | ⟨0, _⟩ => by show gI.val = if (128 : Nat) = 1 then 0 else gI.val; rw [if_neg (by decide)]
      | ⟨1, _⟩ => rfl).trans ?_
  refine (maximumf_apply _ _ _).trans ?_
  refine congrArg₂ max ?_ rfl
  exact transpose_ix2_apply cnt transposes_S1x128_p1_0_S128x1 gI (0 : Fin 1)

def beyond0 (f : Fin 50000 → EReal) (i : ℕ) : EReal := if h : i < 50000 then f ⟨i, h⟩ else 0

def upTo (f : Fin 50000 → EReal) (t : ℕ) : EReal := ∑ i ∈ Finset.range (2000 * t), beyond0 f i

theorem upTo_zero (f : Fin 50000 → EReal) : upTo f 0 = 0 := by
  unfold upTo
  simp

theorem upTo_succ (f : Fin 50000 → EReal) (t : ℕ) (ht : t < 25) :
    upTo f (t + 1) = upTo f t + ∑ r : Fin 2000, f ⟨2000 * t + r.val, by have := r.isLt; omega⟩ := by
  have e : ∀ r : Fin 2000, beyond0 f (2000 * t + r.val) = f ⟨2000 * t + r.val, by have := r.isLt; omega⟩ := fun r => by
    unfold beyond0
    exact dif_pos (by have := r.isLt; omega)
  unfold upTo
  rw [show 2000 * (t + 1) = 2000 * t + 2000 by ring, Finset.sum_range_add,
    Finset.sum_range (fun x => beyond0 f (2000 * t + x))]
  simp only [e]

theorem upTo_all (f : Fin 50000 → EReal) : upTo f 25 = ∑ n : Fin 50000, f n := by
  have e : ∀ n : Fin 50000, beyond0 f n.val = f n := fun n => by
    unfold beyond0
    exact dif_pos n.isLt
  unfold upTo
  rw [show 2000 * 25 = 50000 by norm_num, Finset.sum_range]
  simp only [e]

end Cert.KernelIdeal.HandVal

end
-- ==== Proof.KI.PoolArr.lean ====
import proofs.«411758_j88313117540961_2_alg».proof.Proof.KI.Pool
import proofs.«411758_j88313117540961_2_alg».proof.Proof.KI.PoolVal
import Idealize.ShloMosaic.Lib.Pipeline.Value
import Idealize.ShloMosaic.Lib.Tactic

set_option maxRecDepth 16384

noncomputable section

namespace Cert.KernelIdeal.HandVal

namespace Pooling

open Idealize.ShloMosaic Idealize.ShloMosaic.TcCoe Idealize.ShloMosaic.Tactic Idealize.SL.Sem
open Idealize.ShloMosaic.Pipeline (Dat)
open Cert.KernelIdeal Cert.KernelIdeal.Gen Cert.KernelIdeal.Hand Cert.Spec Idealize.ShloMosaic.ValueIdx

theorem hz2 : (![0, 0] : Fin 2 → Nat) = fun _ => 0 := funext fun a => by fin_cases a <;> rfl

section Pieces
variable {F : FTy → Type} [FloatOps F] (c : Dev nD) (i : grid3.Coords)
  (arg1 : Memref sig .tc .vmem S2000x128 .f32) (harg1 : arg1.IsWhole) (arg2 : Memref sig .tc .vmem S2000x1 .i32) (harg2 : arg2.IsWhole)
  (arg3 : Memref sig .tc .vmem S128x128 .f32) (harg3 : arg3.IsWhole) (arg4 : Memref sig .tc .vmem S128x128 .f32) (harg4 : arg4.IsWhole)
  (arg5 : Memref sig .tc .vmem S1x128 .f32) (harg5 : arg5.IsWhole)
  (x0 : Vec F S2000x128 .f32) (x1 : Vec F S2000x1 .i32) (xs0 : Vec F S128x128 .f32) (xs1 : Vec F S1x128 .f32)

theorem pieces_A (hc0 : cond3_0 i) (hc1 : ¬cond3_1 i) :
    sout3_A_0 c i arg1 harg1 arg2 harg2 arg3 harg3 arg4 harg4 arg5 harg5 hc0 hc1 x0 x1 = k3_pay4 x1 x0 (k3_pay1 (F := F))
    ∧ sout3_A_1 c i arg1 harg1 arg2 harg2 arg3 harg3 arg4 harg4 arg5 harg5 hc0 hc1 x0 x1 = k3_pay5 x1 (k3_pay2 (F := F)) := by
  unfold sout3_A_0 sout3_A_1
  rw [View.read_writes_eq_canon _ _ _ (scover3_A_0 c i arg1 harg1 arg2 harg2 arg3 harg3 arg4 harg4 arg5 harg5 hc0 hc1 x0 x1),
    View.read_writes_eq_canon _ _ _ (scover3_A_1 c i arg1 harg1 arg2 harg2 arg3 harg3 arg4 harg4 arg5 harg5 hc0 hc1 x0 x1)]
  unfold kernelRun3_A
  dsimp only
  sl_unfold_words
  rw [View.canon_cons_unit_zero (S := S128x128) hz2, View.readCov_unit_zero (S := S128x128) _ hz2,
    View.canon_cons_unit_zero (S := S1x128) hz2, View.readCov_unit_zero (S := S1x128) _ hz2]
  refine ⟨?_, ?_⟩ <;> simp only [View.readAt_eq_ld, harg1.read_unread, harg2.read_unread, harg4.read_unread, harg5.read_unread,
    View.ld_unit_zero (S := S2000x128) hz2, View.ld_unit_zero (S := S2000x1) hz2,
    View.ld_unit_zero (S := S128x128) hz2, View.ld_unit_zero (S := S1x128) hz2]

theorem pieces_B (hc0 : ¬cond3_0 i) (hc1 : ¬cond3_1 i) :
    sout3_B_0 c i arg1 harg1 arg2 harg2 arg3 harg3 arg4 harg4 arg5 harg5 hc0 hc1 x0 x1 xs0 xs1 = k3_pay4 x1 x0 xs0
    ∧ sout3_B_1 c i arg1 harg1 arg2 harg2 arg3 harg3 arg4 harg4 arg5 harg5 hc0 hc1 x0 x1 xs0 xs1 = k3_pay5 x1 xs1 := by
  unfold sout3_B_0 sout3_B_1
  rw [View.read_writes_eq_canon _ _ _ (scover3_B_0 c i arg1 harg1 arg2 harg2 arg3 harg3 arg4 harg4 arg5 harg5 hc0 hc1 x0 x1 xs0 xs1),
    View.read_writes_eq_canon _ _ _ (scover3_B_1 c i arg1 harg1 arg2 harg2 arg3 harg3 arg4 harg4 arg5 harg5 hc0 hc1 x0 x1 xs0 xs1)]
  unfold kernelRun3_B
  dsimp only
  sl_unfold_words
  rw [View.canon_unit_zero (S := S128x128) hz2, View.canon_unit_zero (S := S1x128) hz2]
  refine ⟨?_, ?_⟩ <;> simp only [View.readAt_eq_ld, harg1.read_unread, harg2.read_unread, harg4.read_unread, harg5.read_unread,
    View.ld_unit_zero (S := S2000x128) hz2, View.ld_unit_zero (S := S2000x1) hz2,
    View.ld_unit_zero (S := S128x128) hz2, View.ld_unit_zero (S := S1x128) hz2]

theorem pieces_C (hc0 : ¬cond3_0 i) (hc1 : cond3_1 i) :
    sout3_C_0 c i arg1 harg1 arg2 harg2 arg3 harg3 arg4 harg4 arg5 harg5 hc0 hc1 x0 x1 xs0 xs1 = k3_pay4 x1 x0 xs0
    ∧ sout3_C_1 c i arg1 harg1 arg2 harg2 arg3 harg3 arg4 harg4 arg5 harg5 hc0 hc1 x0 x1 xs0 xs1 = k3_pay5 x1 xs1
    ∧ out3_C_2 c i arg1 harg1 arg2 harg2 arg3 harg3 arg4 harg4 arg5 harg5 hc0 hc1 x0 x1 xs0 xs1 = k3_pay6 (k3_pay5 x1 xs1) (k3_pay4 x1 x0 xs0) := by
  unfold sout3_C_0 sout3_C_1 out3_C_2
  rw [View.read_writes_eq_canon _ _ _ (scover3_C_0 c i arg1 harg1 arg2 harg2 arg3 harg3 arg4 harg4 arg5 harg5 hc0 hc1 x0 x1 xs0 xs1),
    View.read_writes_eq_canon _ _ _ (scover3_C_1 c i arg1 harg1 arg2 harg2 arg3 harg3 arg4 harg4 arg5 harg5 hc0 hc1 x0 x1 xs0 xs1),
    View.read_writes_eq_canon _ _ _ (cover3_C_2 c i arg1 harg1 arg2 harg2 arg3 harg3 arg4 harg4 arg5 harg5 hc0 hc1 x0 x1 xs0 xs1)]
  unfold kernelRun3_C
  dsimp only
  sl_unfold_words
  rw [View.canon_unit_zero (S := S128x128) hz2, View.canon_unit_zero (S := S1x128) hz2,
    View.readCov_unit_zero (S := S128x128) _ hz2, View.readCov_unit_zero (S := S1x128) _ hz2,
    View.canon_unit_zero (S := S128x128) hz2]
  refine ⟨?_, ?_, ?_⟩ <;> simp only [View.readAt_eq_ld, harg1.read_unread, harg2.read_unread, harg4.read_unread, harg5.read_unread,
    View.ld_unit_zero (S := S2000x128) hz2, View.ld_unit_zero (S := S2000x1) hz2,
    View.ld_unit_zero (S := S128x128) hz2, View.ld_unit_zero (S := S1x128) hz2]

end Pieces

section Named
variable {F : FTy → Type} [FloatOps F]
variable (V : (c : Dev nD) → (b : Ref sig .tc) → Buf (Elt F) ((c : Thread nD τ).loc b))

abbrev xblk (c : Dev nD) (t : Fin cfg3.N) : Vec F S2000x128 .f32 := iblk3 V c 0 t
abbrev wblk (c : Dev nD) (t : Fin cfg3.N) : Vec F S2000x1 .i32 := iblk3 V c 1 t
abbrev xarr (c : Dev nD) : Vec F S50000x128 .f32 := V c main_v86_0
abbrev warr (c : Dev nD) : Vec F S50000x1 .i32 := V c main_v87
abbrev sumsAt (c : Dev nD) (n : ℕ) (h : n < cfg3.N) : Vec F S128x128 .f32 := (outsAt3 V c n h).2.1
abbrev cntsAt (c : Dev nD) (n : ℕ) (h : n < cfg3.N) : Vec F S1x128 .f32 := (outsAt3 V c n h).2.2
abbrev outAt (c : Dev nD) (n : ℕ) (h : n < cfg3.N) : Vec F S128x128 .f32 := (outsAt3 V c n h).1

theorem step_A (c : Dev nD) (t : Fin cfg3.N) (h0 : t.val % 25 = 0) (h1 : ¬t.val % 25 = 24) :
    sumsAt V c t.val t.isLt = k3_pay4 (wblk V c t) (xblk V c t) (k3_pay1 (F := F))
    ∧ cntsAt V c t.val t.isLt = k3_pay5 (wblk V c t) (k3_pay2 (F := F)) := by
  show (outsAt3 V c t.val t.isLt).2.1 = _ ∧ (outsAt3 V c t.val t.isLt).2.2 = _
  rw [outsAt3_A V c t h0 h1]
  dsimp only
  exact pieces_A ..

theorem step_B (c : Dev nD) (t : Fin cfg3.N) (h0 : ¬t.val % 25 = 0) (h1 : ¬t.val % 25 = 24) :
    sumsAt V c t.val t.isLt = k3_pay4 (wblk V c t) (xblk V c t) (sumsAt V c (t.val - 1) (Nat.lt_of_le_of_lt (Nat.sub_le _ _) t.isLt))
    ∧ cntsAt V c t.val t.isLt = k3_pay5 (wblk V c t) (cntsAt V c (t.val - 1) (Nat.lt_of_le_of_lt (Nat.sub_le _ _) t.isLt)) := by
  show (outsAt3 V c t.val t.isLt).2.1 = _ ∧ (outsAt3 V c t.val t.isLt).2.2 = _
  rw [outsAt3_B V c t h0 h1]
  dsimp only
  exact pieces_B ..

theorem step_C (c : Dev nD) (t : Fin cfg3.N) (h0 : ¬t.val % 25 = 0) (h1 : t.val % 25 = 24) :
    sumsAt V c t.val t.isLt = k3_pay4 (wblk V c t) (xblk V c t) (sumsAt V c (t.val - 1) (Nat.lt_of_le_of_lt (Nat.sub_le _ _) t.isLt))
    ∧ cntsAt V c t.val t.isLt = k3_pay5 (wblk V c t) (cntsAt V c (t.val - 1) (Nat.lt_of_le_of_lt (Nat.sub_le _ _) t.isLt))
    ∧ outAt V c t.val t.isLt = k3_pay6 (cntsAt V c t.val t.isLt) (sumsAt V c t.val t.isLt) := by
  show (outsAt3 V c t.val t.isLt).2.1 = _ ∧ (outsAt3 V c t.val t.isLt).2.2 = _
    ∧ (outsAt3 V c t.val t.isLt).1 = k3_pay6 (outsAt3 V c t.val t.isLt).2.2 (outsAt3 V c t.val t.isLt).2.1
  rw [outsAt3_C V c t h0 h1]
  dsimp only
  obtain ⟨es, ec, eo⟩ := pieces_C c (grid3.coords t) (ms3_0 t) (hs3_0 t) (ms3_1 t) (hs3_1 t) (ms3_2 t) (hs3_2 t) scM3_0 (Memref.isWhole_whole _) scM3_1 (Memref.isWhole_whole _)
    (iblk3 V c 0 t) (iblk3 V c 1 t) (sumsAt V c (t.val - 1) (Nat.lt_of_le_of_lt (Nat.sub_le _ _) t.isLt))
    (cntsAt V c (t.val - 1) (Nat.lt_of_le_of_lt (Nat.sub_le _ _) t.isLt)) (fun h => h0 ((hcond3_0 t).mp h)) ((hcond3_1 t).mpr h1)
  exact ⟨es, ec, eo.trans (by rw [es, ec])⟩

theorem idx3 : ∀ t : Fin cfg3.N, win3_0.index t 0 = t.val ∧ win3_0.index t 1 = 0 ∧ win3_1.index t 0 = t.val ∧ win3_1.index t 1 = 0
      ∧ win3_2.index t 0 = 0 ∧ win3_2.index t 1 = 0 :=
  (by decide +kernel : ∀ t : Fin grid3.N, win3_0.index t 0 = t.val ∧ win3_0.index t 1 = 0 ∧ win3_1.index t 0 = t.val ∧ win3_1.index t 1 = 0
      ∧ win3_2.index t 0 = 0 ∧ win3_2.index t 1 = 0)

theorem xblk_apply (c : Dev nD) (t : Fin cfg3.N) (r : Fin 2000) (d : Fin 128) (hn : 2000 * t.val + r.val < 50000) :
    xblk V c t (ix2 r d) = xarr V c (ix2 ⟨2000 * t.val + r.val, hn⟩ d) := by
  unfold xblk iblk3
  rw [View.read_apply]
  show V c main_v86_0 _ = V c main_v86_0 _
  congr 1
  funext a
  apply Fin.ext
  match a with
  | ⟨0, _⟩ => show win3_0.index t 0 * 2000 + 1 * r.val = 2000 * t.val + r.val; rw [(idx3 t).1]; omega
  | ⟨1, _⟩ => show win3_0.index t 1 * 128 + 1 * d.val = d.val; rw [(idx3 t).2.1]; omega

theorem wblk_apply (c : Dev nD) (t : Fin cfg3.N) (r : Fin 2000) (hn : 2000 * t.val + r.val < 50000) :
    wblk V c t (ix2 r (0 : Fin 1)) = warr V c (ix2 ⟨2000 * t.val + r.val, hn⟩ (0 : Fin 1)) := by
  unfold wblk iblk3
  rw [View.read_apply]
  show V c main_v87 _ = V c main_v87 _
  congr 1
  funext a
  apply Fin.ext
  match a with
  | ⟨0, _⟩ => show win3_1.index t 0 * 2000 + 1 * r.val = 2000 * t.val + r.val; rw [(idx3 t).2.2.1]; omega
  | ⟨1, _⟩ => show win3_1.index t 1 * 1 + 1 * 0 = 0; rw [(idx3 t).2.2.2.1]

end Named

section Invariant
variable (V : (c : Dev nD) → (b : Ref sig .tc) → Buf (Elt Ideal) ((c : Thread nD τ).loc b))

def sumF (c : Dev nD) (gI d : Fin 128) (n : Fin 50000) : EReal :=
  Cert.Spec.oneHot (warr V c (ix2 n (0 : Fin 1))) gI * xarr V c (ix2 n d)

def cntF (c : Dev nD) (gI : Fin 128) (n : Fin 50000) : EReal :=
  Cert.Spec.oneHot (warr V c (ix2 n (0 : Fin 1))) gI

theorem blockSums (c : Dev nD) (t : Fin cfg3.N) (ht : t.val < 25) (gI d : Fin 128) :
    ∑ r : Fin 2000, Cert.Spec.oneHot (wblk V c t (ix2 r (0 : Fin 1))) gI * xblk V c t (ix2 r d)
      = ∑ r : Fin 2000, sumF V c gI d ⟨2000 * t.val + r.val, by have := r.isLt; omega⟩ :=
  Finset.sum_congr rfl fun r _ => by
    unfold sumF
    rw [xblk_apply V c t r d (by have := r.isLt; omega), wblk_apply V c t r (by have := r.isLt; omega)]

theorem blockCounts (c : Dev nD) (t : Fin cfg3.N) (ht : t.val < 25) (gI : Fin 128) :
    ∑ r : Fin 2000, Cert.Spec.oneHot (wblk V c t (ix2 r (0 : Fin 1))) gI
      = ∑ r : Fin 2000, cntF V c gI ⟨2000 * t.val + r.val, by have := r.isLt; omega⟩ :=
  Finset.sum_congr rfl fun r _ => by
    unfold cntF
    rw [wblk_apply V c t r (by have := r.isLt; omega)]

theorem acc_eq (c : Dev nD) : ∀ (n : ℕ) (h : n < cfg3.N),
    (∀ gI d : Fin 128, sumsAt V c n h (ix2 gI d) = upTo (sumF V c gI d) (n + 1))
    ∧ (∀ gI : Fin 128, cntsAt V c n h (ix2 (0 : Fin 1) gI) = upTo (cntF V c gI) (n + 1))
  | 0, h => by
    obtain ⟨es, ec⟩ := step_A V c ⟨0, h⟩ (Nat.zero_mod _) (by show ¬(0 : ℕ) % 25 = 24; decide)
    refine ⟨fun gI d => ?_, fun gI => ?_⟩
    · refine (congrFun es (ix2 gI d)).trans ?_
      refine (sums_apply (wblk V c ⟨0, h⟩) (xblk V c ⟨0, h⟩) (k3_pay1 (F := Ideal)) gI d).trans ?_
      rw [zeroSums_apply, upTo_succ _ 0 (by decide), upTo_zero, blockSums V c ⟨0, h⟩ (by show (0 : ℕ) < 25; decide) gI d]
    · refine (congrFun ec (ix2 (0 : Fin 1) gI)).trans ?_
      refine (counts_apply (wblk V c ⟨0, h⟩) (k3_pay2 (F := Ideal)) gI).trans ?_
      rw [zeroCounts_apply, upTo_succ _ 0 (by decide), upTo_zero, blockCounts V c ⟨0, h⟩ (by show (0 : ℕ) < 25; decide) gI]
  | n + 1, h => by
    have hN : cfg3.N = 25 := N_3
    have hn : n + 1 < 25 := lt_of_lt_of_eq h hN
    obtain ⟨ihs, ihc⟩ := acc_eq c n (Nat.lt_of_succ_lt h)
    have h0 : ¬(⟨n + 1, h⟩ : Fin cfg3.N).val % 25 = 0 := by show ¬(n + 1) % 25 = 0; omega
    have hstep : sumsAt V c (n + 1) h = k3_pay4 (wblk V c ⟨n + 1, h⟩) (xblk V c ⟨n + 1, h⟩) (sumsAt V c n (Nat.lt_of_succ_lt h))
        ∧ cntsAt V c (n + 1) h = k3_pay5 (wblk V c ⟨n + 1, h⟩) (cntsAt V c n (Nat.lt_of_succ_lt h)) := by
      by_cases h1 : (⟨n + 1, h⟩ : Fin cfg3.N).val % 25 = 24
      · exact ⟨(step_C V c ⟨n + 1, h⟩ h0 h1).1, (step_C V c ⟨n + 1, h⟩ h0 h1).2.1⟩
      · exact step_B V c ⟨n + 1, h⟩ h0 h1
    obtain ⟨es, ec⟩ := hstep
    refine ⟨fun gI d => ?_, fun gI => ?_⟩
    · refine (congrFun es (ix2 gI d)).trans ?_
      refine (sums_apply (wblk V c ⟨n + 1, h⟩) (xblk V c ⟨n + 1, h⟩) (sumsAt V c n (Nat.lt_of_succ_lt h)) gI d).trans ?_
      rw [ihs gI d, upTo_succ _ (n + 1) hn, blockSums V c ⟨n + 1, h⟩ hn gI d]
    · refine (congrFun ec (ix2 (0 : Fin 1) gI)).trans ?_
      refine (counts_apply (wblk V c ⟨n + 1, h⟩) (cntsAt V c n (Nat.lt_of_succ_lt h)) gI).trans ?_
      rw [ihc gI, upTo_succ _ (n + 1) hn, blockCounts V c ⟨n + 1, h⟩ hn gI]

theorem out_last (c : Dev nD) (t : Fin cfg3.N) (h1 : t.val % 25 = 24) :
    outAt V c t.val t.isLt = Cert.Spec.poolArr (xarr V c) (warr V c) := by
  have hN : cfg3.N = 25 := N_3
  have ht : t.val = 24 := by have := t.isLt; omega
  have h0 : ¬t.val % 25 = 0 := by omega
  obtain ⟨_, _, eo⟩ := step_C V c t h0 h1
  obtain ⟨hs, hc⟩ := acc_eq V c t.val t.isLt
  funext y
  obtain ⟨gI, d, rfl⟩ : ∃ (gI : Fin 128) (d : Fin 128), y = ix2 gI d := ⟨y 0, y 1, eq_ix2 y⟩
  refine (congrFun eo (ix2 gI d)).trans ?_
  refine (final_apply (cntsAt V c t.val t.isLt) (sumsAt V c t.val t.isLt) gI d).trans ?_
  have e25 : t.val + 1 = 25 := by omega
  rw [hs gI d, hc gI, e25, upTo_all, upTo_all]
  rfl

theorem cut_eq_read (G : S128x128.Idx → EReal) (t : Fin cfg3.N) :
    (cfg3.win 2).cut (grid3.coords t) G = ((cfg3.win 2).blk t).view.read (Elt Ideal) G := by
  funext j
  show G ((cfg3.win 2).xinj (grid3.coords t) j) = G (((cfg3.win 2).blk t).view.emb j)
  refine congrArg G (funext fun a => Fin.ext ?_)
  match a with
  | ⟨0, _⟩ => show (j 0).val = win3_2.index t 0 * 128 + 1 * (j 0).val; rw [(idx3 t).2.2.2.2.1]; omega
  | ⟨1, _⟩ => show (j 1).val = win3_2.index t 1 * 128 + 1 * (j 1).val; rw [(idx3 t).2.2.2.2.2]; omega

theorem flushed_eq (c : Dev nD) (t : Fin cfg3.N) (hf : (cfg3.win 2).flush t = true) :
    (dat3 V c).flushed 2 t = ((cfg3.win 2).blk t).view.read (Elt Ideal) (Cert.Spec.poolArr (xarr V c) (warr V c)) := by
  have h1 : t.val % 25 = 24 := (flush3_2 t).mp hf
  show (cfg3.win 2).cut (grid3.coords t) ((dat3 V c).after 2 t) = _
  rw [after3_2]
  show (cfg3.win 2).cut (grid3.coords t) (outAt V c t.val t.isLt) = _
  rw [out_last V c t h1]
  exact cut_eq_read (Cert.Spec.poolArr (xarr V c) (warr V c)) t

theorem xs3 : ∀ t : Fin cfg3.N, win3_2.xsize (grid3.coords t) 0 = 128 ∧ win3_2.xsize (grid3.coords t) 1 = 128 :=
  (by decide +kernel : ∀ t : Fin grid3.N, win3_2.xsize (grid3.coords t) 0 = 128 ∧ win3_2.xsize (grid3.coords t) 1 = 128)

theorem cover (i : S128x128.Idx) : ∃ t : Fin cfg3.N, (cfg3.win 2).flush t = true ∧ i ∈ ((cfg3.win 2).blk t).view.set := by
  have hN : cfg3.N = 25 := N_3
  have h0 : (i 0 : Nat) < 128 := (i 0).isLt
  have h1 : (i 1 : Nat) < 128 := (i 1).isLt
  have h24 : 24 < cfg3.N := by rw [hN]; decide
  refine ⟨⟨24, h24⟩, (flush3_2 ⟨24, h24⟩).mpr rfl, ?_⟩
  show i ∈ ((View.whole main_v88).slice (win3_2.rect ⟨24, h24⟩)).set
  rw [View.set_slice_whole, Rect.mem_set_unit]
  obtain ⟨_, _, _, _, e0, e1⟩ := idx3 ⟨24, h24⟩
  obtain ⟨x0, x1⟩ := xs3 ⟨24, h24⟩
  intro a
  match a with
  | ⟨0, _⟩ =>
    show win3_2.index ⟨24, h24⟩ 0 * win3_2.size 0 ≤ (i 0 : Nat) ∧ (i 0 : Nat) < win3_2.index ⟨24, h24⟩ 0 * win3_2.size 0 + win3_2.xsize (grid3.coords ⟨24, h24⟩) 0
    rw [e0, x0]
    omega
  | ⟨1, _⟩ =>
    show win3_2.index ⟨24, h24⟩ 1 * win3_2.size 1 ≤ (i 1 : Nat) ∧ (i 1 : Nat) < win3_2.index ⟨24, h24⟩ 1 * win3_2.size 1 + win3_2.xsize (grid3.coords ⟨24, h24⟩) 1
    rw [e1, x1]
    omega

theorem arr_eq (c : Dev nD) :
    (dat3 V c).arrAt 2 cfg3.N = Cert.Spec.poolArr (xarr V c) (warr V c) :=
  (dat3 V c).arrAt_eq_of_cover 2 (Cert.Spec.poolArr (xarr V c) (warr V c)) (flushed_eq V c) cover

end Invariant

end Pooling

open Idealize.ShloMosaic Idealize.ShloMosaic.TcCoe Idealize.SL.Sem
open Cert.KernelIdeal Cert.KernelIdeal.Gen Cert.KernelIdeal.Hand

theorem pool_arr (V : (c : Dev nD) → (b : Ref sig .tc) → Buf (Elt Ideal) ((c : Thread nD τ).loc b)) (c : Dev nD) :
    (dat3 V c).arrAt 2 cfg3.N = Cert.Spec.poolArr (V c main_v86_0) (V c main_v87) :=
  Pooling.arr_eq V c

end Cert.KernelIdeal.HandVal

end
-- ==== Proof.LibIndex.lean ====
import Idealize.ShloMosaic.PureOps.Ideal
import Idealize.ShloMosaic.PureOps.Ideal.Laws
import Idealize.ShloMosaic.Lib.ValueIdx
import Idealize.ShloMosaic.Lib.StableHlo.Predicate
import proofs.«411758_j88313117540961_2_alg».proof.Proof.Spec

noncomputable section

namespace Cert.LibIndex

open Idealize.ShloMosaic Idealize.ShloMosaic.ValueIdx

abbrev rowsScatter (N M C : Nat) (wf : ScatterDims.WF ⟨2, ![N, C]⟩ ⟨2, ![M, 1]⟩ ⟨2, ![M, C]⟩ [1] [0] [0] 1) :
    ScatterDims ⟨2, ![N, C]⟩ ⟨2, ![M, 1]⟩ ⟨2, ![M, C]⟩ where
  updateWindowDims := [1]
  insertedWindowDims := [0]
  scatterDimsToOperandDims := [0]
  indexVectorDim := 1
  wf := wf

section RowsScatter
variable {N M C : Nat} (wf : ScatterDims.WF ⟨2, ![N, C]⟩ ⟨2, ![M, 1]⟩ ⟨2, ![M, C]⟩ [1] [0] [0] 1)

theorem rowsScatter_start0 {w : Nat} (j : (⟨2, ![M, C]⟩ : Shape).Idx) (idx : IVec ⟨2, ![M, 1]⟩ w) :
    (rowsScatter N M C wf).start j idx 0 = (idx (ix2 (j 0) 0)).toInt := by
  unfold ScatterDims.start
  rw [dif_pos (show (0 : Fin 2) ∈ (rowsScatter N M C wf).scatterDimsToOperandDims from List.mem_singleton.mpr rfl)]
  have hsi : (rowsScatter N M C wf).siIdx j ⟨List.idxOf (0 : Fin 2) (rowsScatter N M C wf).scatterDimsToOperandDims,
      List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

theorem rowsScatter_start1 {w : Nat} (j : (⟨2, ![M, C]⟩ : Shape).Idx) (idx : IVec ⟨2, ![M, 1]⟩ w) :
    (rowsScatter N M C wf).start j idx 1 = 0 := by
  unfold ScatterDims.start
  rw [dif_neg (show ¬ (1 : Fin 2) ∈ ([0] : List (Fin 2)) by decide)]

theorem rowsScatter_window0 (j : (⟨2, ![M, C]⟩ : Shape).Idx) : (rowsScatter N M C wf).window j 0 = 0 := by
  unfold ScatterDims.window
  have hk : ¬ (0 : Fin 2) ∈ (rowsScatter N M C wf).sKept := (show ¬ (0 : Fin 2) ∈ ([1] : List (Fin 2)) by decide)
  rw [dif_neg hk]

theorem rowsScatter_window1 (j : (⟨2, ![M, C]⟩ : Shape).Idx) : (rowsScatter N M C wf).window j 1 = (j 1).val := by
  unfold ScatterDims.window
  have hk : (1 : Fin 2) ∈ (rowsScatter N M C wf).sKept := (show (1 : Fin 2) ∈ ([1] : List (Fin 2)) by decide)
  rw [dif_pos hk]
  rfl

theorem rowsScatter_resultIdx? (j : (⟨2, ![M, C]⟩ : Shape).Idx) (idx : IVec ⟨2, ![M, 1]⟩ 32) :
    (rowsScatter N M C wf).resultIdx? j idx = (Cert.Spec.scatterRow N (idx (ix2 (j 0) 0))).map (fun i => ix2 i (j 1)) := by
  have h0 : (rowsScatter N M C wf).start j idx 0 + ((rowsScatter N M C wf).window j 0 : Int) = (idx (ix2 (j 0) 0)).toInt := by
    rw [rowsScatter_start0, rowsScatter_window0]; simp
  have h1 : (rowsScatter N M C wf).start j idx 1 + ((rowsScatter N M C wf).window j 1 : Int) = ((j 1).val : Int) := by
    rw [rowsScatter_start1, rowsScatter_window1]; simp
  unfold ScatterDims.resultIdx? Cert.Spec.scatterRow
  by_cases h : 0 ≤ (idx (ix2 (j 0) 0)).toInt ∧ (idx (ix2 (j 0) 0)).toInt < N
  · have hall : ∀ a, 0 ≤ (rowsScatter N M C wf).start j idx a + ((rowsScatter N M C wf).window j a : Int) ∧
        (rowsScatter N M C wf).start j idx a + ((rowsScatter N M C wf).window j a : Int) < ((⟨2, ![N, C]⟩ : Shape).size a : Int) := by
      refine Fin.forall_fin_two.mpr ⟨?_, ?_⟩
      · rw [h0]; exact h
      · rw [h1]; exact ⟨Int.natCast_nonneg _, Int.ofNat_lt.mpr (idx2_lt1 j)⟩
    rw [dif_pos h, dif_pos hall, Option.map_some]
    congr 1
    funext a; refine Fin.ext ?_
    match a with
    | ⟨0, _⟩ => show ((rowsScatter N M C wf).start j idx 0 + ((rowsScatter N M C wf).window j 0 : Int)).toNat = _; rw [h0]
    | ⟨1, _⟩ => show ((rowsScatter N M C wf).start j idx 1 + ((rowsScatter N M C wf).window j 1 : Int)).toNat = _; rw [h1]; rfl
  · rw [dif_neg h, dif_neg (fun hall => h (by have := hall 0; rw [h0] at this; exact this))]
    rfl

end RowsScatter

theorem scatterAdd_rows_apply {N M C : Nat} (wf : ScatterDims.WF ⟨2, ![N, C]⟩ ⟨2, ![M, 1]⟩ ⟨2, ![M, C]⟩ [1] [0] [0] 1)
    (x : (⟨2, ![N, C]⟩ : Shape).Idx → EReal) (idx : IVec ⟨2, ![M, 1]⟩ 32) (upd : (⟨2, ![M, C]⟩ : Shape).Idx → EReal)
    (i : Fin N) (c : Fin C) :
    Ideal.hostScatterAdd (rowsScatter N M C wf) x idx upd (ix2 i c) =
      x (ix2 i c) + ∑ e ∈ Finset.univ.filter (fun e : Fin M => Cert.Spec.scatterRow N (idx (ix2 e 0)) = some i), upd (ix2 e c) := by
  unfold Ideal.hostScatterAdd
  congr 1
  have key : ∀ j : (⟨2, ![M, C]⟩ : Shape).Idx, (rowsScatter N M C wf).resultIdx? j idx = some (ix2 i c) ↔
      (Cert.Spec.scatterRow N (idx (ix2 (j 0) 0)) = some i ∧ j 1 = c) := by
    intro j
    rw [rowsScatter_resultIdx?]
    cases hrow : Cert.Spec.scatterRow N (idx (ix2 (j 0) 0)) with
    | none => simp
    | some r =>
      rw [Option.map_some]
      constructor
      · intro hj; exact ⟨congrArg some (congrFun (Option.some.inj hj) 0), congrFun (Option.some.inj hj) 1⟩
      · rintro ⟨hj, h1⟩; rw [Option.some.inj hj, h1]; rfl
  refine Finset.sum_bij' (fun j _ => (⟨(j 0).val, idx2_lt0 j⟩ : Fin M)) (fun e _ => ix2 e c) ?_ ?_ ?_ ?_ ?_
  · intro j hj
    exact Finset.mem_filter.mpr ⟨Finset.mem_univ _, ((key j).mp (Finset.mem_filter.mp hj).2).1⟩
  · intro e he
    exact Finset.mem_filter.mpr ⟨Finset.mem_univ _, (key (ix2 e c)).mpr ⟨(Finset.mem_filter.mp he).2, rfl⟩⟩
  · intro j hj
    rw [← ((key j).mp (Finset.mem_filter.mp hj).2).2]; exact (eq_ix2 j).symm
  · intro e _; rfl
  · intro j hj
    rw [← ((key j).mp (Finset.mem_filter.mp hj).2).2]; exact congrArg upd (eq_ix2 j)

abbrev rowsGather (N M C : Nat)
    (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

theorem gather_rows_apply {α : Type} {N M C w : Nat} (hN : 0 < N)
    (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (e : Fin M) (c : Fin C) :
    Host.gather (rowsGather N M C wf) x idx (ix2 e c) =
      x (ix2 ⟨min (idx (ix2 e 0)).toInt.toNat (N - 1), by omega⟩ c) := by
  unfold Host.gather
  congr 1
  funext a
  refine Fin.ext ?_
  show (rowsGather N M C wf).start (ix2 e c) idx a + (rowsGather N M C wf).batchCoord (ix2 e c) a
    + (rowsGather N M C wf).offCoord (ix2 e c) a = _
  rw [GatherDims.batchCoord_eq_zero _ _ _ List.not_mem_nil, Nat.add_zero]
  match a with
  | ⟨0, _⟩ =>
    show (rowsGather N M C wf).start (ix2 e c) idx 0 + (rowsGather N M C wf).offCoord (ix2 e c) 0 = _
    rw [GatherDims.offCoord_eq_zero _ _ _ (fun h => ((GatherDims.mem_sKept _ _).mp h).1 (List.mem_singleton.mpr rfl)),
      Nat.add_zero]
    unfold GatherDims.start
    rw [dif_pos (show (0 : Fin 2) ∈ (rowsGather N M C wf).startIndexMap from List.mem_singleton.mpr rfl)]
    have hsi : (rowsGather N M C wf).siIdx (ix2 e c) ⟨List.idxOf (0 : Fin 2) (rowsGather N M C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowsGather N M C wf).start (ix2 e c) idx 1 + (rowsGather N M C wf).offCoord (ix2 e c) 1 = c.val
    have hs : (rowsGather N M C wf).start (ix2 e c) idx 1 = 0 := by
      unfold GatherDims.start
      have hk : ¬ (1 : Fin 2) ∈ (rowsGather N M C wf).startIndexMap := (show ¬ (1 : Fin 2) ∈ ([0] : List (Fin 2)) by decide)
      rw [dif_neg hk]
    have ho : (rowsGather N M C wf).offCoord (ix2 e c) 1 = c.val := by
      unfold GatherDims.offCoord
      have hk : (1 : Fin 2) ∈ (rowsGather N M C wf).sKept := (show (1 : Fin 2) ∈ ([1] : List (Fin 2)) by decide)
      rw [dif_pos hk]
      rfl
    rw [hs, ho, Nat.zero_add]

abbrev vecScatter (N M : Nat) (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

section VecScatter
variable {N M : Nat} (wf : ScatterDims.WF ⟨1, ![N]⟩ ⟨2, ![M, 1]⟩ ⟨1, ![M]⟩ [] [0] [0] 1)

theorem vecScatter_start0 {w : Nat} (j : (⟨1, ![M]⟩ : Shape).Idx) (idx : IVec ⟨2, ![M, 1]⟩ w) :
    (vecScatter N M wf).start j idx 0 = (idx (ix2 (j 0) 0)).toInt := by
  unfold ScatterDims.start
  rw [dif_pos (show (0 : Fin 1) ∈ (vecScatter N M wf).scatterDimsToOperandDims from List.mem_singleton.mpr rfl)]
  have hsi : (vecScatter N M wf).siIdx j ⟨List.idxOf (0 : Fin 1) (vecScatter N M wf).scatterDimsToOperandDims,
      List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

theorem vecScatter_window0 (j : (⟨1, ![M]⟩ : Shape).Idx) : (vecScatter N M wf).window j 0 = 0 := by
  unfold ScatterDims.window
  have hk : ¬ (0 : Fin 1) ∈ (vecScatter N M wf).sKept := (show ¬ (0 : Fin 1) ∈ ([] : List (Fin 1)) by decide)
  rw [dif_neg hk]

theorem vecScatter_resultIdx? (j : (⟨1, ![M]⟩ : Shape).Idx) (idx : IVec ⟨2, ![M, 1]⟩ 32) :
    (vecScatter N M wf).resultIdx? j idx = (Cert.Spec.scatterRow N (idx (ix2 (j 0) 0))).map (fun i => ix1 i) := by
  have h0 : (vecScatter N M wf).start j idx 0 + ((vecScatter N M wf).window j 0 : Int) = (idx (ix2 (j 0) 0)).toInt := by
    rw [vecScatter_start0, vecScatter_window0]; simp
  unfold ScatterDims.resultIdx? Cert.Spec.scatterRow
  by_cases h : 0 ≤ (idx (ix2 (j 0) 0)).toInt ∧ (idx (ix2 (j 0) 0)).toInt < N
  · have hall : ∀ a, 0 ≤ (vecScatter N M wf).start j idx a + ((vecScatter N M wf).window j a : Int) ∧
        (vecScatter N M wf).start j idx a + ((vecScatter N M wf).window j a : Int) < ((⟨1, ![N]⟩ : Shape).size a : Int) := by
      intro a
      obtain rfl : a = 0 := Subsingleton.elim _ _
      rw [h0]; exact h
    rw [dif_pos h, dif_pos hall, Option.map_some]
    congr 1
    funext a; refine Fin.ext ?_
    obtain rfl : a = 0 := Subsingleton.elim _ _
    show ((vecScatter N M wf).start j idx 0 + ((vecScatter N M wf).window j 0 : Int)).toNat = _
    rw [h0]
    rfl
  · rw [dif_neg h, dif_neg (fun hall => h (by have := hall 0; rw [h0] at this; exact this))]
    rfl

end VecScatter

theorem scatterAdd_vec_apply {N M : Nat} (wf : ScatterDims.WF ⟨1, ![N]⟩ ⟨2, ![M, 1]⟩ ⟨1, ![M]⟩ [] [0] [0] 1)
    (x : (⟨1, ![N]⟩ : Shape).Idx → EReal) (idx : IVec ⟨2, ![M, 1]⟩ 32) (upd : (⟨1, ![M]⟩ : Shape).Idx → EReal)
    (i : Fin N) :
    Ideal.hostScatterAdd (vecScatter N M wf) x idx upd (ix1 i) =
      x (ix1 i) + ∑ e ∈ Finset.univ.filter (fun e : Fin M => Cert.Spec.scatterRow N (idx (ix2 e 0)) = some i), upd (ix1 e) := by
  unfold Ideal.hostScatterAdd
  congr 1
  have key : ∀ j : (⟨1, ![M]⟩ : Shape).Idx, (vecScatter N M wf).resultIdx? j idx = some (ix1 i) ↔
      Cert.Spec.scatterRow N (idx (ix2 (j 0) 0)) = some i := by
    intro j
    rw [vecScatter_resultIdx?]
    cases hrow : Cert.Spec.scatterRow N (idx (ix2 (j 0) 0)) with
    | none => simp
    | some r =>
      rw [Option.map_some]
      constructor
      · intro hj; exact congrArg some (congrFun (Option.some.inj hj) 0)
      · intro hj; rw [Option.some.inj hj]
  refine Finset.sum_bij' (fun j _ => (⟨(j 0).val, (j 0).isLt⟩ : Fin M)) (fun e _ => ix1 e) ?_ ?_ ?_ ?_ ?_
  · intro j hj
    rw [Finset.mem_filter] at hj
    exact Finset.mem_filter.mpr ⟨Finset.mem_univ _, (key j).mp hj.2⟩
  · intro e he
    rw [Finset.mem_filter] at he
    exact Finset.mem_filter.mpr ⟨Finset.mem_univ _, (key (ix1 e)).mpr he.2⟩
  · intro j _; exact (eq_ix1 j).symm
  · intro e _; rfl
  · intro j _; exact congrArg upd (eq_ix1 j)

abbrev vecGather (N M : Nat) (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

theorem gather_vec_apply {α : Type} {N M w : Nat} (hN : 0 < N)
    (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (e : Fin M) :
    Host.gather (vecGather N M wf) x idx (ix1 e) = x (ix1 ⟨min (idx (ix2 e 0)).toInt.toNat (N - 1), by omega⟩) := by
  have h1 {n : Nat} (k : Fin n) : ix1 k = Shape.Idx.ofFin k := Shape.Idx.eq_ofFin (ix1 k)
  have hP : StableHlo.Predicate.ixP e = ix2 e 0 := by
    funext b; match b with | ⟨0, _⟩ => rfl | ⟨1, _⟩ => rfl
  have h := StableHlo.Predicate.gather_take (vecGather N M wf) rfl rfl rfl rfl x idx e hN
  simp only [hP] at h
  rw [h1, h1]; exact h

theorem select_slt_zero {α : Type} (w : BitVec 32) (a b : α) :
    Scalar.select (IntOp.cmpi .slt w 0#32) a b = if w.toInt < 0 then a else b := by
  unfold Scalar.select IntOp.cmpi
  by_cases h : w.toInt < 0
  · have hs : w.slt 0#32 = true := by simp [BitVec.slt, h]
    simp [hs, h]
  · have hs : w.slt 0#32 = false := by simp [BitVec.slt, h]
    simp [hs, h]

theorem gatherRow_eq (w : BitVec 32) :
    Cert.Spec.gatherRow w =
      ⟨min (Scalar.select (IntOp.cmpi .slt w 0#32) (IntOp.addi w 50000#32) w).toInt.toNat 49999, by omega⟩ := by
  unfold Cert.Spec.gatherRow
  refine Fin.ext ?_
  show min _ _ = min _ _
  rw [select_slt_zero]
  rfl

theorem clamp_select_eq_gatherRow (w : BitVec 32)
    (h : min (Scalar.select (IntOp.cmpi .slt w 0#32) (IntOp.addi w 50000#32) w).toInt.toNat (50000 - 1) < 50000) :
    (⟨min (Scalar.select (IntOp.cmpi .slt w 0#32) (IntOp.addi w 50000#32) w).toInt.toNat (50000 - 1), h⟩ : Fin 50000) =
      Cert.Spec.gatherRow w := by
  rw [gatherRow_eq]

end Cert.LibIndex

end
-- ==== Proof.KI.HostVal1.lean ====
import proofs.«411758_j88313117540961_2_alg».proof.Proof.Gen.KernelIdeal.Launch
import proofs.«411758_j88313117540961_2_alg».proof.Proof.Gen.KernelIdeal.Regions
import proofs.«411758_j88313117540961_2_alg».proof.Proof.Spec
import proofs.«411758_j88313117540961_2_alg».proof.Proof.LibIndex
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws

set_option maxRecDepth 16384

noncomputable section

namespace Cert.KernelIdeal.HostVal

open Cert.KernelIdeal Cert.KernelIdeal.Gen Cert.Spec Idealize.ShloMosaic Idealize.ShloMosaic.ValueIdx

theorem col_apply {α : Type} (v : S600000.Idx → α) (e : Fin 600000) (z : Fin 1) :
    broadcastInDim S600000x1 ![0] bcast_S600000_S600000x1_0 v (ix2 e z) = v (ix1 e) :=
  broadcastInDim_apply _ _ v (ix2 e z) (ix1 e) (fun a => by
    obtain rfl : a = 0 := Subsingleton.elim _ _
    exact (if_neg (show ¬ (S600000.size 0 = 1) by decide)).symm)

theorem colrow_apply {α : Type} (v : S600000x1.Idx → α) (e : Fin 600000) (k : Fin 128) :
    broadcastInDim S600000x128 ![0, 1] bcast_S600000x1_S600000x128_0_1 v (ix2 e k) = v (ix2 e 0) :=
  broadcastInDim_apply _ _ v (ix2 e k) (ix2 e 0) (fun a => by
    match a with
    | ⟨0, _⟩ => exact (if_neg (show ¬ (S600000x1.size 0 = 1) by decide)).symm
    | ⟨1, _⟩ => exact (if_pos (show S600000x1.size 1 = 1 by decide)).symm)

theorem row_eq {α : Type} (v : S128.Idx → α) :
    shapeCast S1x128 v shapeCasts_S128_S1x128 = fun y => v (ix1 (y 1)) :=
  funext fun y => (congrArg (shapeCast S1x128 v shapeCasts_S128_S1x128) (eq_ix2 y)).trans
    (shapeCast_a_1a_apply v shapeCasts_S128_S1x128 (y 0) (y 1))

theorem nodecol_eq {α : Type} (v : S50000.Idx → α) :
    shapeCast S50000x1 v shapeCasts_S50000_S50000x1 = fun y => v (ix1 (y 0)) :=
  funext fun y => shapeCast_apply v shapeCasts_S50000_S50000x1 y (ix1 (y 0)) (by
    have h1 : (y 1).val = 0 := by have h : (y 1).val < 1 := (y 1).isLt; omega
    rw [Shape.rowMajor_val_two, Shape.rowMajor_val_one]
    show (y 0).val = (y 0).val * 1 + (y 1).val
    rw [h1, Nat.mul_one, Nat.add_zero])

/-- An edge word as a one-column index array, a negative word wrapped round by the number of nodes first. -/
def wrapW (s : (⟨S600000, .i32⟩ : BufTy).Contents (Elt Ideal)) : (⟨S600000x1, .i32⟩ : BufTy).Contents (Elt Ideal) :=
  broadcastInDim S600000x1 ![0] bcast_S600000_S600000x1_0
    (select (cmpi CmpIPredicate.slt s (broadcastInDim S600000 ![] bcast_S_S600000 (constantI S_ 32 0#32)))
      (addi s (broadcastInDim S600000 ![] bcast_S_S600000 (constantI S_ 32 50000#32))) s)

/-- The updates of one aggregation: each edge's source row times the edge's normalisation. -/
def updTerm (xb : (⟨S50000x128, .bf16⟩ : BufTy).Contents (Elt Ideal)) (s : (⟨S600000, .i32⟩ : BufTy).Contents (Elt Ideal)) (n : (⟨S600000, .f32⟩ : BufTy).Contents (Elt Ideal)) :
    (⟨S600000x128, .f32⟩ : BufTy).Contents (Elt Ideal) :=
  mulf (F := Ideal)
    (extf (F := Ideal) FTy.f32 (Host.gather gather_S50000x128_S600000x1_S600000x128_1_0_n_n_0_1_1128 xb (wrapW s)) bitsLt_bf16_f32)
    (broadcastInDim S600000x128 ![0, 1] bcast_S600000x1_S600000x128_0_1
      (broadcastInDim S600000x1 ![0] bcast_S600000_S600000x1_0 n))

theorem upd_apply (xb : (⟨S50000x128, .bf16⟩ : BufTy).Contents (Elt Ideal)) (s : (⟨S600000, .i32⟩ : BufTy).Contents (Elt Ideal)) (n : (⟨S600000, .f32⟩ : BufTy).Contents (Elt Ideal))
    (e : Fin 600000) (k : Fin 128) :
    updTerm xb s n (ix2 e k) = xb (ix2 (gatherRow (s (ix1 e))) k) * n (ix1 e) := by
  unfold updTerm wrapW
  rw [mulf_apply, extf_apply, colrow_apply, col_apply]
  congr 1
  show Host.gather (Cert.LibIndex.rowsGather 50000 600000 128 gather_S50000x128_S600000x1_S600000x128_1_0_n_n_0_1_1128_wf) xb _ (ix2 e k) = _
  rw [Cert.LibIndex.gather_rows_apply (by decide)]
  refine congrArg (fun r => xb (ix2 r k)) ?_
  rw [Cert.LibIndex.gatherRow_eq]
  refine Fin.ext ?_
  show min _ _ = min _ _
  rw [col_apply]
  rfl

/-- One aggregation stretch: the updates added, from zero, into the rows the target words name. -/
def aggTerm (xb : (⟨S50000x128, .bf16⟩ : BufTy).Contents (Elt Ideal)) (s d : (⟨S600000, .i32⟩ : BufTy).Contents (Elt Ideal)) (n : (⟨S600000, .f32⟩ : BufTy).Contents (Elt Ideal)) :
    (⟨S50000x128, .f32⟩ : BufTy).Contents (Elt Ideal) :=
  Host.scatterAdd (F := Ideal) (φ := .f32) scatter_S50000x128_S600000x1_S600000x128_1_0_0_1
    (broadcastInDim S50000x128 ![] bcast_S_S50000x128 (constant (F := Ideal) S_ FTy.f32 0#32))
    (broadcastInDim S600000x1 ![0] bcast_S600000_S600000x1_0 d) (updTerm xb s n)

theorem zero_apply (i : Fin 50000) (k : Fin 128) :
    broadcastInDim S50000x128 ![] bcast_S_S50000x128 (constant (F := Ideal) S_ FTy.f32 0#32) (ix2 i k) = cZero := rfl

theorem scatterAdd_eq (x : (⟨S50000x128, .f32⟩ : BufTy).Contents (Elt Ideal)) (idx : (⟨S600000x1, .i32⟩ : BufTy).Contents (Elt Ideal))
    (upd : (⟨S600000x128, .f32⟩ : BufTy).Contents (Elt Ideal)) :
    Host.scatterAdd (F := Ideal) (φ := .f32) scatter_S50000x128_S600000x1_S600000x128_1_0_0_1 x idx upd =
      Ideal.hostScatterAdd (Cert.LibIndex.rowsScatter 50000 600000 128 scatter_S50000x128_S600000x1_S600000x128_1_0_0_1_wf) x idx upd := rfl

theorem scatterAdd_apply (x : (⟨S50000x128, .f32⟩ : BufTy).Contents (Elt Ideal)) (idx : (⟨S600000x1, .i32⟩ : BufTy).Contents (Elt Ideal))
    (upd : (⟨S600000x128, .f32⟩ : BufTy).Contents (Elt Ideal)) (i : Fin 50000) (k : Fin 128) :
    Host.scatterAdd (F := Ideal) (φ := .f32) scatter_S50000x128_S600000x1_S600000x128_1_0_0_1 x idx upd (ix2 i k) =
      x (ix2 i k) + ∑ e ∈ Finset.univ.filter (fun e : Fin 600000 => scatterRow 50000 (idx (ix2 e 0)) = some i), upd (ix2 e k) := by
  rw [scatterAdd_eq]
  exact Cert.LibIndex.scatterAdd_rows_apply _ x idx upd i k

theorem aggTerm_apply (xb : (⟨S50000x128, .bf16⟩ : BufTy).Contents (Elt Ideal)) (s d : (⟨S600000, .i32⟩ : BufTy).Contents (Elt Ideal))
    (n : (⟨S600000, .f32⟩ : BufTy).Contents (Elt Ideal)) (i : Fin 50000) (k : Fin 128) :
    aggTerm xb s d n (ix2 i k) = aggFrom xb s d n i k := by
  unfold aggTerm aggFrom
  rw [scatterAdd_apply, zero_apply]
  refine congrArg (fun t => cZero + t) ?_
  refine Finset.sum_congr (Finset.filter_congr (fun e _ => ?_)) (fun e _ => upd_apply xb s n e k)
  rw [col_apply]

theorem aggTerm_eq (xb : (⟨S50000x128, .bf16⟩ : BufTy).Contents (Elt Ideal)) (s d : (⟨S600000, .i32⟩ : BufTy).Contents (Elt Ideal))
    (n : (⟨S600000, .f32⟩ : BufTy).Contents (Elt Ideal)) :
    aggTerm xb s d n = fun y => aggFrom xb s d n (y 0) (y 1) := by
  funext y
  exact (congrArg (aggTerm xb s d n) (eq_ix2 y)).trans (aggTerm_apply xb s d n (y 0) (y 1))

variable (W : Valuation τ sig (Elt Ideal))

theorem v64_eq :
    StableHlo.after (hostOps1 (F := Ideal)) W (Proc.devRef .tc main_v64) =
      fun (y : S50000x128.Idx) => aggFrom (W (Proc.devRef .tc main_v50_1)) (W (Proc.devRef .tc main_v2))
        (W (Proc.devRef .tc main_v4)) (W (Proc.devRef .tc main_v29)) (y 0) (y 1) := by
  dsimp only [hostOps1]
  after_results_simp
  exact aggTerm_eq _ _ _ _

theorem v65_eq :
    StableHlo.after (hostOps1 (F := Ideal)) W (Proc.devRef .tc main_v65) =
      fun (y : S1x128.Idx) => W (Proc.devRef .tc main_arg8) (ix1 (y 1)) := by
  dsimp only [hostOps1]
  after_results_simp
  exact row_eq _

theorem v66_eq :
    StableHlo.after (hostOps1 (F := Ideal)) W (Proc.devRef .tc main_v66) =
      fun (y : S1x128.Idx) => W (Proc.devRef .tc main_arg9) (ix1 (y 1)) := by
  dsimp only [hostOps1]
  after_results_simp
  exact row_eq _

theorem v67_eq :
    StableHlo.after (hostOps1 (F := Ideal)) W (Proc.devRef .tc main_v67) =
      fun (y : S1x128.Idx) => W (Proc.devRef .tc main_arg10) (ix1 (y 1)) := by
  dsimp only [hostOps1]
  after_results_simp
  exact row_eq _

theorem v82_eq :
    StableHlo.after (hostOps2 (F := Ideal)) W (Proc.devRef .tc main_v82) =
      fun (y : S50000x128.Idx) => aggFrom (W (Proc.devRef .tc main_v68_1)) (W (Proc.devRef .tc main_v2))
        (W (Proc.devRef .tc main_v4)) (W (Proc.devRef .tc main_v29)) (y 0) (y 1) := by
  dsimp only [hostOps2]
  after_results_simp
  exact aggTerm_eq _ _ _ _

theorem v83_eq :
    StableHlo.after (hostOps2 (F := Ideal)) W (Proc.devRef .tc main_v83) =
      fun (y : S1x128.Idx) => W (Proc.devRef .tc main_arg12) (ix1 (y 1)) := by
  dsimp only [hostOps2]
  after_results_simp
  exact row_eq _

theorem v84_eq :
    StableHlo.after (hostOps2 (F := Ideal)) W (Proc.devRef .tc main_v84) =
      fun (y : S1x128.Idx) => W (Proc.devRef .tc main_arg13) (ix1 (y 1)) := by
  dsimp only [hostOps2]
  after_results_simp
  exact row_eq _

theorem v85_eq :
    StableHlo.after (hostOps2 (F := Ideal)) W (Proc.devRef .tc main_v85) =
      fun (y : S1x128.Idx) => W (Proc.devRef .tc main_arg14) (ix1 (y 1)) := by
  dsimp only [hostOps2]
  after_results_simp
  exact row_eq _

theorem v87_eq :
    StableHlo.after (hostOps3 (F := Ideal)) W (Proc.devRef .tc main_v87) =
      fun (y : S50000x1.Idx) => W (Proc.devRef .tc main_arg2) (ix1 (y 0)) := by
  dsimp only [hostOps3]
  after_results_simp
  exact nodecol_eq _

end Cert.KernelIdeal.HostVal

end
-- ==== Proof.KI.HostVal0b.lean ====
import proofs.«411758_j88313117540961_2_alg».proof.Proof.KI.HostVal1

set_option maxRecDepth 16384

noncomputable section

namespace Cert.KernelIdeal.HostVal

open Cert.KernelIdeal Cert.KernelIdeal.Gen Cert.Spec Idealize.ShloMosaic Idealize.ShloMosaic.ValueIdx
/-- The per-edge normalisation from a vector over the nodes: its entries at the two nodes an edge's words name, multiplied. -/
def normFrom (dv : SN.Idx → EReal) (srcw dstw : SE.Idx → BitVec 32) : SE.Idx → EReal :=
  fun y => dv (ix1 (gatherRow (srcw (ix1 (y 0))))) * dv (ix1 (gatherRow (dstw (ix1 (y 0)))))

def selfFrom (dv : SN.Idx → EReal) : SN1.Idx → EReal :=
  fun y => dv (ix1 (y 0)) * dv (ix1 (y 0))

/-- A vector over the nodes looked up at the node an edge's word names. -/
def lookTerm (dv : (⟨S50000, .f32⟩ : BufTy).Contents (Elt Ideal)) (s : (⟨S600000, .i32⟩ : BufTy).Contents (Elt Ideal)) : (⟨S600000, .f32⟩ : BufTy).Contents (Elt Ideal) :=
  Host.gather gather_S50000_S600000x1_S600000_n_0_n_n_0_1_1 dv (wrapW s)

theorem lookup_apply (dv : (⟨S50000, .f32⟩ : BufTy).Contents (Elt Ideal)) (s : (⟨S600000, .i32⟩ : BufTy).Contents (Elt Ideal)) (e : Fin 600000) :
    lookTerm dv s (ix1 e) = dv (ix1 (gatherRow (s (ix1 e)))) := by
  unfold lookTerm wrapW
  show Host.gather (Cert.LibIndex.vecGather 50000 600000 gather_S50000_S600000x1_S600000_n_0_n_n_0_1_1_wf) dv _ (ix1 e) = _
  rw [Cert.LibIndex.gather_vec_apply (by decide)]
  refine congrArg (fun r => dv (ix1 r)) ?_
  rw [Cert.LibIndex.gatherRow_eq]
  refine Fin.ext ?_
  show min _ _ = min _ _
  rw [col_apply]
  rfl

def normTerm (dv : (⟨S50000, .f32⟩ : BufTy).Contents (Elt Ideal)) (s d : (⟨S600000, .i32⟩ : BufTy).Contents (Elt Ideal)) : (⟨S600000, .f32⟩ : BufTy).Contents (Elt Ideal) :=
  mulf (F := Ideal) (φ := .f32) (lookTerm dv s) (lookTerm dv d)

theorem normTerm_eq (dv : (⟨S50000, .f32⟩ : BufTy).Contents (Elt Ideal)) (s d : (⟨S600000, .i32⟩ : BufTy).Contents (Elt Ideal)) :
    normTerm dv s d = normFrom dv s d := by
  funext y
  obtain ⟨e, rfl⟩ : ∃ e, y = ix1 e := ⟨y 0, eq_ix1 y⟩
  unfold normTerm
  rw [mulf_apply, lookup_apply, lookup_apply]
  rfl

/-- On the extended reals narrowing the features to 16 bits changes no entry. -/
theorem agg0Term_eq (x0 : (⟨S50000x128, .f32⟩ : BufTy).Contents (Elt Ideal)) (dv : (⟨S50000, .f32⟩ : BufTy).Contents (Elt Ideal))
    (s d : (⟨S600000, .i32⟩ : BufTy).Contents (Elt Ideal)) :
    aggTerm (truncf (F := Ideal) .bf16 x0 bitsLt_bf16_f32) s d (normTerm dv s d) =
      fun y => aggFrom x0 s d (normFrom dv s d) (y 0) (y 1) := by
  rw [aggTerm_eq, normTerm_eq]
  rfl

variable (W : Valuation τ sig (Elt Ideal))

theorem v29_eq :
    StableHlo.after (hostOps0_2 (F := Ideal)) W (Proc.devRef .tc main_v29) =
      normFrom (W (Proc.devRef .tc main_v14)) (W (Proc.devRef .tc main_v2)) (W (Proc.devRef .tc main_v4)) := by
  dsimp only [hostOps0_2]
  after_results_simp
  exact normTerm_eq _ _ _

theorem v31_eq :
    StableHlo.after (hostOps0_2 (F := Ideal)) W (Proc.devRef .tc main_v31) =
      selfFrom (W (Proc.devRef .tc main_v14)) := by
  dsimp only [hostOps0_2]
  after_results_simp
  exact nodecol_eq _

theorem v46_eq :
    StableHlo.after (hostOps0_2 (F := Ideal)) W (Proc.devRef .tc main_v46) =
      fun (y : S50000x128.Idx) => aggFrom (W (Proc.devRef .tc main_arg0)) (W (Proc.devRef .tc main_v2)) (W (Proc.devRef .tc main_v4))
        (normFrom (W (Proc.devRef .tc main_v14)) (W (Proc.devRef .tc main_v2)) (W (Proc.devRef .tc main_v4))) (y 0) (y 1) := by
  dsimp only [hostOps0_2]
  after_results_simp
  exact agg0Term_eq _ _ _ _

theorem v47_eq :
    StableHlo.after (hostOps0_2 (F := Ideal)) W (Proc.devRef .tc main_v47) =
      fun (y : S1x128.Idx) => W (Proc.devRef .tc main_arg4) (ix1 (y 1)) := by
  dsimp only [hostOps0_2]
  after_results_simp
  exact row_eq _

theorem v48_eq :
    StableHlo.after (hostOps0_2 (F := Ideal)) W (Proc.devRef .tc main_v48) =
      fun (y : S1x128.Idx) => W (Proc.devRef .tc main_arg5) (ix1 (y 1)) := by
  dsimp only [hostOps0_2]
  after_results_simp
  exact row_eq _

theorem v49_eq :
    StableHlo.after (hostOps0_2 (F := Ideal)) W (Proc.devRef .tc main_v49) =
      fun (y : S1x128.Idx) => W (Proc.devRef .tc main_arg6) (ix1 (y 1)) := by
  dsimp only [hostOps0_2]
  after_results_simp
  exact row_eq _

end Cert.KernelIdeal.HostVal

end
-- ==== Proof.KI.HostVal0.lean ====
import proofs.«411758_j88313117540961_2_alg».proof.Proof.KI.HostVal0b

noncomputable section

namespace Cert.KernelIdeal.HostVal

open Cert.KernelIdeal Cert.KernelIdeal.Gen Cert.Spec Idealize.ShloMosaic Idealize.ShloMosaic.ValueIdx

theorem row_read (k : ℕ) (hk : k < 2) (x : S2x600000.Idx → BitVec 32) (h : S2x600000.Slices ![k, 0] S1x600000) :
    (shapeCast S600000 (extractStridedSlice S1x600000 ![k, 0] x h) shapeCasts_S1x600000_S600000
      : S600000.Idx → BitVec 32) = fun y => x (ix2 ⟨k, hk⟩ (y 0)) := by
  funext y
  refine (shapeCast_apply _ shapeCasts_S1x600000_S600000 y (ix2 0 (y 0)) ?_).trans ?_
  · rewrite [Shape.rowMajor_val_two, Shape.rowMajor_val_one]; show 0 * 600000 + (y 0).val = (y 0).val; omega
  · exact extractStridedSlice_apply ![k, 0] x h (ix2 0 (y 0)) (ix2 ⟨k, hk⟩ (y 0)) (fun a => match a with
      | ⟨0, _⟩ => by show k = k + 0; omega
      | ⟨1, _⟩ => by show (y 0).val = 0 + (y 0).val; omega)

theorem concat_iota_read (a : S600000.Idx → BitVec 32) (c : S650000.Idx) :
    (concatenate S650000 0 [⟨S600000, a⟩, ⟨S50000, (iotaInDim S50000 32 0 : S50000.Idx → BitVec 32)⟩]
      concatenates_S600000_S50000_S650000_d0 : S650000.Idx → BitVec 32) c
      = if h : (c 0).val < 600000 then a (ix1 ⟨(c 0).val, h⟩) else BitVec.ofNat 32 ((c 0).val - 600000) := by
  by_cases h : (c 0).val < 600000
  · rw [dif_pos h]
    exact concatenate_pair_apply_left 0 a _ concatenates_S600000_S50000_S650000_d0 c rfl (ix1 ⟨(c 0).val, h⟩)
      (fun b => match b with | ⟨0, _⟩ => rfl)
  · rw [dif_neg h]
    have hc : (c 0).val < 650000 := (c 0).isLt
    refine (concatenate_pair_apply_right 0 a _ concatenates_S600000_S50000_S650000_d0 c rfl rfl
      (ix1 ⟨(c 0).val - 600000, by omega⟩) (fun b => match b with | ⟨0, _⟩ => fun hb => absurd rfl hb) ?_).trans rfl
    show (c 0).val - 600000 + 600000 = (c 0).val
    omega

theorem col650_read {α : Type} (d : S650000.Idx → α) (e : Fin 650000) :
    (broadcastInDim S650000x1 ![0] bcast_S650000_S650000x1_0 d : S650000x1.Idx → α) (ix2 e 0) = d (ix1 e) :=
  broadcastInDim_apply _ bcast_S650000_S650000x1_0 d (ix2 e 0) (ix1 e) (fun a => match a with
    | ⟨0, _⟩ => by show e.val = if (650000 : Nat) = 1 then 0 else e.val; rw [if_neg (by omega)])

theorem select_ogt {α : Type} (p q : EReal) (a b : α) :
    Scalar.select (Ideal.cmp .ogt p q) a b = if q < p then a else b := by
  unfold Scalar.select Ideal.cmp
  by_cases h : q < p <;> simp [h]

def dstF (x : S2x600000.Idx → BitVec 32) : S650000.Idx → BitVec 32 :=
  concatenate S650000 0
    [⟨S600000, shapeCast S600000 (extractStridedSlice S1x600000 ![1, 0] x slices_S2x600000_S1x600000_1_0) shapeCasts_S1x600000_S600000⟩,
      ⟨S50000, iotaInDim S50000 32 0⟩] concatenates_S600000_S50000_S650000_d0

theorem dstF_read (x : S2x600000.Idx → BitVec 32) (e : Fin 650000) : dstF x (ix1 e) = dstW x e := by
  unfold dstF
  rw [row_read 1 (by decide) x slices_S2x600000_S1x600000_1_0]
  exact (concat_iota_read _ (ix1 e)).trans rfl

theorem scatter650_read (x : S50000.Idx → EReal) (idx : S650000x1.Idx → BitVec 32) (upd : S650000.Idx → EReal) (i : Fin 50000) :
    (Host.scatterAdd (F := Ideal) (φ := .f32) scatter_S50000_S650000x1_S650000_n_0_0_1 x idx upd : S50000.Idx → EReal) (ix1 i)
      = x (ix1 i) + ∑ e ∈ Finset.univ.filter (fun e : Fin 650000 => scatterRow 50000 (idx (ix2 e 0)) = some i), upd (ix1 e) := by
  unfold Host.scatterAdd
  rw [show scatter_S50000_S650000x1_S650000_n_0_0_1 = Cert.LibIndex.vecScatter 50000 650000 scatter_S50000_S650000x1_S650000_n_0_0_1_wf from rfl]
  exact Cert.LibIndex.scatterAdd_vec_apply _ x idx upd i

theorem deg_read (d6 : S650000.Idx → BitVec 32) (i : Fin 50000) :
    (Host.scatterAdd (F := Ideal) (φ := .f32) scatter_S50000_S650000x1_S650000_n_0_0_1
      (broadcastInDim S50000 ![] bcast_S_S50000 (constant (F := Ideal) S_ .f32 0x00000000#32))
      (broadcastInDim S650000x1 ![0] bcast_S650000_S650000x1_0 d6)
      (broadcastInDim S650000 ![] bcast_S_S650000 (constant (F := Ideal) S_ .f32 0x3F800000#32)) : S50000.Idx → EReal) (ix1 i)
    = cZero + ∑ e ∈ Finset.univ.filter (fun e : Fin 650000 => scatterRow 50000 (d6 (ix1 e)) = some i), cOne := by
  refine (scatter650_read _ _ _ i).trans ?_
  refine congrArg₂ (· + ·) rfl (Finset.sum_congr (Finset.filter_congr fun e _ => ?_) fun e _ => rfl)
  rw [col650_read]

def degF (x : S2x600000.Idx → BitVec 32) : S50000.Idx → EReal :=
  Host.scatterAdd (F := Ideal) (φ := .f32) scatter_S50000_S650000x1_S650000_n_0_0_1
    (broadcastInDim S50000 ![] bcast_S_S50000 (constant (F := Ideal) S_ .f32 0x00000000#32))
    (broadcastInDim S650000x1 ![0] bcast_S650000_S650000x1_0 (dstF x))
    (broadcastInDim S650000 ![] bcast_S_S650000 (constant (F := Ideal) S_ .f32 0x3F800000#32))

theorem degF_read (x : S2x600000.Idx → BitVec 32) (i : Fin 50000) : degF x (ix1 i) = deg x i := by
  unfold degF deg
  refine (deg_read _ i).trans ?_
  refine congrArg₂ (· + ·) rfl (Finset.sum_congr (Finset.filter_congr fun e _ => ?_) fun e _ => rfl)
  rw [dstF_read]

theorem dinv_read (dg : S50000.Idx → EReal) (y : S50000.Idx) :
    (select (α := EReal) (cmpf (F := Ideal) (φ := .f32) .ogt dg (broadcastInDim S50000 ![] bcast_S_S50000 (constant (F := Ideal) S_ .f32 0x00000000#32)))
      (Host.rsqrt (F := Ideal) (φ := .f32) dg)
      (broadcastInDim S50000 ![] bcast_S_S50000 (id (constant (F := Ideal) S_ .f32 0x00000000#32))) : S50000.Idx → EReal) y
      = if cZero < dg y then Ideal.rsqrt (dg y) else cZero := by
  show Scalar.select (Ideal.cmp .ogt (dg y) cZero) (Ideal.rsqrt (dg y)) cZero = _
  exact select_ogt _ _ _ _

def dinvF (x : S2x600000.Idx → BitVec 32) : S50000.Idx → EReal :=
  select (α := EReal) (cmpf (F := Ideal) (φ := .f32) .ogt (degF x) (broadcastInDim S50000 ![] bcast_S_S50000 (constant (F := Ideal) S_ .f32 0x00000000#32)))
    (Host.rsqrt (F := Ideal) (φ := .f32) (degF x))
    (broadcastInDim S50000 ![] bcast_S_S50000 (id (constant (F := Ideal) S_ .f32 0x00000000#32)))

theorem dinvF_eq (x : S2x600000.Idx → BitVec 32) : dinvF x = fun y => dinv x (y 0) := by
  funext y
  obtain ⟨i, rfl⟩ : ∃ i, y = ix1 i := ⟨y 0, eq_ix1 y⟩
  unfold dinvF dinv
  rw [dinv_read, degF_read]

variable (W : Valuation τ sig (Elt Ideal))

theorem A_v2 : StableHlo.after (hostOps0 (F := Ideal)) W (Proc.devRef .tc main_v2)
    = (fun y => (W (Proc.devRef .tc main_arg1) : S2x600000.Idx → BitVec 32) (ix2 0 (y 0)) : S600000.Idx → BitVec 32) := by
  after_results
  exact row_read 0 (by decide) _ _

theorem A_v4 : StableHlo.after (hostOps0 (F := Ideal)) W (Proc.devRef .tc main_v4)
    = (fun y => (W (Proc.devRef .tc main_arg1) : S2x600000.Idx → BitVec 32) (ix2 1 (y 0)) : S600000.Idx → BitVec 32) := by
  after_results
  exact row_read 1 (by decide) _ _

theorem A_v12 : StableHlo.after (hostOps0 (F := Ideal)) W (Proc.devRef .tc main_v12)
    = (cmpf (F := Ideal) (φ := .f32) .ogt (degF (W (Proc.devRef .tc main_arg1)))
        (broadcastInDim S50000 ![] bcast_S_S50000 (constant (F := Ideal) S_ .f32 0x00000000#32)) : S50000.Idx → BitVec 1) := by
  after_results
  rfl

theorem A_v13 : StableHlo.after (hostOps0 (F := Ideal)) W (Proc.devRef .tc main_v13)
    = (Host.rsqrt (F := Ideal) (φ := .f32) (degF (W (Proc.devRef .tc main_arg1))) : S50000.Idx → EReal) := by
  after_results
  rfl

theorem A_cst2 : StableHlo.after (hostOps0 (F := Ideal)) W (Proc.devRef .tc main_cst_2)
    = (constant (F := Ideal) S_ .f32 0x00000000#32 : S_.Idx → EReal) := by
  after_results
  first | done | rfl

theorem B_v14 : StableHlo.after (hostOps0_1 (F := Ideal)) W (Proc.devRef .tc main_v14)
    = (select (α := EReal) (W (Proc.devRef .tc main_v12)) (W (Proc.devRef .tc main_v13))
        (broadcastInDim S50000 ![] bcast_S_S50000 (id (W (Proc.devRef .tc main_cst_2)))) : S50000.Idx → EReal) := by
  after_results
  rfl

/-- After the first two stretches the select's result is the inverse square root of the degree where positive. -/
theorem dinv_eq : StableHlo.after (hostOps0_1 (F := Ideal)) (StableHlo.after (hostOps0 (F := Ideal)) W) (Proc.devRef .tc main_v14)
    = (fun y => dinv (W (Proc.devRef .tc main_arg1)) (y 0) : S50000.Idx → EReal) := by
  rw [B_v14, A_v12, A_v13, A_cst2]
  exact dinvF_eq _

end Cert.KernelIdeal.HostVal

end
-- ==== Proof.AlgPool.lean ====
import proofs.«411758_j88313117540961_2_alg».proof.Proof.Spec
import Idealize.ShloMosaic.PureOps.Ideal
import Idealize.ShloMosaic.Lib.ValueIdx
import Mathlib.Algebra.BigOperators.Group.Finset.Basic
import Mathlib.Data.EReal.Inv

noncomputable section

namespace Cert.Alg

open Cert.Spec
open Idealize.ShloMosaic Idealize.ShloMosaic.ValueIdx

theorem eq_ofNat_iff_scatterRow (w : BitVec 32) (gI : Fin 128) :
    w = BitVec.ofNat 32 gI.val ↔ scatterRow 128 w = some gI := by
  have hg := gI.isLt
  have hw := w.isLt
  have hInt := BitVec.toInt_eq_toNat_cond w
  rw [← BitVec.toNat_inj, BitVec.toNat_ofNat, Nat.mod_eq_of_lt (by omega)]
  unfold scatterRow
  split
  · rw [Option.some.injEq, Fin.ext_iff]
    show w.toNat = gI.val ↔ w.toInt.toNat = gI.val
    split at hInt <;> omega
  · simp only [reduceCtorEq, iff_false]
    split at hInt <;> omega

theorem oneHot_eq (w : BitVec 32) (gI : Fin 128) :
    oneHot w gI = if scatterRow 128 w = some gI then 1 else 0 := by
  unfold oneHot
  by_cases h : w = BitVec.ofNat 32 gI.val
  · rw [if_pos h, if_pos ((eq_ofNat_iff_scatterRow w gI).mp h)]
  · rw [if_neg h, if_neg (fun h' => h ((eq_ofNat_iff_scatterRow w gI).mpr h'))]

theorem sum_oneHot_mul (batch : SN.Idx → BitVec 32) (gI : Fin 128) (f : Fin 50000 → EReal) :
    (∑ n : Fin 50000, oneHot (batch (ix1 n)) gI * f n)
      = ∑ n ∈ Finset.univ.filter (fun n : Fin 50000 => scatterRow 128 (batch (ix1 n)) = some gI), f n := by
  rw [Finset.sum_filter]
  refine Finset.sum_congr rfl (fun n _ => ?_)
  rw [oneHot_eq]
  by_cases h : scatterRow 128 (batch (ix1 n)) = some gI
  · rw [if_pos h, if_pos h, one_mul]
  · rw [if_neg h, if_neg h, zero_mul]

theorem sum_oneHot (batch : SN.Idx → BitVec 32) (gI : Fin 128) :
    (∑ n : Fin 50000, oneHot (batch (ix1 n)) gI)
      = ∑ n ∈ Finset.univ.filter (fun n : Fin 50000 => scatterRow 128 (batch (ix1 n)) = some gI), (1 : EReal) := by
  simpa only [mul_one] using sum_oneHot_mul batch gI fun _ => 1

theorem poolK_eq_poolR (x : SND.Idx → EReal) (batch : SN.Idx → BitVec 32) (h0 : cZero = 0) (h1 : cOne = 1) :
    poolK x batch = poolR x batch := by
  funext y
  show poolKAt x batch (y 0) (y 1) = poolRAt x batch (y 0) (y 1)
  unfold poolKAt poolRAt
  rw [h0, h1, zero_add, zero_add,
    sum_oneHot_mul batch (y 0) (fun n => x (ix2 n (y 1))), sum_oneHot batch (y 0)]

theorem poolArr_eq_poolK (x : SND.Idx → EReal) (batch : SN.Idx → BitVec 32) :
    poolArr x (fun y => batch (ix1 (y 0))) = poolK x batch := by
  funext y
  rfl

theorem kernelOut_eq_refOut_of
    (preK_eq_preR : ∀ {x : SND.Idx → EReal} {W : SDD.Idx → EReal} {b : SD.Idx → EReal} (edge : S2E.Idx → BitVec 32),
      IsReal x → IsReal W → (∀ i, ∃ r : ℝ, dinv edge i = (r : EReal)) → cZero = 0 →
      preK x W b edge = preR x W b edge)
    (layerK_real : ∀ {x : SND.Idx → EReal} {W : SDD.Idx → EReal} {b g be : SD.Idx → EReal}
      (edge : S2E.Idx → BitVec 32),
      IsReal x → IsReal W → IsReal b → IsReal g → IsReal be → IsReal (layerK x edge W b g be))
    (dinv_real : ∀ (edge : S2E.Idx → BitVec 32) (i : Fin 50000), ∃ r : ℝ, dinv edge i = (r : EReal))
    (h0 : cZero = 0) (h1 : cOne = 1)
    {x : SND.Idx → EReal} {edge : S2E.Idx → BitVec 32} {batch : SN.Idx → BitVec 32}
    {W0 : SDD.Idx → EReal} {b0 g0 be0 : SD.Idx → EReal} {W1 : SDD.Idx → EReal} {b1 g1 be1 : SD.Idx → EReal}
    {W2 : SDD.Idx → EReal} {b2 g2 be2 : SD.Idx → EReal}
    (hx : IsReal x)
    (hW0 : IsReal W0) (hb0 : IsReal b0) (hg0 : IsReal g0) (hbe0 : IsReal be0)
    (hW1 : IsReal W1) (hb1 : IsReal b1) (hg1 : IsReal g1) (hbe1 : IsReal be1)
    (hW2 : IsReal W2) (_hb2 : IsReal b2) (_hg2 : IsReal g2) (_hbe2 : IsReal be2) :
    kernelOut x edge batch W0 b0 g0 be0 W1 b1 g1 be1 W2 b2 g2 be2
      = refOut x edge batch W0 b0 g0 be0 W1 b1 g1 be1 W2 b2 g2 be2 := by
  have layer_eq : ∀ {z : SND.Idx → EReal} {W : SDD.Idx → EReal} {b g be : SD.Idx → EReal},
      IsReal z → IsReal W → layerK z edge W b g be = layerR z edge W b g be := by
    intro z W b g be hz hW
    unfold layerK layerR
    rw [preK_eq_preR edge hz hW (dinv_real edge) h0]
  have r1 : IsReal (layerK x edge W0 b0 g0 be0) := layerK_real edge hx hW0 hb0 hg0 hbe0
  have r2 : IsReal (layerK (layerK x edge W0 b0 g0 be0) edge W1 b1 g1 be1) :=
    layerK_real edge r1 hW1 hb1 hg1 hbe1
  have e1 : layerK x edge W0 b0 g0 be0 = layerR x edge W0 b0 g0 be0 := layer_eq hx hW0
  have e2 : layerK (layerK x edge W0 b0 g0 be0) edge W1 b1 g1 be1
      = layerR (layerK x edge W0 b0 g0 be0) edge W1 b1 g1 be1 := layer_eq r1 hW1
  have e3 : layerK (layerK (layerK x edge W0 b0 g0 be0) edge W1 b1 g1 be1) edge W2 b2 g2 be2
      = layerR (layerK (layerK x edge W0 b0 g0 be0) edge W1 b1 g1 be1) edge W2 b2 g2 be2 := layer_eq r2 hW2
  unfold kernelOut refOut
  rw [poolK_eq_poolR _ _ h0 h1, e3, e2, e1]

end Cert.Alg

end
-- ==== Proof.KI.Value.lean ====
import proofs.«411758_j88313117540961_2_alg».proof.Proof.KI.Run
import proofs.«411758_j88313117540961_2_alg».proof.Proof.KI.FusedVal0
import proofs.«411758_j88313117540961_2_alg».proof.Proof.KI.FusedVal1
import proofs.«411758_j88313117540961_2_alg».proof.Proof.KI.FusedVal2
import proofs.«411758_j88313117540961_2_alg».proof.Proof.KI.PoolArr
import proofs.«411758_j88313117540961_2_alg».proof.Proof.KI.HostVal0
import proofs.«411758_j88313117540961_2_alg».proof.Proof.AlgPool

set_option maxRecDepth 16384

noncomputable section

namespace Cert.KernelIdeal.HandVal

open Idealize.ShloMosaic Idealize.ShloMosaic.TcCoe Idealize.SL.Sem Idealize.ShloMosaic.ValueIdx
open Cert.KernelIdeal Cert.KernelIdeal.Gen Cert.KernelIdeal.Hand Cert.Spec

theorem layerK_eq_fusedArr (x : SND.Idx → EReal) (edge : S2E.Idx → BitVec 32) (W : SDD.Idx → EReal) (b g be : SD.Idx → EReal) :
    layerK x edge W b g be
      = fusedArr (fun y => aggK x edge (y 0) (y 1)) x (fun y => dinv edge (y 0) * dinv edge (y 0)) W
          (fun y => b (ix1 (y 1))) (fun y => g (ix1 (y 1))) (fun y => be (ix1 (y 1))) := by
  funext y
  obtain ⟨i, j, rfl⟩ : ∃ i j, y = ix2 i j := ⟨y 0, y 1, eq_ix2 y⟩
  rfl

section Chain

variable (m : (ℓ : Loc nD τ sig) → Buf (Elt Ideal) ℓ) (ρ : Dev nD → PrngReg) (c : Dev nD)

abbrev inp (r : Ref sig .tc) := W0 m ρ c (Proc.devRef .tc r)

abbrev edge : S2E.Idx → BitVec 32 := inp m ρ c main_arg1

abbrev X1 : SND.Idx → EReal := layerK (inp m ρ c main_arg0) (edge m ρ c) (inp m ρ c main_arg3) (inp m ρ c main_arg4) (inp m ρ c main_arg5) (inp m ρ c main_arg6)
abbrev X2 : SND.Idx → EReal := layerK (X1 m ρ c) (edge m ρ c) (inp m ρ c main_arg7) (inp m ρ c main_arg8) (inp m ρ c main_arg9) (inp m ρ c main_arg10)
abbrev X3 : SND.Idx → EReal := layerK (X2 m ρ c) (edge m ρ c) (inp m ρ c main_arg11) (inp m ρ c main_arg12) (inp m ρ c main_arg13) (inp m ρ c main_arg14)

abbrev K2 (r : Ref sig .tc) : Prop := r ∉ hostOps0_W ∧ r ∉ hostOps0_1_W
abbrev K3 (r : Ref sig .tc) : Prop := K2 r ∧ r ∉ hostOps0_2_W
abbrev K4 (r : Ref sig .tc) : Prop := K3 r ∧ ∀ w, Pipeline.arrRef spec0 w ≠ r
abbrev K5 (r : Ref sig .tc) : Prop := K4 r ∧ r ∉ hostOps1_W
abbrev K6 (r : Ref sig .tc) : Prop := K5 r ∧ ∀ w, Pipeline.arrRef spec1 w ≠ r
abbrev K7 (r : Ref sig .tc) : Prop := K6 r ∧ r ∉ hostOps2_W
abbrev K8 (r : Ref sig .tc) : Prop := K7 r ∧ ∀ w, Pipeline.arrRef spec2 w ≠ r

theorem W2_0 (r : Ref sig .tc) (h : K2 r) : W2 m ρ c (Proc.devRef .tc r) = inp m ρ c r :=
  (W2_of m ρ c r h.2).trans (W1_of m ρ c r h.1)
theorem W3_0 (r : Ref sig .tc) (h : K3 r) : W3 m ρ c (Proc.devRef .tc r) = inp m ρ c r :=
  (W3_of m ρ c r h.2).trans (W2_0 m ρ c r h.1)
theorem W4_0 (r : Ref sig .tc) (h : K4 r) : W4 m ρ c (Proc.devRef .tc r) = inp m ρ c r :=
  (W4_of_ne m ρ c r h.2).trans (W3_0 m ρ c r h.1)
theorem W5_0 (r : Ref sig .tc) (h : K5 r) : W5 m ρ c (Proc.devRef .tc r) = inp m ρ c r :=
  (W5_of m ρ c r h.2).trans (W4_0 m ρ c r h.1)
theorem W6_0 (r : Ref sig .tc) (h : K6 r) : W6 m ρ c (Proc.devRef .tc r) = inp m ρ c r :=
  (W6_of_ne m ρ c r h.2).trans (W5_0 m ρ c r h.1)
theorem W7_0 (r : Ref sig .tc) (h : K7 r) : W7 m ρ c (Proc.devRef .tc r) = inp m ρ c r :=
  (W7_of m ρ c r h.2).trans (W6_0 m ρ c r h.1)
theorem W8_0 (r : Ref sig .tc) (h : K8 r) : W8 m ρ c (Proc.devRef .tc r) = inp m ρ c r :=
  (W8_of_ne m ρ c r h.2).trans (W7_0 m ρ c r h.1)

theorem W6_3 (r : Ref sig .tc) (h : (∀ w, Pipeline.arrRef spec0 w ≠ r) ∧ r ∉ hostOps1_W ∧ ∀ w, Pipeline.arrRef spec1 w ≠ r) :
    W6 m ρ c (Proc.devRef .tc r) = W3 m ρ c (Proc.devRef .tc r) :=
  (W6_of_ne m ρ c r h.2.2).trans ((W5_of m ρ c r h.2.1).trans (W4_of_ne m ρ c r h.1))

theorem self_W5 : W5 m ρ c (Proc.devRef .tc main_v31) = W3 m ρ c (Proc.devRef .tc main_v31) :=
  (W5_of m ρ c main_v31 (by decide)).trans (W4_in m ρ c 2 rfl)
theorem self_W7 : W7 m ρ c (Proc.devRef .tc main_v31) = W3 m ρ c (Proc.devRef .tc main_v31) :=
  (W7_of m ρ c main_v31 (by decide)).trans ((W6_in m ρ c 2 rfl).trans (self_W5 m ρ c))

/-- What the stretches before the first region leave: the edge words, the normalisation, the self-loop scale, the aggregate, the rows. -/
theorem pre0 :
    W3 m ρ c (Proc.devRef .tc main_v2) = (fun y => (edge m ρ c) (ix2 0 (y 0)))
    ∧ W3 m ρ c (Proc.devRef .tc main_v4) = (fun y => (edge m ρ c) (ix2 1 (y 0)))
    ∧ W3 m ρ c (Proc.devRef .tc main_v29) = (fun y => normR (edge m ρ c) (y 0))
    ∧ W3 m ρ c (Proc.devRef .tc main_v31) = (fun y => dinv (edge m ρ c) (y 0) * dinv (edge m ρ c) (y 0))
    ∧ W3 m ρ c (Proc.devRef .tc main_v46) = (fun y => aggK (inp m ρ c main_arg0) (edge m ρ c) (y 0) (y 1))
    ∧ W3 m ρ c (Proc.devRef .tc main_v47) = (fun y => (inp m ρ c main_arg4 : SD.Idx → EReal) (ix1 (y 1)))
    ∧ W3 m ρ c (Proc.devRef .tc main_v48) = (fun y => (inp m ρ c main_arg5 : SD.Idx → EReal) (ix1 (y 1)))
    ∧ W3 m ρ c (Proc.devRef .tc main_v49) = (fun y => (inp m ρ c main_arg6 : SD.Idx → EReal) (ix1 (y 1))) := by
  have s2 : W2 m ρ c (Proc.devRef .tc main_v2) = _ := (W2_of m ρ c _ (by decide)).trans (HostVal.A_v2 _)
  have s4 : W2 m ρ c (Proc.devRef .tc main_v4) = _ := (W2_of m ρ c _ (by decide)).trans (HostVal.A_v4 _)
  have sd : W2 m ρ c (Proc.devRef .tc main_v14) = _ := HostVal.dinv_eq (W0 m ρ c)
  refine ⟨(W3_of m ρ c _ (by decide)).trans s2, (W3_of m ρ c _ (by decide)).trans s4, (HostVal.v29_eq _).trans ?_, (HostVal.v31_eq _).trans ?_,
    (HostVal.v46_eq _).trans ?_, (HostVal.v47_eq _).trans ?_, (HostVal.v48_eq _).trans ?_, (HostVal.v49_eq _).trans ?_⟩
  · rw [sd, s2, s4] <;> rfl
  · rw [sd] <;> rfl
  · rw [sd, s2, s4, W2_0 m ρ c main_arg0 (by decide)] <;> rfl
  · rw [W2_0 m ρ c main_arg4 (by decide)] <;> rfl
  · rw [W2_0 m ρ c main_arg5 (by decide)] <;> rfl
  · rw [W2_0 m ρ c main_arg6 (by decide)] <;> rfl

theorem out0 : W4 m ρ c (Proc.devRef .tc main_v50_0) = X1 m ρ c ∧ W4 m ρ c (Proc.devRef .tc main_v50_1) = X1 m ρ c := by
  obtain ⟨_, _, _, h31, h46, h47, h48, h49⟩ := pre0 m ρ c
  have e : fusedArr (W3 m ρ c (Proc.devRef .tc main_v46)) (W3 m ρ c (Proc.devRef .tc main_arg0)) (W3 m ρ c (Proc.devRef .tc main_v31)) (W3 m ρ c (Proc.devRef .tc main_arg3)) (W3 m ρ c (Proc.devRef .tc main_v47)) (W3 m ρ c (Proc.devRef .tc main_v48)) (W3 m ρ c (Proc.devRef .tc main_v49)) = X1 m ρ c := by
    rw [h46, h31, h47, h48, h49, W3_0 m ρ c main_arg0 (by decide), W3_0 m ρ c main_arg3 (by decide)]
    exact (layerK_eq_fusedArr _ _ _ _ _ _).symm
  exact ⟨((W4_arr m ρ c 7).trans (fused0_arr7 (V3 m ρ) c)).trans e, ((W4_arr m ρ c 8).trans (fused0_arr8 (V3 m ρ) c)).trans e⟩

/-- A later aggregate, from the layer before it and the edge data the first stretches left. -/
theorem agg_of (X : SND.Idx → EReal) (s d : SE.Idx → BitVec 32) (n : SE.Idx → EReal)
    (hs : s = W3 m ρ c (Proc.devRef .tc main_v2)) (hd : d = W3 m ρ c (Proc.devRef .tc main_v4)) (hn : n = W3 m ρ c (Proc.devRef .tc main_v29)) :
    (fun (y : SND.Idx) => aggFrom X s d n (y 0) (y 1)) = fun y => aggK X (edge m ρ c) (y 0) (y 1) := by
  obtain ⟨h2, h4, h29, _⟩ := pre0 m ρ c
  subst hs hd hn
  rw [h2, h4, h29] <;> rfl

theorem out1 : W6 m ρ c (Proc.devRef .tc main_v68_0) = X2 m ρ c ∧ W6 m ρ c (Proc.devRef .tc main_v68_1) = X2 m ρ c := by
  have h64 : W5 m ρ c (Proc.devRef .tc main_v64) = _ := HostVal.v64_eq (W4 m ρ c)
  have h65 : W5 m ρ c (Proc.devRef .tc main_v65) = _ := HostVal.v65_eq (W4 m ρ c)
  have h66 : W5 m ρ c (Proc.devRef .tc main_v66) = _ := HostVal.v66_eq (W4 m ρ c)
  have h67 : W5 m ρ c (Proc.devRef .tc main_v67) = _ := HostVal.v67_eq (W4 m ρ c)
  have e : fusedArr (W5 m ρ c (Proc.devRef .tc main_v64)) (W5 m ρ c (Proc.devRef .tc main_v50_0)) (W5 m ρ c (Proc.devRef .tc main_v31)) (W5 m ρ c (Proc.devRef .tc main_arg7)) (W5 m ρ c (Proc.devRef .tc main_v65)) (W5 m ρ c (Proc.devRef .tc main_v66)) (W5 m ρ c (Proc.devRef .tc main_v67)) = X2 m ρ c := by
    rw [h64, h65, h66, h67, (out0 m ρ c).2, agg_of m ρ c _ _ _ _ (W4_of_ne m ρ c main_v2 (by decide)) (W4_of_ne m ρ c main_v4 (by decide))
        (W4_of_ne m ρ c main_v29 (by decide)), W5_of m ρ c main_v50_0 (by decide), (out0 m ρ c).1, self_W5, (pre0 m ρ c).2.2.2.1,
      W5_0 m ρ c main_arg7 (by decide), W4_0 m ρ c main_arg8 (by decide), W4_0 m ρ c main_arg9 (by decide), W4_0 m ρ c main_arg10 (by decide)]
    exact (layerK_eq_fusedArr _ _ _ _ _ _).symm
  exact ⟨((W6_arr m ρ c 7).trans (fused1_arr7 (V5 m ρ) c)).trans e, ((W6_arr m ρ c 8).trans (fused1_arr8 (V5 m ρ) c)).trans e⟩

theorem out2 : W8 m ρ c (Proc.devRef .tc main_v86_0) = X3 m ρ c := by
  have h82 : W7 m ρ c (Proc.devRef .tc main_v82) = _ := HostVal.v82_eq (W6 m ρ c)
  have h83 : W7 m ρ c (Proc.devRef .tc main_v83) = _ := HostVal.v83_eq (W6 m ρ c)
  have h84 : W7 m ρ c (Proc.devRef .tc main_v84) = _ := HostVal.v84_eq (W6 m ρ c)
  have h85 : W7 m ρ c (Proc.devRef .tc main_v85) = _ := HostVal.v85_eq (W6 m ρ c)
  refine ((W8_arr m ρ c 7).trans (fused2_arr7 (V7 m ρ) c)).trans ?_
  show fusedArr (W7 m ρ c (Proc.devRef .tc main_v82)) (W7 m ρ c (Proc.devRef .tc main_v68_0)) (W7 m ρ c (Proc.devRef .tc main_v31)) (W7 m ρ c (Proc.devRef .tc main_arg11)) (W7 m ρ c (Proc.devRef .tc main_v83)) (W7 m ρ c (Proc.devRef .tc main_v84)) (W7 m ρ c (Proc.devRef .tc main_v85)) = _
  rw [h82, h83, h84, h85, (out1 m ρ c).2, agg_of m ρ c _ _ _ _ (W6_3 m ρ c main_v2 (by decide)) (W6_3 m ρ c main_v4 (by decide))
      (W6_3 m ρ c main_v29 (by decide)), W7_of m ρ c main_v68_0 (by decide), (out1 m ρ c).1, self_W7, (pre0 m ρ c).2.2.2.1,
    W7_0 m ρ c main_arg11 (by decide), W6_0 m ρ c main_arg12 (by decide), W6_0 m ρ c main_arg13 (by decide), W6_0 m ρ c main_arg14 (by decide)]
  exact (layerK_eq_fusedArr _ _ _ _ _ _).symm

theorem out3 : W10 m ρ c (Proc.devRef .tc main_v88)
    = kernelOut (inp m ρ c main_arg0) (edge m ρ c) (inp m ρ c main_arg2) (inp m ρ c main_arg3) (inp m ρ c main_arg4) (inp m ρ c main_arg5) (inp m ρ c main_arg6) (inp m ρ c main_arg7) (inp m ρ c main_arg8) (inp m ρ c main_arg9) (inp m ρ c main_arg10) (inp m ρ c main_arg11) (inp m ρ c main_arg12) (inp m ρ c main_arg13) (inp m ρ c main_arg14) := by
  refine ((W10_arr m ρ c 2).trans (pool_arr (V9 m ρ) c)).trans ?_
  show poolArr (W9 m ρ c (Proc.devRef .tc main_v86_0)) (W9 m ρ c (Proc.devRef .tc main_v87)) = _
  rw [W9_of m ρ c main_v86_0 (by decide), out2, show W9 m ρ c (Proc.devRef .tc main_v87) = _ from HostVal.v87_eq (W8 m ρ c),
    W8_0 m ρ c main_arg2 (by decide)]
  exact Cert.Alg.poolArr_eq_poolK _ _

end Chain

/-- Every weakly fair execution terminates without fault, the result buffer then holding the specification's function of the launched arguments, themselves unchanged. -/
theorem kernel_value (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v88) = kernelOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => ⟨(h c _ (mem_uc main_v88 (by decide))).trans (out3 m ρ c),
    (h c _ (mem_uc main_arg0 (by decide))).trans (W10_main_arg0 m ρ c),
    (h c _ (mem_uc main_arg1 (by decide))).trans (W10_main_arg1 m ρ c),
    (h c _ (mem_uc main_arg2 (by decide))).trans (W10_main_arg2 m ρ c),
    (h c _ (mem_uc main_arg3 (by decide))).trans (W10_main_arg3 m ρ c),
    (h c _ (mem_uc main_arg4 (by decide))).trans (W10_main_arg4 m ρ c),
    (h c _ (mem_uc main_arg5 (by decide))).trans (W10_main_arg5 m ρ c),
    (h c _ (mem_uc main_arg6 (by decide))).trans (W10_main_arg6 m ρ c),
    (h c _ (mem_uc main_arg7 (by decide))).trans (W10_main_arg7 m ρ c),
    (h c _ (mem_uc main_arg8 (by decide))).trans (W10_main_arg8 m ρ c),
    (h c _ (mem_uc main_arg9 (by decide))).trans (W10_main_arg9 m ρ c),
    (h c _ (mem_uc main_arg10 (by decide))).trans (W10_main_arg10 m ρ c),
    (h c _ (mem_uc main_arg11 (by decide))).trans (W10_main_arg11 m ρ c),
    (h c _ (mem_uc main_arg12 (by decide))).trans (W10_main_arg12 m ρ c),
    (h c _ (mem_uc main_arg13 (by decide))).trans (W10_main_arg13 m ρ c),
    (h c _ (mem_uc main_arg14 (by decide))).trans (W10_main_arg14 m ρ c)⟩) (run_all m ρ)

end Cert.KernelIdeal.HandVal

end
-- ==== Proof.Ref.Chunks.lean ====
import proofs.«411758_j88313117540961_2_alg».proof.Proof.Ref.Ops
import Idealize.ShloMosaic.Lib.Pipeline.Frame

noncomputable section

namespace Cert.ReferenceIdeal.RefRun

open Cert.ReferenceIdeal Cert.ReferenceIdeal.Gen Cert.ReferenceIdeal.ValueP Idealize.ShloMosaic Idealize.ShloMosaic.TcCoe Idealize.SL.Sem Idealize.ShloMosaic.StableHlo

variable {F : FTy → Type} [FloatOps F]

/-- The `n` operations of the reference from position `a` on. -/
noncomputable abbrev chunk (a n : Nat) : List (HloOp τ sig (Elt F)) := (ops.drop a).take n

noncomputable abbrev opsP : List (HloOp τ sig (Elt F)) := chunk 0 40
noncomputable abbrev opsL1 : List (HloOp τ sig (Elt F)) := chunk 40 59
noncomputable abbrev opsL2 : List (HloOp τ sig (Elt F)) := chunk 99 59
noncomputable abbrev opsL3 : List (HloOp τ sig (Elt F)) := chunk 158 59
noncomputable abbrev opsQ : List (HloOp τ sig (Elt F)) := ops.drop 217

/-- Running a list from position `a` on is running its next `n` operations and then the rest. -/
theorem after_drop {Val : EltTy → Type} (l : List (HloOp τ sig Val)) (a n : Nat) (W : Valuation τ sig Val) :
    after (l.drop a) W = after (l.drop (a + n)) (after ((l.drop a).take n) W) := by
  rw [← after_append, ← List.drop_drop, List.take_append_drop]

theorem after_ops (W : Valuation τ sig (Elt F)) :
    after ops W = after opsQ (after opsL3 (after opsL2 (after opsL1 (after opsP W)))) :=
  (after_drop ops 0 40 W).trans <| (after_drop ops 40 59 _).trans <| (after_drop ops 99 59 _).trans (after_drop ops 158 59 _)

end Cert.ReferenceIdeal.RefRun

end
-- ==== Proof.Ref.ChunkWrites.lean ====
import proofs.«411758_j88313117540961_2_alg».proof.Proof.Ref.Chunks

noncomputable section

namespace Cert.ReferenceIdeal.RefRun

open Cert.ReferenceIdeal Cert.ReferenceIdeal.Gen Cert.ReferenceIdeal.ValueP Idealize.ShloMosaic Idealize.ShloMosaic.TcCoe Idealize.SL.Sem Idealize.ShloMosaic.StableHlo

variable {F : FTy → Type} [FloatOps F]

/-- The reference each operation of `ops` writes, in order. -/
noncomputable abbrev opsW : List (Ref sig .tc) :=
  [main_v0, main_v1, main_v2, main_v3, main_v4, main_v5, main_v6, main_cst, main_v7, main_cst_0, main_v8, main_v9,
   main_v10, main_cst_1, main_v11, main_v12, main_v13, main_cst_2, main_call0_v0, main_call0_v1, main_v14, main_c,
   main_v15, main_v16, main_c_3, main_v17, main_v18, main_v19, main_v20, main_v21, main_c_4, main_v22, main_v23,
   main_c_5, main_v24, main_v25, main_v26, main_v27, main_v28, main_v29, main_v30, main_c_6, main_v31, main_v32,
   main_c_7, main_v33, main_v34, main_v35, main_v36, main_v37, main_v38, main_v39, main_v40, main_cst_8, main_v41,
   main_v42, main_v43, main_v44, main_v45, main_v46, main_cst_9, main_v47, main_v48, main_cst_10, main_v49, main_v50,
   main_v51, main_v52, main_v53, main_cst_11, main_v54, main_v55, main_cst_12, main_v56, main_v57, main_v58,
   main_v59, main_cst_13, main_v60, main_v61, main_v62, main_v63, main_v64, main_v65, main_v66, main_v67, main_v68,
   main_v69, main_v70, main_v71, main_call1_v0, main_call1_v1, main_call1_cst, main_call1_v2, main_call1_v3,
   main_call1_cst_0, main_call1_v4, main_call1_v5, main_v72, main_v73, main_c_14, main_v74, main_v75, main_c_15,
   main_v76, main_v77, main_v78, main_v79, main_v80, main_v81, main_v82, main_v83, main_cst_16, main_v84, main_v85,
   main_v86, main_v87, main_v88, main_v89, main_cst_17, main_v90, main_v91, main_cst_18, main_v92, main_v93,
   main_v94, main_v95, main_v96, main_cst_19, main_v97, main_v98, main_cst_20, main_v99, main_v100, main_v101,
   main_v102, main_cst_21, main_v103, main_v104, main_v105, main_v106, main_v107, main_v108, main_v109, main_v110,
   main_v111, main_v112, main_v113, main_v114, main_call2_v0, main_call2_v1, main_call2_cst, main_call2_v2,
   main_call2_v3, main_call2_cst_0, main_call2_v4, main_call2_v5, main_v115, main_v116, main_c_22, main_v117,
   main_v118, main_c_23, main_v119, main_v120, main_v121, main_v122, main_v123, main_v124, main_v125, main_v126,
   main_cst_24, main_v127, main_v128, main_v129, main_v130, main_v131, main_v132, main_cst_25, main_v133, main_v134,
   main_cst_26, main_v135, main_v136, main_v137, main_v138, main_v139, main_cst_27, main_v140, main_v141,
   main_cst_28, main_v142, main_v143, main_v144, main_v145, main_cst_29, main_v146, main_v147, main_v148, main_v149,
   main_v150, main_v151, main_v152, main_v153, main_v154, main_v155, main_v156, main_v157, main_call3_v0,
   main_call3_v1, main_call3_cst, main_call3_v2, main_call3_v3, main_call3_cst_0, main_call3_v4, main_call3_v5,
   main_v158, main_cst_30, main_v159, main_cst_31, main_v160, main_v161, main_v162, main_cst_32, main_v163,
   main_v164, main_v165, main_cst_33, main_v166, main_v167, main_v168, main_v169, main_v170]

/-- Each operation writes the reference at its own place in `opsW` and no other. -/
theorem ops_writes : List.Forall₂ (fun (op : HloOp τ sig (Elt F)) r => op.writes ⊆ {Proc.devRef .tc r}) ops opsW := by
  repeat' first | exact .nil | refine .cons (Finset.Subset.refl _) ?_

/-- A reference outside the list of those the operations write keeps its contents. -/
theorem after_of_writes {Val : EltTy → Type} {l : List (HloOp τ sig Val)} {w : List (Ref sig .tc)}
    (h : List.Forall₂ (fun op r => op.writes ⊆ {Proc.devRef (τ := τ) .tc r}) l w) {r : Ref sig .tc} (hr : r ∉ w) :
    ∀ V : Valuation τ sig Val, after l V (Proc.devRef .tc r) = V (Proc.devRef .tc r) := by
  induction h with
  | nil => exact fun _ => rfl
  | cons hop _ ih =>
    exact fun V => (ih (fun hm => hr (.tail _ hm)) _).trans (HloOp.result_of_not_mem _ V fun hb =>
      hr (Proc.devRef_injective _ (Finset.mem_singleton.mp (hop hb)) ▸ .head _))

theorem after_ops_of (W : Valuation τ sig (Elt F)) {r : Ref sig .tc} (h : r ∉ opsW) :
    after ops W (Proc.devRef .tc r) = W (Proc.devRef .tc r) :=
  after_of_writes ops_writes h W

theorem after_chunk_of (a n : Nat) (W : Valuation τ sig (Elt F)) {r : Ref sig .tc} (h : r ∉ (opsW.drop a).take n) :
    after (chunk a n) W (Proc.devRef .tc r) = W (Proc.devRef .tc r) :=
  after_of_writes (List.forall₂_take n (List.forall₂_drop a ops_writes)) h W

end Cert.ReferenceIdeal.RefRun

end
-- ==== Proof.Ref.Run.lean ====
import proofs.«411758_j88313117540961_2_alg».proof.Proof.Ref.ChunkWrites

noncomputable section

namespace Cert.ReferenceIdeal.RefRun

open Cert.ReferenceIdeal Cert.ReferenceIdeal.Gen Cert.ReferenceIdeal.ValueP Idealize.ShloMosaic Idealize.ShloMosaic.TcCoe Idealize.SL.Sem Idealize.ShloMosaic.StableHlo

variable {F : FTy → Type} [FloatOps F]

/-- Every run of the reference ends, each buffer holding what the 233 operations make of the launch contents. -/
theorem run_ops (m : (ℓ : Loc nD τ sig) → Buf (Elt F) ℓ) (ρ : Dev nD → PrngReg) :
    θ_run defs (onTc (τ := τ) (main (F := F))) ⟨m, fun _ => 0, ρ⟩ fun r => ∀ (c : Dev nD) (b : Ref sig .tc),
      r.2.mem ((c.tc : Thread nD τ).loc b) = after ops (launchContents m c) (Proc.devRef .tc b) :=
  run_seq scopedRefs_eq scopedSems_eq defs main (fun _ => ops) main_eq (fun _ => ops_sub) m ρ
    fun _ => List.forall_iff_forall_mem.mp (by repeat' first | rfl | refine ⟨rfl, ?_⟩)

/-- Each of the fifteen arguments holds in `m'` what it holds in `m`. -/
abbrev ArgsKept (m m' : (ℓ : Loc nD τ sig) → Buf (Elt F) ℓ) (c : Dev nD) : Prop :=
  m' ((c.tc : Thread nD τ).loc main_arg0) = m ((c.tc : Thread nD τ).loc main_arg0)
  ∧ m' ((c.tc : Thread nD τ).loc main_arg1) = m ((c.tc : Thread nD τ).loc main_arg1)
  ∧ m' ((c.tc : Thread nD τ).loc main_arg2) = m ((c.tc : Thread nD τ).loc main_arg2)
  ∧ m' ((c.tc : Thread nD τ).loc main_arg3) = m ((c.tc : Thread nD τ).loc main_arg3)
  ∧ m' ((c.tc : Thread nD τ).loc main_arg4) = m ((c.tc : Thread nD τ).loc main_arg4)
  ∧ m' ((c.tc : Thread nD τ).loc main_arg5) = m ((c.tc : Thread nD τ).loc main_arg5)
  ∧ m' ((c.tc : Thread nD τ).loc main_arg6) = m ((c.tc : Thread nD τ).loc main_arg6)
  ∧ m' ((c.tc : Thread nD τ).loc main_arg7) = m ((c.tc : Thread nD τ).loc main_arg7)
  ∧ m' ((c.tc : Thread nD τ).loc main_arg8) = m ((c.tc : Thread nD τ).loc main_arg8)
  ∧ m' ((c.tc : Thread nD τ).loc main_arg9) = m ((c.tc : Thread nD τ).loc main_arg9)
  ∧ m' ((c.tc : Thread nD τ).loc main_arg10) = m ((c.tc : Thread nD τ).loc main_arg10)
  ∧ m' ((c.tc : Thread nD τ).loc main_arg11) = m ((c.tc : Thread nD τ).loc main_arg11)
  ∧ m' ((c.tc : Thread nD τ).loc main_arg12) = m ((c.tc : Thread nD τ).loc main_arg12)
  ∧ m' ((c.tc : Thread nD τ).loc main_arg13) = m ((c.tc : Thread nD τ).loc main_arg13)
  ∧ m' ((c.tc : Thread nD τ).loc main_arg14) = m ((c.tc : Thread nD τ).loc main_arg14)

/-- No operation writes an argument. -/
theorem argsKept_of {m m' : (ℓ : Loc nD τ sig) → Buf (Elt F) ℓ} {c : Dev nD}
    (h : ∀ b : Ref sig .tc, m' ((c.tc : Thread nD τ).loc b) = after ops (launchContents m c) (Proc.devRef .tc b)) :
    ArgsKept m m' c := by
  refine ⟨?_, ?_, ?_, ?_, ?_, ?_, ?_, ?_, ?_, ?_, ?_, ?_, ?_, ?_, ?_⟩ <;> exact (h _).trans (after_ops_of _ (by decide))

theorem frame_run (m : (ℓ : Loc nD τ sig) → Buf (Elt F) ℓ) (ρ : Dev nD → PrngReg) :
    θ_run defs (onTc (τ := τ) (main (F := F))) ⟨m, fun _ => 0, ρ⟩ (fun r => ∀ c : Dev nD, ArgsKept m r.2.mem c) :=
  (θ_run defs _ _).mono (fun _ h c => argsKept_of (h c)) (run_ops m ρ)

end Cert.ReferenceIdeal.RefRun

end
-- ==== Proof.Ref.Prefix.lean ====
import proofs.«411758_j88313117540961_2_alg».proof.Proof.Ref.ChunkWrites
import Idealize.ShloMosaic.Lib.ValueIdx
import Idealize.ShloMosaic.Lib.IdealHost
import Idealize.ShloMosaic.Lib.Pipeline.Value
import Idealize.ShloMosaic.PureOps.Ideal
import Idealize.ShloMosaic.PureOps.Ideal.Laws
import proofs.«411758_j88313117540961_2_alg».proof.Proof.Spec
import proofs.«411758_j88313117540961_2_alg».proof.Proof.LibIndex

set_option Elab.async false

noncomputable section

namespace Cert.ReferenceIdeal.RefRun

open Cert.ReferenceIdeal Cert.ReferenceIdeal.Gen Cert.ReferenceIdeal.ValueP Cert.Spec Idealize.ShloMosaic Idealize.ShloMosaic.ValueIdx
open Idealize.ShloMosaic.TcCoe Idealize.SL.Sem Idealize.ShloMosaic.StableHlo

variable {F : FTy → Type} [FloatOps F]

namespace Prefix

variable (W : Valuation τ sig (Elt Ideal)) (E : S2x600000.Idx → BitVec 32)

/-- Row `o` of the edge array followed by the node numbers: the row's word below 600000, then the position less 600000. -/
theorem edgeRow_concat (E : S2x600000.Idx → BitVec 32) (o : Nat) (ho : o < 2) (hs : S2x600000.Slices ![o, 0] S1x600000)
    (y : S650000.Idx) :
    concatenate S650000 0 [⟨S600000, shapeCast S600000 (extractStridedSlice S1x600000 ![o, 0] E hs) shapeCasts_S1x600000_S600000⟩,
        ⟨S50000, (iotaInDim S50000 32 0 : S50000.Idx → BitVec 32)⟩] concatenates_S600000_S50000_S650000_d0 y
      = if hlt : (y 0).val < 600000 then E (ix2 ⟨o, ho⟩ ⟨(y 0).val, hlt⟩) else BitVec.ofNat 32 ((y 0).val - 600000) := by
  by_cases hlt : (y 0).val < 600000
  · rw [dif_pos hlt]
    rw [concatenate_pair_apply_left (t := S650000) (s₁ := S600000) (s₂ := S50000) (0 : Fin 1) _ _ concatenates_S600000_S50000_S650000_d0 y rfl (ix1 ⟨(y 0).val, hlt⟩)
      (fun b => by obtain rfl : b = 0 := Subsingleton.elim _ _; rfl)]
    rw [shapeCast_apply _ shapeCasts_S1x600000_S600000 (ix1 ⟨(y 0).val, hlt⟩) (ix2 (0 : Fin 1) ⟨(y 0).val, hlt⟩)
      (by rewrite [Shape.rowMajor_val_two, Shape.rowMajor_val_one]; show 0 * 600000 + (y 0).val = (y 0).val; omega)]
    exact extractStridedSlice_apply ![o, 0] E hs (ix2 (0 : Fin 1) ⟨(y 0).val, hlt⟩) (ix2 ⟨o, ho⟩ ⟨(y 0).val, hlt⟩)
      (fun a => match a with
        | ⟨0, _⟩ => by show o = o + 0; omega
        | ⟨1, _⟩ => by show (y 0).val = 0 + (y 0).val; omega)
  · rw [dif_neg hlt]
    have hy : (y 0).val < 650000 := (y 0).isLt
    rw [concatenate_pair_apply_right (t := S650000) (s₁ := S600000) (s₂ := S50000) (0 : Fin 1) _ _ concatenates_S600000_S50000_S650000_d0 y rfl rfl
      (ix1 ⟨(y 0).val - 600000, by omega⟩)
      (fun b hb => absurd (Subsingleton.elim _ _) hb)
      (by show (y 0).val - 600000 + 600000 = (y 0).val; omega)]
    rfl

theorem A_v3 : after (chunk (F := Ideal) 0 7) W (Proc.devRef .tc main_v3) =
    fun y => Cert.Spec.srcW (W (Proc.devRef .tc main_arg1)) (y 0) := by
  dsimp only [chunk, ops, List.drop, List.take]
  after_results
  funext y
  exact edgeRow_concat _ 0 (by decide) slices_S2x600000_S1x600000_0_0 y

theorem A_v6 : after (chunk (F := Ideal) 0 7) W (Proc.devRef .tc main_v6) =
    fun y => Cert.Spec.dstW (W (Proc.devRef .tc main_arg1)) (y 0) := by
  dsimp only [chunk, ops, List.drop, List.take]
  after_results
  funext y
  exact edgeRow_concat _ 1 (by decide) slices_S2x600000_S1x600000_1_0 y

theorem col_apply {α : Type} (v : S650000.Idx → α) (e : Fin 650000) :
    broadcastInDim S650000x1 ![0] bcast_S650000_S650000x1_0 v (ix2 e 0) = v (ix1 e) :=
  broadcastInDim_apply _ bcast_S650000_S650000x1_0 v (ix2 e 0) (ix1 e) (fun a => match a with
    | ⟨0, _⟩ => by show e.val = if (650000 : Nat) = 1 then 0 else e.val; rw [if_neg (by decide)])

theorem splat_apply {T : Shape} (h : S_.BroadcastsInDim T ![]) (w : BitVec 32) (j : T.Idx) :
    broadcastInDim T ![] h (constant (F := Ideal) S_ .f32 w) j = Ideal.ofBits .f32 w :=
  broadcastInDim_scalar_apply h _ j

theorem scatterAdd_eq (x : S50000.Idx → EReal) (idx : S650000x1.Idx → BitVec 32) (upd : S650000.Idx → EReal) :
    Host.scatterAdd (F := Ideal) (φ := .f32) scatter_S50000_S650000x1_S650000_n_0_0_1 x idx upd =
      Ideal.hostScatterAdd (Cert.LibIndex.vecScatter 50000 650000 scatter_S50000_S650000x1_S650000_n_0_0_1_wf) x idx upd := rfl

theorem scatterAdd_apply (x : S50000.Idx → EReal) (idx : S650000x1.Idx → BitVec 32) (upd : S650000.Idx → EReal) (i : Fin 50000) :
    Host.scatterAdd (F := Ideal) (φ := .f32) scatter_S50000_S650000x1_S650000_n_0_0_1 x idx upd (ix1 i) =
      x (ix1 i) + ∑ e ∈ Finset.univ.filter (fun e : Fin 650000 => Cert.Spec.scatterRow 50000 (idx (ix2 e 0)) = some i), upd (ix1 e) := by
  rw [scatterAdd_eq]
  exact Cert.LibIndex.scatterAdd_vec_apply _ x idx upd i

/-- Ones scattered by the words `v` into zeros count, at node `i`, the edges whose word names it. -/
theorem deg_read (v : S650000.Idx → BitVec 32) (i : Fin 50000) :
    Host.scatterAdd (F := Ideal) (φ := .f32) scatter_S50000_S650000x1_S650000_n_0_0_1
      (broadcastInDim S50000 ![] bcast_S_S50000 (constant (F := Ideal) S_ .f32 0x00000000#32))
      (broadcastInDim S650000x1 ![0] bcast_S650000_S650000x1_0 v)
      (broadcastInDim S650000 ![] bcast_S_S650000 (constant (F := Ideal) S_ .f32 0x3F800000#32)) (ix1 i) =
    cZero + ∑ e ∈ Finset.univ.filter (fun e : Fin 650000 => Cert.Spec.scatterRow 50000 (v (ix1 e)) = some i), cOne := by
  rw [scatterAdd_apply, splat_apply]
  refine congrArg (cZero + ·) (Finset.sum_congr (Finset.filter_congr fun e _ => ?_) fun e _ => splat_apply _ _ _)
  rw [col_apply]

theorem B_v10 (h6 : W (Proc.devRef .tc main_v6) = fun y => Cert.Spec.dstW E (y 0)) :
    after (chunk (F := Ideal) 7 6) W (Proc.devRef .tc main_v10) = fun y => Cert.Spec.deg E (y 0) := by
  dsimp only [chunk, ops, List.drop, List.take]
  after_results_simp
  rw [h6]
  funext y
  obtain ⟨i, rfl⟩ : ∃ i : Fin 50000, y = ix1 i := ⟨y 0, eq_ix1 y⟩
  exact deg_read _ i

theorem select_ogt {α : Type} (a b : EReal) (x z : α) :
    Scalar.select (Ideal.cmp .ogt a b) x z = if b < a then x else z := by
  show (if BitVec.ofBool (decide (b < a)) = 1 then x else z) = _
  by_cases h : b < a
  · rw [if_pos h, if_pos (by rw [decide_eq_true h]; rfl)]
  · rw [if_neg h, if_neg (by rw [decide_eq_false h]; decide)]

theorem where_apply (d z : S50000.Idx → EReal) (y : S50000.Idx) :
    select (cmpf (F := Ideal) (φ := .f32) .ogt d z) (Host.rsqrt (F := Ideal) (φ := .f32) d) z y =
      if z y < d y then Ideal.rsqrt (d y) else z y :=
  select_ogt (d y) (z y) (Ideal.rsqrt (d y)) (z y)

theorem C_v14 (h10 : W (Proc.devRef .tc main_v10) = fun y => Cert.Spec.deg E (y 0)) :
    after (chunk (F := Ideal) 13 8) W (Proc.devRef .tc main_v14) = fun y => Cert.Spec.dinv E (y 0) := by
  dsimp only [chunk, ops, List.drop, List.take]
  after_results_simp
  all_goals (try simp only [TRef.ofBuf, TRef.toBuf, cast_eq, id_eq])
  funext y
  rw [where_apply, splat_apply, h10]
  rfl

/-- The word with 50000 added where it is negative. -/
noncomputable abbrev wrap (w : S650000.Idx → BitVec 32) : S650000.Idx → BitVec 32 :=
  select (cmpi .slt w (broadcastInDim S650000 ![] bcast_S_S650000 (constantI S_ 32 0#32)))
    (addi w (broadcastInDim S650000 ![] bcast_S_S650000 (constantI S_ 32 50000#32))) w

theorem wrapped_apply (w : S650000.Idx → BitVec 32) (e : Fin 650000) :
    wrap w (ix1 e) = Scalar.select (IntOp.cmpi .slt (w (ix1 e)) 0#32) (IntOp.addi (w (ix1 e)) 50000#32) (w (ix1 e)) :=
  congrArg₂ (fun a b => Scalar.select (IntOp.cmpi .slt (w (ix1 e)) a) (IntOp.addi (w (ix1 e)) b) (w (ix1 e)))
    (broadcastInDim_scalar_apply _ _ _) (broadcastInDim_scalar_apply _ _ _)

theorem gatherDims_eq : gather_S50000_S650000x1_S650000_n_0_n_n_0_1_1 =
    Cert.LibIndex.vecGather 50000 650000 gather_S50000_S650000x1_S650000_n_0_n_n_0_1_1_wf := rfl

/-- The lookup of `d` at the wrapped words of `w` reads, at edge `e`, `d` at the row the word of `e` names. -/
theorem gather_wrapped (d : S50000.Idx → EReal) (w : S650000.Idx → BitVec 32) (e : Fin 650000) :
    Host.gather gather_S50000_S650000x1_S650000_n_0_n_n_0_1_1 d
      (broadcastInDim S650000x1 ![0] bcast_S650000_S650000x1_0 (wrap w)) (ix1 e)
      = d (ix1 (Cert.Spec.gatherRow (w (ix1 e)))) := by
  rw [gatherDims_eq, Cert.LibIndex.gather_vec_apply (by decide)]
  refine congrArg d (congrArg ix1 (Fin.ext ?_))
  rw [Cert.LibIndex.gatherRow_eq]
  exact congrArg (fun x : BitVec 32 => min x.toInt.toNat 49999) ((col_apply _ e).trans (wrapped_apply w e))

theorem D_v29 (h3 : W (Proc.devRef .tc main_v3) = fun y => Cert.Spec.srcW E (y 0))
    (h6 : W (Proc.devRef .tc main_v6) = fun y => Cert.Spec.dstW E (y 0))
    (h14 : W (Proc.devRef .tc main_v14) = fun y => Cert.Spec.dinv E (y 0)) :
    after (chunk (F := Ideal) 21 19) W (Proc.devRef .tc main_v29) = fun y => Cert.Spec.norm E (y 0) := by
  dsimp only [chunk, ops, List.drop, List.take]
  after_results_simp
  rw [h3, h6, h14]
  funext y
  obtain ⟨e, rfl⟩ : ∃ e : Fin 650000, y = ix1 e := ⟨y 0, eq_ix1 y⟩
  rw [mulf_apply, gather_wrapped, gather_wrapped]
  rfl

end Prefix

open Prefix

variable (W : Valuation τ sig (Elt Ideal))

theorem opsP_split : (opsP : List (HloOp τ sig (Elt F))) = chunk 0 7 ++ chunk 7 6 ++ chunk 13 8 ++ chunk 21 19 := rfl

/-- What the first seven operations leave in `r` is still there after the whole stretch, when the later ones do not write `r`. -/
theorem prefix_of_A {r : Ref sig .tc} (h : r ∉ (opsW.drop 7).take 33) :
    after (opsP (F := Ideal)) W (Proc.devRef .tc r) = after (chunk (F := Ideal) 0 7) W (Proc.devRef .tc r) := by
  rw [show (opsP : List (HloOp τ sig (Elt Ideal))) = chunk 0 7 ++ chunk 7 33 from rfl, after_append, after_chunk_of _ _ _ h]

theorem prefix_v3 : after (opsP (F := Ideal)) W (Proc.devRef .tc main_v3) =
    fun y => Cert.Spec.srcW (W (Proc.devRef .tc main_arg1)) (y 0) :=
  (prefix_of_A W (by decide)).trans (A_v3 W)

theorem prefix_v6 : after (opsP (F := Ideal)) W (Proc.devRef .tc main_v6) =
    fun y => Cert.Spec.dstW (W (Proc.devRef .tc main_arg1)) (y 0) :=
  (prefix_of_A W (by decide)).trans (A_v6 W)

theorem prefix_v29 : after (opsP (F := Ideal)) W (Proc.devRef .tc main_v29) =
    fun y => Cert.Spec.norm (W (Proc.devRef .tc main_arg1)) (y 0) := by
  rw [opsP_split, after_append, after_append, after_append]
  exact D_v29 _ _ ((after_chunk_of 13 8 _ (by decide)).trans ((after_chunk_of 7 6 _ (by decide)).trans (A_v3 W)))
    ((after_chunk_of 13 8 _ (by decide)).trans ((after_chunk_of 7 6 _ (by decide)).trans (A_v6 W)))
    (C_v14 _ _ (B_v10 _ _ (A_v6 W)))

end Cert.ReferenceIdeal.RefRun
end
-- ==== Proof.AlgReal.lean ====
import proofs.«411758_j88313117540961_2_alg».proof.Proof.Spec
import Idealize.ShloMosaic.PureOps.Ideal
import Idealize.ShloMosaic.PureOps.Ideal.Laws
import Idealize.ShloMosaic.Lib.ValueIdx
import Mathlib.Data.EReal.Basic
import Mathlib.Data.EReal.Operations
import Mathlib.Data.EReal.Inv

noncomputable section

namespace Cert.Alg

open Idealize.ShloMosaic Idealize.ShloMosaic.ValueIdx Cert.Spec

theorem cZero_eq : cZero = 0 := by
  simp [cZero, Ideal.ofBits, Ideal.ieee]

theorem cOne_eq : cOne = 1 := by
  simp [cOne, Ideal.ofBits, Ideal.ieee, -EReal.coe_mul]; norm_num

theorem c128_eq : c128 = ((128 : ℝ) : EReal) := by
  simp [c128, Ideal.ofBits, Ideal.ieee, -EReal.coe_mul]; norm_num

theorem cEps_pos : ∃ ε : ℝ, 0 < ε ∧ cEps = (ε : EReal) := by
  refine ⟨_, ?_, by simp [cEps, Ideal.ofBits, Ideal.ieee, -EReal.coe_mul]; rfl⟩
  positivity

abbrev IsR (a : EReal) : Prop := ∃ r : ℝ, a = (r : EReal)

theorem isReal_coe (r : ℝ) : IsR (r : EReal) := ⟨r, rfl⟩

theorem isReal_zero : IsR (0 : EReal) := ⟨0, EReal.coe_zero.symm⟩

theorem isReal_one : IsR (1 : EReal) := ⟨1, EReal.coe_one.symm⟩

theorem isReal_add {a b : EReal} (ha : IsR a) (hb : IsR b) : IsR (a + b) := by
  obtain ⟨x, rfl⟩ := ha; obtain ⟨y, rfl⟩ := hb
  exact ⟨x + y, (EReal.coe_add x y).symm⟩

theorem isReal_sub {a b : EReal} (ha : IsR a) (hb : IsR b) : IsR (a - b) := by
  obtain ⟨x, rfl⟩ := ha; obtain ⟨y, rfl⟩ := hb
  exact ⟨x - y, (EReal.coe_sub x y).symm⟩

theorem isReal_mul {a b : EReal} (ha : IsR a) (hb : IsR b) : IsR (a * b) := by
  obtain ⟨x, rfl⟩ := ha; obtain ⟨y, rfl⟩ := hb
  exact ⟨x * y, (EReal.coe_mul x y).symm⟩

theorem coe_sum {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem isReal_sum {ι : Type*} (s : Finset ι) (f : ι → EReal) (h : ∀ i ∈ s, IsR (f i)) :
    IsR (∑ i ∈ s, f i) := by
  classical
  induction s using Finset.induction_on with
  | empty => exact ⟨0, by simp⟩
  | insert a s ha ih =>
    rw [Finset.sum_insert ha]
    exact isReal_add (h a (Finset.mem_insert_self a s)) (ih (fun i hi => h i (Finset.mem_insert_of_mem hi)))

theorem sum_one_eq {ι : Type*} (s : Finset ι) : ∑ _e ∈ s, (1 : EReal) = ((s.card : ℝ) : EReal) := by
  rw [Finset.sum_const, nsmul_one]; exact EReal.coe_natCast.symm

theorem div128_eq (a : EReal) : Ideal.div a c128 = a * (((1 / 128 : ℝ)) : EReal) := by
  rw [c128_eq, Ideal.div_coe (by norm_num : (128 : ℝ) ≠ 0)]

theorem isReal_div128 {a : EReal} (ha : IsR a) : IsR (Ideal.div a c128) := by
  rw [div128_eq]; exact isReal_mul ha (isReal_coe _)

theorem isReal_rsqrt_pos {r : ℝ} (h : 0 < r) : IsR (Ideal.rsqrt (r : EReal)) := by
  rw [Ideal.rsqrt_coe, if_neg (not_lt.mpr h.le), if_neg h.ne']
  exact isReal_coe _

theorem isReal_logistic {a : EReal} (ha : IsR a) : IsR (Ideal.logistic a) := by
  obtain ⟨x, rfl⟩ := ha
  rw [Ideal.logistic_coe]; exact isReal_coe _

theorem scatterRow_self (i : Fin 50000) : scatterRow 50000 (BitVec.ofNat 32 i.val) = some i := by
  have hi := i.isLt
  have h1 : (BitVec.ofNat 32 i.val).toInt = (i.val : Int) := by
    rw [BitVec.toInt_eq_toNat_cond, BitVec.toNat_ofNat, Nat.mod_eq_of_lt (by omega)]; split <;> omega
  unfold scatterRow
  rw [dif_pos (by omega)]
  congr 1; apply Fin.ext; simp only [h1]; omega

theorem dstW_self (edge : S2E.Idx → BitVec 32) (i : Fin 50000) :
    dstW edge ⟨600000 + i.val, by omega⟩ = BitVec.ofNat 32 i.val := by
  unfold dstW
  rw [dif_neg (by simp)]
  simp

theorem deg_real (edge : S2E.Idx → BitVec 32) (i : Fin 50000) : ∃ r : ℝ, 1 ≤ r ∧ deg edge i = (r : EReal) := by
  unfold deg
  rw [cZero_eq, cOne_eq, zero_add, sum_one_eq]
  refine ⟨_, ?_, rfl⟩
  have hmem : (⟨600000 + i.val, by omega⟩ : Fin 650000) ∈
      Finset.univ.filter (fun e : Fin 650000 => scatterRow 50000 (dstW edge e) = some i) := by
    rw [Finset.mem_filter]
    exact ⟨Finset.mem_univ _, by rw [dstW_self]; exact scatterRow_self i⟩
  have h1 : 1 ≤ (Finset.univ.filter (fun e : Fin 650000 => scatterRow 50000 (dstW edge e) = some i)).card :=
    Finset.card_pos.mpr ⟨_, hmem⟩
  exact_mod_cast h1

theorem dinv_real (edge : S2E.Idx → BitVec 32) (i : Fin 50000) : ∃ r : ℝ, dinv edge i = (r : EReal) := by
  obtain ⟨r, hr1, hr⟩ := deg_real edge i
  unfold dinv
  rw [hr]
  split
  · exact isReal_rsqrt_pos (by linarith)
  · rw [cZero_eq]; exact isReal_zero

theorem norm_real (edge : S2E.Idx → BitVec 32) (e : Fin 650000) : ∃ r : ℝ, norm edge e = (r : EReal) :=
  isReal_mul (dinv_real edge _) (dinv_real edge _)

theorem normR_real (edge : S2E.Idx → BitVec 32) (e : Fin 600000) : ∃ r : ℝ, normR edge e = (r : EReal) :=
  isReal_mul (dinv_real edge _) (dinv_real edge _)

theorem aggK_real {x : SND.Idx → EReal} (edge : S2E.Idx → BitVec 32) (hx : IsReal x) (i : Fin 50000) (k : Fin 128) :
    IsR (aggK x edge i k) := by
  unfold aggK
  rw [cZero_eq, zero_add]
  exact isReal_sum _ _ (fun e _ => isReal_mul (hx _) (normR_real edge e))

theorem preKAt_real {x : SND.Idx → EReal} {W : SDD.Idx → EReal} {b : SD.Idx → EReal} (edge : S2E.Idx → BitVec 32)
    (hx : IsReal x) (hW : IsReal W) (hb : IsReal b) (i : Fin 50000) (j : Fin 128) : IsR (preKAt x W b edge i j) := by
  unfold preKAt
  refine isReal_add (isReal_sum _ _ (fun k _ => isReal_mul (isReal_add (aggK_real edge hx i k) ?_) (hW _))) (hb _)
  exact isReal_mul (isReal_mul (dinv_real edge i) (dinv_real edge i)) (hx _)

theorem preK_real {x : SND.Idx → EReal} {W : SDD.Idx → EReal} {b : SD.Idx → EReal} (edge : S2E.Idx → BitVec 32)
    (hx : IsReal x) (hW : IsReal W) (hb : IsReal b) : IsReal (preK x W b edge) :=
  fun y => preKAt_real edge hx hW hb (y 0) (y 1)

theorem rowMean_real {p : SND.Idx → EReal} (hp : IsReal p) (i : Fin 50000) : IsR (rowMean p i) :=
  isReal_div128 (isReal_sum _ _ (fun _ _ => hp _))

theorem rowVar_real {p : SND.Idx → EReal} (hp : IsReal p) (i : Fin 50000) :
    ∃ v : ℝ, 0 ≤ v ∧ rowVar p i = (v : EReal) := by
  obtain ⟨m, hm⟩ := rowMean_real hp i
  choose q hq using fun j : Fin 128 => hp (ix2 i j)
  have hterm : ∀ j : Fin 128, (p (ix2 i j) - rowMean p i) * (p (ix2 i j) - rowMean p i)
      = (((q j - m) * (q j - m) : ℝ) : EReal) := by
    intro j; rw [hq j, hm, ← EReal.coe_sub, ← EReal.coe_mul]
  refine ⟨(∑ j : Fin 128, (q j - m) * (q j - m)) * (1 / 128), ?_, ?_⟩
  · exact mul_nonneg (Finset.sum_nonneg (fun j _ => mul_self_nonneg _)) (by norm_num)
  · unfold rowVar
    rw [div128_eq, Finset.sum_congr rfl (fun j _ => hterm j), coe_sum, ← EReal.coe_mul]

theorem post_real {p x : SND.Idx → EReal} {g be : SD.Idx → EReal} (hp : IsReal p) (hx : IsReal x) (hg : IsReal g)
    (hbe : IsReal be) : IsReal (post p x g be) := by
  intro y
  obtain ⟨ε, hε, hεq⟩ := cEps_pos
  obtain ⟨v, hv, hvq⟩ := rowVar_real hp (y 0)
  have hrs : IsR (Ideal.rsqrt (rowVar p (y 0) + cEps)) := by
    rw [hvq, hεq, ← EReal.coe_add]; exact isReal_rsqrt_pos (by linarith)
  have hr : IsR ((p y - rowMean p (y 0)) * Ideal.rsqrt (rowVar p (y 0) + cEps) * g (ix1 (y 1)) + be (ix1 (y 1)) + x y) :=
    isReal_add (isReal_add (isReal_mul (isReal_mul (isReal_sub (hp y) (rowMean_real hp (y 0))) hrs) (hg _)) (hbe _)) (hx y)
  exact isReal_mul hr (isReal_logistic hr)

theorem layerK_real {x : SND.Idx → EReal} {W : SDD.Idx → EReal} {b g be : SD.Idx → EReal} (edge : S2E.Idx → BitVec 32)
    (hx : IsReal x) (hW : IsReal W) (hb : IsReal b) (hg : IsReal g) (hbe : IsReal be) :
    IsReal (layerK x edge W b g be) :=
  post_real (preK_real edge hx hW hb) hx hg hbe

end Cert.Alg

end
-- ==== Proof.Ref.LayerLib.lean ====
import proofs.«411758_j88313117540961_2_alg».proof.Proof.Gen.ReferenceIdeal
import proofs.«411758_j88313117540961_2_alg».proof.Proof.Spec
import proofs.«411758_j88313117540961_2_alg».proof.Proof.LibIndex
import proofs.«411758_j88313117540961_2_alg».proof.Proof.AlgReal
import Idealize.ShloMosaic.Lib.Pipeline.Value
import Idealize.ShloMosaic.Lib.ValueIdx
import Idealize.ShloMosaic.Lib.IdealHost
import Idealize.ShloMosaic.Lib.KernelVsHost
import Idealize.ShloMosaic.Lib.StackMember
import Idealize.ShloMosaic.PureOps.Ideal.Laws

noncomputable section

namespace Cert.ReferenceIdeal.RefRun

open Cert.ReferenceIdeal Cert.ReferenceIdeal.Gen Cert.Spec Idealize.ShloMosaic Idealize.ShloMosaic.ValueIdx

-- A broadcast reads the operand at any index agreeing with the target's on the operand's non-unit axes.
theorem bc_at {α : Type} {s t : Shape} {dims : Fin s.rank → Fin t.rank} (h : s.BroadcastsInDim t dims) (x : s.Idx → α)
    (j : t.Idx) (k : s.Idx) (hk : ∀ a, s.size a ≠ 1 → (k a).val = (j (dims a)).val) : broadcastInDim t dims h x j = x k :=
  broadcastInDim_apply dims h x j k fun a => by
    by_cases h1 : s.size a = 1
    · rw [if_pos h1]; have := (k a).isLt; omega
    · rw [if_neg h1]; exact hk a h1

theorem bc_col {α : Type} {n : Nat} (h : (⟨1, ![n]⟩ : Shape).BroadcastsInDim ⟨2, ![n, 1]⟩ ![0])
    (v : (⟨1, ![n]⟩ : Shape).Idx → α) (p : Fin n) (z : Fin 1) :
    broadcastInDim ⟨2, ![n, 1]⟩ ![0] h v (ix2 p z) = v (ix1 p) :=
  bc_at h v _ _ fun a => match a with | ⟨0, _⟩ => fun _ => rfl

theorem bc_of_col {α : Type} {n m : Nat} (h : (⟨2, ![n, 1]⟩ : Shape).BroadcastsInDim ⟨2, ![n, m]⟩ ![0, 1])
    (v : (⟨2, ![n, 1]⟩ : Shape).Idx → α) (p : Fin n) (q : Fin m) :
    broadcastInDim ⟨2, ![n, m]⟩ ![0, 1] h v (ix2 p q) = v (ix2 p 0) :=
  bc_at h v _ _ fun a => match a with
    | ⟨0, _⟩ => fun _ => rfl
    | ⟨1, _⟩ => fun h1 => absurd rfl h1

-- A vector laid as a row over `[50000, 128]`.
def rowB (b : FVec Ideal S128 .f32) : FVec Ideal S50000x128 .f32 :=
  broadcastInDim S50000x128 ![0, 1] bcast_S1x128_S50000x128_0_1 (broadcastInDim S1x128 ![1] bcast_S128_S1x128_1 b)

theorem rowB_apply (b : FVec Ideal S128 .f32) (i : Fin 50000) (c : Fin 128) : rowB b (ix2 i c) = b (ix1 c) :=
  (broadcastInDim_oneRow_apply _ _ i c).trans (bc_at _ b _ (ix1 c) fun a => match a with | ⟨0, _⟩ => fun _ => rfl)

-- A column laid over `[50000, 128]`.
def colB (m : FVec Ideal S50000x1 .f32) : FVec Ideal S50000x128 .f32 :=
  broadcastInDim S50000x128 ![0, 1] bcast_S50000x1_S50000x128_0_1 m

theorem dot_apply (x : FVec Ideal S50000x128 .f32) (wt : FVec Ideal S128x128 .f32) (r : Fin 50000) (c : Fin 128) :
    Host.dotGeneral dot_S50000x128_S128x128_S50000x128_1_0_0_1_n_n none x wt (ix2 r c)
      = ∑ k : Fin 128, x (ix2 r k) * wt (ix2 k c) :=
  StackMember.dotGeneral_plain_apply none x wt r c

theorem wrap_apply (s : IVec S650000 32) (e : Fin 650000) (z : Fin 1) :
    broadcastInDim S650000x1 ![0] bcast_S650000_S650000x1_0
        (select (cmpi .slt s (broadcastInDim S650000 ![] bcast_S_S650000 (constantI S_ 32 0#32)))
          (addi s (broadcastInDim S650000 ![] bcast_S_S650000 (constantI S_ 32 50000#32))) s) (ix2 e z)
      = Scalar.select (IntOp.cmpi .slt (s (ix1 e)) 0#32) (IntOp.addi (s (ix1 e)) 50000#32) (s (ix1 e)) := by
  rw [bc_col]
  rfl

theorem lookup_apply (y : FVec Ideal S50000x128 .f32) (s : IVec S650000 32) (e : Fin 650000) (c : Fin 128) :
    Host.gather gather_S50000x128_S650000x1_S650000x128_1_0_n_n_0_1_1128 y
        (broadcastInDim S650000x1 ![0] bcast_S650000_S650000x1_0
          (select (cmpi .slt s (broadcastInDim S650000 ![] bcast_S_S650000 (constantI S_ 32 0#32)))
            (addi s (broadcastInDim S650000 ![] bcast_S_S650000 (constantI S_ 32 50000#32))) s)) (ix2 e c)
      = y (ix2 (gatherRow (s (ix1 e))) c) := by
  rw [show gather_S50000x128_S650000x1_S650000x128_1_0_n_n_0_1_1128 = Cert.LibIndex.rowsGather 50000 650000 128 gather_S50000x128_S650000x1_S650000x128_1_0_n_n_0_1_1128_wf from rfl,
    Cert.LibIndex.gather_rows_apply (by decide)]
  refine congrArg (fun r => y (ix2 r c)) (Fin.ext ?_)
  rw [Cert.LibIndex.gatherRow_eq]
  exact congrArg (fun w : BitVec 32 => min w.toInt.toNat 49999) (wrap_apply s e 0)

theorem scatter_apply (d : IVec S650000 32) (upd : FVec Ideal S650000x128 .f32) (i : Fin 50000) (c : Fin 128) :
    Host.scatterAdd scatter_S50000x128_S650000x1_S650000x128_1_0_0_1
        (broadcastInDim S50000x128 ![] bcast_S_S50000x128 (constant S_ .f32 0x00000000#32))
        (broadcastInDim S650000x1 ![0] bcast_S650000_S650000x1_0 d) upd (ix2 i c)
      = cZero + ∑ e ∈ Finset.univ.filter (fun e : Fin 650000 => scatterRow 50000 (d (ix1 e)) = some i), upd (ix2 e c) := by
  unfold Host.scatterAdd
  rw [Ideal.hostScatterAdd_def,
    show scatter_S50000x128_S650000x1_S650000x128_1_0_0_1 = Cert.LibIndex.rowsScatter 50000 650000 128 scatter_S50000x128_S650000x1_S650000x128_1_0_0_1_wf from rfl,
    Cert.LibIndex.scatterAdd_rows_apply, broadcastInDim_scalar_apply]
  exact congrArg (cZero + ·) (Finset.sum_congr (Finset.filter_congr fun e _ => by rw [bc_col]) fun _ _ => rfl)

variable (p x : FVec Ideal S50000x128 .f32) (m v : FVec Ideal S50000x1 .f32) (wt : FVec Ideal S128x128 .f32) (b g be : FVec Ideal S128 .f32)
  (s d : IVec S650000 32) (n : FVec Ideal S650000 .f32) (i : Fin 50000) (c : Fin 128) (z : Fin 1)

-- Before normalisation: features times weight, looked up per edge, scaled per edge, scattered by target into zeros, plus bias.
def preT : FVec Ideal S50000x128 .f32 :=
  addf
    (Host.scatterAdd scatter_S50000x128_S650000x1_S650000x128_1_0_0_1
      (broadcastInDim S50000x128 ![] bcast_S_S50000x128 (constant S_ .f32 0x00000000#32))
      (broadcastInDim S650000x1 ![0] bcast_S650000_S650000x1_0 d)
      (mulf
        (Host.gather gather_S50000x128_S650000x1_S650000x128_1_0_n_n_0_1_1128
          (Host.dotGeneral dot_S50000x128_S128x128_S50000x128_1_0_0_1_n_n none x wt)
          (broadcastInDim S650000x1 ![0] bcast_S650000_S650000x1_0
            (select (cmpi .slt s (broadcastInDim S650000 ![] bcast_S_S650000 (constantI S_ 32 0#32)))
              (addi s (broadcastInDim S650000 ![] bcast_S_S650000 (constantI S_ 32 50000#32))) s)))
        (broadcastInDim S650000x128 ![0, 1] bcast_S650000x1_S650000x128_0_1
          (broadcastInDim S650000x1 ![0] bcast_S650000_S650000x1_0 n))))
    (rowB b)

theorem preT_apply : preT x wt b s d n (ix2 i c) = preRFrom x wt b s d n i c := by
  unfold preT preRFrom
  rw [addf_apply, scatter_apply, rowB_apply]
  refine congrArg (cZero + · + b (ix1 c)) (Finset.sum_congr rfl fun e _ => ?_)
  rw [mulf_apply, lookup_apply, dot_apply, bc_of_col, bc_col]

-- The rows' means as a column.
def meanT : FVec Ideal S50000x1 .f32 :=
  Host.divf
    (broadcastInDim S50000x1 ![0] bcast_S50000_S50000x1_0
      (Host.reduceAdd p (constant S_ .f32 0x00000000#32) reducesTo_S50000x128_S50000_d1 h_S_))
    (broadcastInDim S50000x1 ![] bcast_S_S50000x1 (constant S_ .f32 0x43000000#32))

-- The row sum from the zero word is the plain sum over the 128 features.
theorem meanT_apply : meanT p (ix2 i z) = rowMean p i := by
  unfold meanT rowMean
  show Ideal.div _ _ = _
  rw [bc_col, broadcastInDim_scalar_apply, hostReduceAdd_apply, Ideal.hostReduceAdd_single reducesTo_S50000x128_S50000_d1 (by decide),
    show (constant (F := Ideal) S_ .f32 0x00000000#32) (Shape.Idx.first h_S_) = 0 from Ideal.ofBits_zero_f32, zero_add]
  refine congrArg (Ideal.div · _) (Finset.sum_congr rfl fun k _ => congrArg p (funext fun a => Fin.ext ?_))
  match a with
  | ⟨0, _⟩ => rfl
  | ⟨1, _⟩ => rfl

-- The rows' variances as a column: the means of the squared deviations from the column `m`.
def varT : FVec Ideal S50000x1 .f32 :=
  meanT (mulf (subf p (colB m)) (subf p (colB m)))

theorem varT_apply : varT p (meanT p) (ix2 i z) = rowVar p i := by
  unfold varT rowVar
  rw [meanT_apply]
  refine congrArg (Ideal.div · c128) (Finset.sum_congr rfl fun j _ => ?_)
  rw [mulf_apply, subf_apply, colB, bc_of_col, meanT_apply]

-- Normalisation, scale, shift and the residual.
def normT : FVec Ideal S50000x128 .f32 :=
  addf
    (addf
      (mulf
        (mulf (subf p (colB m))
          (colB (Host.rsqrt (addf v (broadcastInDim S50000x1 ![] bcast_S_S50000x1 (constant S_ .f32 0x3727C5AC#32))))))
        (rowB g))
      (rowB be))
    x

theorem normT_apply :
    normT p x (meanT p) (varT p (meanT p)) g be (ix2 i c)
      = (p (ix2 i c) - rowMean p i) * Ideal.rsqrt (rowVar p i + cEps) * g (ix1 c) + be (ix1 c) + x (ix2 i c) := by
  unfold normT colB
  rw [addf_apply, addf_apply, mulf_apply, mulf_apply, subf_apply, bc_of_col, meanT_apply, bc_of_col, rowB_apply, rowB_apply]
  show _ * Ideal.rsqrt (varT p (meanT p) (ix2 i 0) + _) * _ + _ + _ = _
  rw [varT_apply, broadcastInDim_scalar_apply]
  rfl

-- SiLU: the value times one over one plus the exponential of its negation.
def siluT : FVec Ideal S50000x128 .f32 :=
  mulf p
    (Host.divf (broadcastInDim S50000x128 ![] bcast_S_S50000x128 (constant S_ .f32 0x3F800000#32))
      (addf (broadcastInDim S50000x128 ![] bcast_S_S50000x128 (constant S_ .f32 0x3F800000#32)) (Host.exp (Host.negf p))))

theorem siluT_apply (y : S50000x128.Idx) : siluT p y = p y * Ideal.logistic (p y) := by
  unfold siluT Ideal.logistic
  rw [mulf_apply]
  show _ * Ideal.div _ (_ + Ideal.exp (-(p y))) = _
  rw [broadcastInDim_scalar_apply, show (constant (F := Ideal) S_ .f32 0x3F800000#32) ix0 = 1 from Cert.Alg.cOne_eq]

-- The whole layer as one term of its eight arrays.
def layerT : FVec Ideal S50000x128 .f32 :=
  siluT (normT (preT x wt b s d n) x (meanT (preT x wt b s d n)) (varT (preT x wt b s d n) (meanT (preT x wt b s d n))) g be)

theorem layerT_eq : layerT x wt b g be s d n = layerRFrom x wt b g be s d n := by
  have ext2 {f f' : S50000x128.Idx → EReal} (h : ∀ i c, f (ix2 i c) = f' (ix2 i c)) : f = f' :=
    funext fun y => eq_ix2 y ▸ h (y 0) (y 1)
  have hp : preT x wt b s d n = fun y => preRFrom x wt b s d n (y 0) (y 1) := ext2 (preT_apply x wt b s d n)
  refine ext2 fun i c => ?_
  unfold layerT layerRFrom Cert.Spec.post
  rw [siluT_apply, normT_apply, hp]

end Cert.ReferenceIdeal.RefRun

end
-- ==== Proof.Ref.Layer1.lean ====
import proofs.«411758_j88313117540961_2_alg».proof.Proof.Ref.Chunks
import proofs.«411758_j88313117540961_2_alg».proof.Proof.Ref.LayerLib

namespace Cert.ReferenceIdeal.RefRun

open Cert.ReferenceIdeal Cert.ReferenceIdeal.Gen Idealize.ShloMosaic Idealize.ShloMosaic.TcCoe Idealize.SL.Sem Idealize.ShloMosaic.StableHlo

-- The stretch cut out of the operations and evaluated one by one is the layer's composed term of its eight input arrays.
theorem layer1_v72 (W : Valuation τ sig (Elt Ideal)) :
    StableHlo.after (opsL1 (F := Ideal)) W (Proc.devRef .tc main_v72)
      = Cert.Spec.layerRFrom (W (Proc.devRef .tc main_arg0)) (W (Proc.devRef .tc main_arg3)) (W (Proc.devRef .tc main_arg4))
          (W (Proc.devRef .tc main_arg5)) (W (Proc.devRef .tc main_arg6)) (W (Proc.devRef .tc main_v3))
          (W (Proc.devRef .tc main_v6)) (W (Proc.devRef .tc main_v29)) := by
  rw [← layerT_eq]
  dsimp only [opsL1, chunk, List.drop, List.take]
  after_results_simp
  rfl

end Cert.ReferenceIdeal.RefRun
-- ==== Proof.Ref.Layer2.lean ====
import proofs.«411758_j88313117540961_2_alg».proof.Proof.Ref.Chunks
import proofs.«411758_j88313117540961_2_alg».proof.Proof.Ref.LayerLib

namespace Cert.ReferenceIdeal.RefRun

open Cert.ReferenceIdeal Cert.ReferenceIdeal.Gen Idealize.ShloMosaic Idealize.ShloMosaic.TcCoe Idealize.SL.Sem Idealize.ShloMosaic.StableHlo

-- The stretch cut out of the operations and evaluated one by one is the layer's composed term of its eight input arrays.
theorem layer2_v115 (W : Valuation τ sig (Elt Ideal)) :
    StableHlo.after (opsL2 (F := Ideal)) W (Proc.devRef .tc main_v115)
      = Cert.Spec.layerRFrom (W (Proc.devRef .tc main_v72)) (W (Proc.devRef .tc main_arg7)) (W (Proc.devRef .tc main_arg8))
          (W (Proc.devRef .tc main_arg9)) (W (Proc.devRef .tc main_arg10)) (W (Proc.devRef .tc main_v3))
          (W (Proc.devRef .tc main_v6)) (W (Proc.devRef .tc main_v29)) := by
  rw [← layerT_eq]
  dsimp only [opsL2, chunk, List.drop, List.take]
  after_results_simp
  rfl

end Cert.ReferenceIdeal.RefRun
-- ==== Proof.Ref.Layer3.lean ====
import proofs.«411758_j88313117540961_2_alg».proof.Proof.Ref.Chunks
import proofs.«411758_j88313117540961_2_alg».proof.Proof.Ref.LayerLib

namespace Cert.ReferenceIdeal.RefRun

open Cert.ReferenceIdeal Cert.ReferenceIdeal.Gen Idealize.ShloMosaic Idealize.ShloMosaic.TcCoe Idealize.SL.Sem Idealize.ShloMosaic.StableHlo

-- The stretch cut out of the operations and evaluated one by one is the layer's composed term of its eight input arrays.
theorem layer3_v158 (W : Valuation τ sig (Elt Ideal)) :
    StableHlo.after (opsL3 (F := Ideal)) W (Proc.devRef .tc main_v158)
      = Cert.Spec.layerRFrom (W (Proc.devRef .tc main_v115)) (W (Proc.devRef .tc main_arg11)) (W (Proc.devRef .tc main_arg12))
          (W (Proc.devRef .tc main_arg13)) (W (Proc.devRef .tc main_arg14)) (W (Proc.devRef .tc main_v3))
          (W (Proc.devRef .tc main_v6)) (W (Proc.devRef .tc main_v29)) := by
  rw [← layerT_eq]
  dsimp only [opsL3, chunk, List.drop, List.take]
  after_results_simp
  rfl

end Cert.ReferenceIdeal.RefRun
-- ==== Proof.Ref.PoolR.lean ====
import proofs.«411758_j88313117540961_2_alg».proof.Proof.Ref.Chunks
import Idealize.ShloMosaic.Lib.StableHlo.Run
import Idealize.ShloMosaic.Lib.ValueIdx
import Idealize.ShloMosaic.Lib.IdealHost
import Idealize.ShloMosaic.Lib.Pipeline.Value
import Idealize.ShloMosaic.PureOps.Ideal.Laws
import proofs.«411758_j88313117540961_2_alg».proof.Proof.Spec
import proofs.«411758_j88313117540961_2_alg».proof.Proof.LibIndex

noncomputable section

namespace Cert.ReferenceIdeal.RefRun

open Cert.ReferenceIdeal Cert.ReferenceIdeal.Gen Cert.ReferenceIdeal.ValueP Cert.Spec Idealize.ShloMosaic Idealize.ShloMosaic.ValueIdx
open Idealize.ShloMosaic.TcCoe Idealize.SL.Sem Idealize.ShloMosaic.StableHlo

theorem pool_col_eq {α : Type} (b : S50000.Idx → α) :
    broadcastInDim S50000x1 ![0] bcast_S50000_S50000x1_0 b = fun j => b (ix1 (j 0)) :=
  funext fun j => broadcastInDim_apply _ bcast_S50000_S50000x1_0 b j (ix1 (j 0)) (fun a => match a with
    | ⟨0, _⟩ => by show (j 0).val = if (50000 : Nat) = 1 then 0 else (j 0).val; rw [if_neg (by decide)])

theorem pool_spread_apply {α : Type} (m : S128.Idx → α) (i c : Fin 128) :
    broadcastInDim S128x128 ![0, 1] bcast_S128x1_S128x128_0_1
      (broadcastInDim S128x1 ![0] bcast_S128_S128x1_0 m) (ix2 i c) = m (ix1 i) := by
  rw [broadcastInDim_apply _ bcast_S128x1_S128x128_0_1 _ (ix2 i c) (ix2 i 0) (fun a => match a with
    | ⟨0, _⟩ => by show i.val = if (128 : Nat) = 1 then 0 else i.val; rw [if_neg (by decide)]
    | ⟨1, _⟩ => by show 0 = if (1 : Nat) = 1 then 0 else c.val; rw [if_pos rfl])]
  exact broadcastInDim_apply _ bcast_S128_S128x1_0 m (ix2 i 0) (ix1 i) (fun a => match a with
    | ⟨0, _⟩ => by show i.val = if (128 : Nat) = 1 then 0 else i.val; rw [if_neg (by decide)])

theorem pool_splat_eq {T : Shape} (h : S_.BroadcastsInDim T ![]) (w : BitVec 32) :
    broadcastInDim T ![] h (constant (F := Ideal) S_ .f32 w) = fun _ => Ideal.ofBits .f32 w :=
  funext fun j => broadcastInDim_scalar_apply h _ j

/-- Graph `i`'s count: a one for every node whose word names it. -/
theorem pool_counts_apply (b : S50000.Idx → BitVec 32) (i : Fin 128) :
    Ideal.hostScatterAdd scatter_S128_S50000x1_S50000_n_0_0_1
        (broadcastInDim S128 ![] bcast_S_S128 (constant (F := Ideal) S_ .f32 0x00000000#32))
        (broadcastInDim S50000x1 ![0] bcast_S50000_S50000x1_0 b)
        (broadcastInDim S50000 ![] bcast_S_S50000 (constant (F := Ideal) S_ .f32 0x3F800000#32)) (ix1 i) =
      cZero + ∑ n ∈ Finset.univ.filter (fun n : Fin 50000 => scatterRow 128 (b (ix1 n)) = some i), cOne := by
  rw [pool_col_eq, pool_splat_eq, pool_splat_eq,
    show scatter_S128_S50000x1_S50000_n_0_0_1 = Cert.LibIndex.vecScatter 128 50000 (by decide) from rfl,
    Cert.LibIndex.scatterAdd_vec_apply]

/-- Graph `i`'s sum of feature `c` over the same nodes. -/
theorem pool_sums_apply (x : S50000x128.Idx → EReal) (b : S50000.Idx → BitVec 32) (i c : Fin 128) :
    Ideal.hostScatterAdd scatter_S128x128_S50000x1_S50000x128_1_0_0_1
        (broadcastInDim S128x128 ![] bcast_S_S128x128 (constant (F := Ideal) S_ .f32 0x00000000#32))
        (broadcastInDim S50000x1 ![0] bcast_S50000_S50000x1_0 b) x (ix2 i c) =
      cZero + ∑ n ∈ Finset.univ.filter (fun n : Fin 50000 => scatterRow 128 (b (ix1 n)) = some i), x (ix2 n c) := by
  rw [pool_col_eq, pool_splat_eq,
    show scatter_S128x128_S50000x1_S50000x128_1_0_0_1 = Cert.LibIndex.rowsScatter 128 50000 128 (by decide) from rfl,
    Cert.LibIndex.scatterAdd_rows_apply]

set_option maxRecDepth 8192 in
set_option maxHeartbeats 4000000 in
/-- The last sixteen operations leave the mean of each graph's feature rows. -/
theorem pool_v170 (W : Valuation τ sig (Elt Ideal)) :
    StableHlo.after opsQ W (Proc.devRef .tc main_v170) =
      Cert.Spec.poolR (W (Proc.devRef .tc main_v158)) (W (Proc.devRef .tc main_arg2)) := by
  dsimp only [opsQ, ops, List.drop]
  after_results_simp
  funext y
  obtain ⟨i, c, rfl⟩ : ∃ i c : Fin 128, y = ix2 i c := ⟨y 0, y 1, eq_ix2 y⟩
  rw [hostDivf_apply, pool_spread_apply, maximumf_apply]
  unfold Host.scatterAdd
  rw [Ideal.hostScatterAdd_def, Ideal.hostScatterAdd_def, pool_sums_apply, pool_counts_apply, pool_splat_eq]
  rfl

end Cert.ReferenceIdeal.RefRun

end
-- ==== Proof.Ref.Value.lean ====
import proofs.«411758_j88313117540961_2_alg».proof.Proof.Ref.Run
import proofs.«411758_j88313117540961_2_alg».proof.Proof.Ref.Prefix
import proofs.«411758_j88313117540961_2_alg».proof.Proof.Ref.Layer1
import proofs.«411758_j88313117540961_2_alg».proof.Proof.Ref.Layer2
import proofs.«411758_j88313117540961_2_alg».proof.Proof.Ref.Layer3
import proofs.«411758_j88313117540961_2_alg».proof.Proof.Ref.PoolR

noncomputable section

namespace Cert.ReferenceIdeal.RefRun

open Cert.ReferenceIdeal Cert.ReferenceIdeal.Gen Cert.ReferenceIdeal.ValueP Idealize.ShloMosaic Idealize.ShloMosaic.TcCoe Idealize.SL.Sem Idealize.ShloMosaic.StableHlo

/-- The five stretches in turn: the pooling of three layers over the normalised edges. -/
theorem after_ops_v170 (V : Valuation τ sig (Elt Ideal)) :
    after ops V (Proc.devRef .tc main_v170) =
      Cert.Spec.refOut (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7))
        (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) := by
  rw [after_ops, pool_v170, layer3_v158, layer2_v115, layer1_v72]
  repeat first
    | rw [prefix_v3] | rw [prefix_v6] | rw [prefix_v29]
    | (rw [after_chunk_of]; rotate_left; decide)
  rfl

theorem value_run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v170) =
        Cert.Spec.refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
          (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))
      ∧ ArgsKept m r.2.mem c) :=
  (θ_run defs _ _).mono (fun _ h c => ⟨(h c _).trans (after_ops_v170 _), argsKept_of (h c)⟩) (run_ops m ρ)

end Cert.ReferenceIdeal.RefRun

end
-- ==== Proof.PreReal.lean ====
import proofs.«411758_j88313117540961_2_alg».proof.Defs
import proofs.«411758_j88313117540961_2_alg».proof.Proof.Spec
import Idealize.ShloMosaic.Lib.ReduceAll
import Idealize.ShloMosaic.Lib.ValueIdx

noncomputable section

namespace Cert.PreReal

open Idealize.ShloMosaic Idealize.ShloMosaic.ValueIdx Cert.Pre_finite_inputs

instance : Subsingleton S_.Idx := ⟨fun a b => funext fun d => d.elim0⟩

theorem inf_eq_top : Ideal.ofBits .f32 0x7F800000#32 = (⊤ : EReal) := by
  simp [Ideal.ofBits, Ideal.ieee]

theorem real_of_abs_lt_top (x : EReal) (h : max x (-x) < ⊤) : ∃ r : ℝ, x = (r : EReal) := by
  induction x using EReal.rec with
  | bot => simp at h
  | coe r => exact ⟨r, rfl⟩
  | top => simp at h

theorem isReal_of_all {s : Shape} {axes : List (Fin s.rank)} (x : FVec Ideal s .f32)
    (bc : S_.BroadcastsInDim s (![] : Fin 0 → Fin s.rank)) (hr : s.ReducesTo axes S_) (hu : 0 < S_.numel)
    (e : Host.reduce IntOp.andi (cmpf .olt (Host.absf x) (broadcastInDim s ![] bc (constant (F := Ideal) S_ .f32 0x7F800000#32)))
      (constantI S_ 1 1#1) hr hu ix0 = 1#1) :
    Cert.Spec.IsReal (s := s) x := by
  intro i
  have h1 := Host.reduce_andi_all _ _ hr hu ix0 e i
  have h2 : Ideal.cmp .olt (max (x i) (-(x i))) (Ideal.ofBits .f32 0x7F800000#32) = 1#1 := h1
  rw [inf_eq_top] at h2
  refine real_of_abs_lt_top (x i) ?_
  by_contra hn
  simp [Ideal.cmp, hn] at h2

variable [Facts]

theorem real_of_pre (m : (ℓ : Loc Cert.KernelIdeal.nD Cert.KernelIdeal.τ Cert.KernelIdeal.sig) → Buf (Elt Ideal) ℓ)
    (h : Cert.Pre_KernelIdeal m) (c : Dev Cert.KernelIdeal.nD) :
    Cert.Spec.IsReal (s := Cert.Spec.SND) (m ((c.tc : Thread Cert.KernelIdeal.nD Cert.KernelIdeal.τ).loc Cert.KernelIdeal.main_arg0))
      ∧ Cert.Spec.IsReal (s := Cert.Spec.SDD) (m ((c.tc : Thread Cert.KernelIdeal.nD Cert.KernelIdeal.τ).loc Cert.KernelIdeal.main_arg3))
      ∧ Cert.Spec.IsReal (s := Cert.Spec.SD) (m ((c.tc : Thread Cert.KernelIdeal.nD Cert.KernelIdeal.τ).loc Cert.KernelIdeal.main_arg4))
      ∧ Cert.Spec.IsReal (s := Cert.Spec.SD) (m ((c.tc : Thread Cert.KernelIdeal.nD Cert.KernelIdeal.τ).loc Cert.KernelIdeal.main_arg5))
      ∧ Cert.Spec.IsReal (s := Cert.Spec.SD) (m ((c.tc : Thread Cert.KernelIdeal.nD Cert.KernelIdeal.τ).loc Cert.KernelIdeal.main_arg6))
      ∧ Cert.Spec.IsReal (s := Cert.Spec.SDD) (m ((c.tc : Thread Cert.KernelIdeal.nD Cert.KernelIdeal.τ).loc Cert.KernelIdeal.main_arg7))
      ∧ Cert.Spec.IsReal (s := Cert.Spec.SD) (m ((c.tc : Thread Cert.KernelIdeal.nD Cert.KernelIdeal.τ).loc Cert.KernelIdeal.main_arg8))
      ∧ Cert.Spec.IsReal (s := Cert.Spec.SD) (m ((c.tc : Thread Cert.KernelIdeal.nD Cert.KernelIdeal.τ).loc Cert.KernelIdeal.main_arg9))
      ∧ Cert.Spec.IsReal (s := Cert.Spec.SD) (m ((c.tc : Thread Cert.KernelIdeal.nD Cert.KernelIdeal.τ).loc Cert.KernelIdeal.main_arg10))
      ∧ Cert.Spec.IsReal (s := Cert.Spec.SDD) (m ((c.tc : Thread Cert.KernelIdeal.nD Cert.KernelIdeal.τ).loc Cert.KernelIdeal.main_arg11))
      ∧ Cert.Spec.IsReal (s := Cert.Spec.SD) (m ((c.tc : Thread Cert.KernelIdeal.nD Cert.KernelIdeal.τ).loc Cert.KernelIdeal.main_arg12))
      ∧ Cert.Spec.IsReal (s := Cert.Spec.SD) (m ((c.tc : Thread Cert.KernelIdeal.nD Cert.KernelIdeal.τ).loc Cert.KernelIdeal.main_arg13))
      ∧ Cert.Spec.IsReal (s := Cert.Spec.SD) (m ((c.tc : Thread Cert.KernelIdeal.nD Cert.KernelIdeal.τ).loc Cert.KernelIdeal.main_arg14)) := by
  have h := congrFun (h c) ix0
  dsimp only [fn, fn_part1, fn_part2, fn_part3, andi] at h
  obtain ⟨h, h14⟩ := IntOp.andi_eq_one.1 h
  obtain ⟨h, h13⟩ := IntOp.andi_eq_one.1 h
  obtain ⟨h, h12⟩ := IntOp.andi_eq_one.1 h
  obtain ⟨h, h11⟩ := IntOp.andi_eq_one.1 h
  obtain ⟨h, h10⟩ := IntOp.andi_eq_one.1 h
  obtain ⟨h, h9⟩ := IntOp.andi_eq_one.1 h
  obtain ⟨h, h8⟩ := IntOp.andi_eq_one.1 h
  obtain ⟨h, h7⟩ := IntOp.andi_eq_one.1 h
  obtain ⟨h, h6⟩ := IntOp.andi_eq_one.1 h
  obtain ⟨h, h5⟩ := IntOp.andi_eq_one.1 h
  obtain ⟨h, h4⟩ := IntOp.andi_eq_one.1 h
  obtain ⟨h0, h3⟩ := IntOp.andi_eq_one.1 h
  exact ⟨isReal_of_all _ _ _ _ h0, isReal_of_all _ _ _ _ h3, isReal_of_all _ _ _ _ h4, isReal_of_all _ _ _ _ h5,
    isReal_of_all _ _ _ _ h6, isReal_of_all _ _ _ _ h7, isReal_of_all _ _ _ _ h8, isReal_of_all _ _ _ _ h9,
    isReal_of_all _ _ _ _ h10, isReal_of_all _ _ _ _ h11, isReal_of_all _ _ _ _ h12, isReal_of_all _ _ _ _ h13,
    isReal_of_all _ _ _ _ h14⟩

end Cert.PreReal

end
-- ==== Proof.AlgLinear.lean ====
import proofs.«411758_j88313117540961_2_alg».proof.Proof.Spec
import proofs.«411758_j88313117540961_2_alg».proof.Proof.AlgReal
import Idealize.ShloMosaic.PureOps.Ideal
import Idealize.ShloMosaic.Lib.ValueIdx
import Mathlib.Data.EReal.Basic
import Mathlib.Data.EReal.Operations
import Mathlib.Algebra.BigOperators.Fin
import Mathlib.Algebra.BigOperators.Ring.Finset

noncomputable section

namespace Cert.Alg

open Idealize.ShloMosaic Idealize.ShloMosaic.ValueIdx Cert.Spec

theorem real_agg_comm {E : Type*} {K : ℕ} (F : Finset E) (a : E → Fin K → ℝ) (n : E → ℝ)
    (xi w : Fin K → ℝ) (d2 : ℝ) :
    ∑ k, ((∑ e ∈ F, a e k * n e) + d2 * xi k) * w k
      = (∑ e ∈ F, (∑ k, a e k * w k) * n e) + (∑ k, xi k * w k) * d2 := by
  simp only [add_mul, Finset.sum_add_distrib, Finset.sum_mul]
  congr 1
  · rw [Finset.sum_comm]
    exact Finset.sum_congr rfl fun e _ => Finset.sum_congr rfl fun k _ => by ring
  · exact Finset.sum_congr rfl fun k _ => by ring

theorem ereal_agg_comm {E : Type*} {K : ℕ} (F : Finset E) (a : E → Fin K → EReal) (n : E → EReal)
    (xi w : Fin K → EReal) (d2 : EReal)
    (ha : ∀ e k, ∃ r : ℝ, a e k = (r : EReal)) (hn : ∀ e, ∃ r : ℝ, n e = (r : EReal))
    (hxi : ∀ k, ∃ r : ℝ, xi k = (r : EReal)) (hw : ∀ k, ∃ r : ℝ, w k = (r : EReal))
    (hd2 : ∃ r : ℝ, d2 = (r : EReal)) :
    ∑ k, (((0 : EReal) + ∑ e ∈ F, a e k * n e) + d2 * xi k) * w k
      = (0 : EReal) + ((∑ e ∈ F, (∑ k, a e k * w k) * n e) + (∑ k, xi k * w k) * d2) := by
  choose ar har using ha
  choose nr hnr using hn
  choose xir hxir using hxi
  choose wr hwr using hw
  obtain ⟨dr, rfl⟩ := hd2
  simp only [har, hnr, hxir, hwr, zero_add, ← EReal.coe_mul, coe_sum, ← EReal.coe_add]
  exact congrArg _ (real_agg_comm F ar nr xir wr dr)

theorem toInt_ofNat_node (i : Fin 50000) : (BitVec.ofNat 32 i.val).toInt = (i.val : ℤ) := by
  have hi := i.isLt
  rw [BitVec.toInt_eq_toNat_cond, BitVec.toNat_ofNat, Nat.mod_eq_of_lt (by omega)]
  split <;> omega

theorem gatherRow_ofNat (i : Fin 50000) : gatherRow (BitVec.ofNat 32 i.val) = i := by
  have hi := i.isLt
  have h := toInt_ofNat_node i
  apply Fin.ext
  unfold gatherRow
  simp only [h]
  rw [if_neg (by omega)]
  simp only [h]
  omega

theorem srcW_castAdd (edge : S2E.Idx → BitVec 32) (e : Fin 600000) :
    srcW edge (Fin.castAdd 50000 e) = edge (ix2 0 e) :=
  dif_pos (show (Fin.castAdd 50000 e).val < 600000 from e.isLt)

theorem dstW_castAdd (edge : S2E.Idx → BitVec 32) (e : Fin 600000) :
    dstW edge (Fin.castAdd 50000 e) = edge (ix2 1 e) :=
  dif_pos (show (Fin.castAdd 50000 e).val < 600000 from e.isLt)

theorem srcW_natAdd (edge : S2E.Idx → BitVec 32) (i : Fin 50000) :
    srcW edge (Fin.natAdd 600000 i) = BitVec.ofNat 32 i.val := by
  have hv : (Fin.natAdd 600000 i).val = 600000 + i.val := rfl
  have hsub : (Fin.natAdd 600000 i).val - 600000 = i.val := by omega
  unfold srcW
  rw [dif_neg (show ¬ (Fin.natAdd 600000 i).val < 600000 by omega), hsub]

theorem dstW_natAdd (edge : S2E.Idx → BitVec 32) (i : Fin 50000) :
    dstW edge (Fin.natAdd 600000 i) = BitVec.ofNat 32 i.val :=
  dstW_self edge i

theorem sum_filter_split {M N : ℕ} (P : Fin (M + N) → Prop) [DecidablePred P] (f : Fin (M + N) → EReal) :
    ∑ e ∈ Finset.univ.filter P, f e
      = ∑ e ∈ Finset.univ.filter (fun e : Fin M => P (Fin.castAdd N e)), f (Fin.castAdd N e)
        + ∑ e ∈ Finset.univ.filter (fun e : Fin N => P (Fin.natAdd M e)), f (Fin.natAdd M e) := by
  simp only [Finset.sum_filter]
  exact Fin.sum_univ_add _

theorem sum_edges_split (edge : S2E.Idx → BitVec 32) (i : Fin 50000) (Φ : BitVec 32 → BitVec 32 → EReal) :
    ∑ e ∈ Finset.univ.filter (fun e : Fin 650000 => scatterRow 50000 (dstW edge e) = some i),
        Φ (srcW edge e) (dstW edge e)
      = ∑ e ∈ Finset.univ.filter (fun e : Fin 600000 => scatterRow 50000 (edge (ix2 1 e)) = some i),
          Φ (edge (ix2 0 e)) (edge (ix2 1 e))
        + Φ (BitVec.ofNat 32 i.val) (BitVec.ofNat 32 i.val) := by
  refine (sum_filter_split (M := 600000) (N := 50000)
    (fun e => scatterRow 50000 (dstW edge e) = some i) (fun e => Φ (srcW edge e) (dstW edge e))).trans ?_
  have hself : ∑ e ∈ Finset.univ.filter (fun e : Fin 50000 => e = i),
      Φ (BitVec.ofNat 32 e.val) (BitVec.ofNat 32 e.val) = Φ (BitVec.ofNat 32 i.val) (BitVec.ofNat 32 i.val) := by
    rw [Finset.sum_filter, Finset.sum_ite_eq' Finset.univ i]
    simp only [Finset.mem_univ, if_true]
  simp only [srcW_castAdd, dstW_castAdd, srcW_natAdd, dstW_natAdd, scatterRow_self, Option.some.injEq]
  rw [hself]

theorem preKAt_eq_preRAt {x : SND.Idx → EReal} {W : SDD.Idx → EReal} {b : SD.Idx → EReal}
    (edge : S2E.Idx → BitVec 32)
    (hx : IsReal x) (hW : IsReal W) (hd : ∀ i, ∃ r : ℝ, dinv edge i = (r : EReal)) (h0 : cZero = 0)
    (i : Fin 50000) (j : Fin 128) :
    preKAt x W b edge i j = preRAt x W b edge i j := by
  unfold preKAt preRAt
  refine congrArg (· + b (ix1 j)) ?_
  have hsplit := sum_edges_split edge i
    (fun s t => (∑ k : Fin 128, x (ix2 (gatherRow s) k) * W (ix2 k j)) * (dinv edge (gatherRow s) * dinv edge (gatherRow t)))
  simp only [gatherRow_ofNat] at hsplit
  unfold Cert.Spec.norm
  rw [hsplit]
  unfold aggK
  rw [h0]
  refine ereal_agg_comm _ (fun e k => x (ix2 (gatherRow (edge (ix2 0 e))) k)) (fun e => normR edge e)
    (fun k => x (ix2 i k)) (fun k => W (ix2 k j)) (dinv edge i * dinv edge i) ?_ ?_ ?_ ?_ ?_
  · exact fun e k => hx _
  · intro e
    obtain ⟨r1, h1⟩ := hd (gatherRow (edge (ix2 0 e)))
    obtain ⟨r2, h2⟩ := hd (gatherRow (edge (ix2 1 e)))
    exact ⟨r1 * r2, by unfold normR; rw [h1, h2, EReal.coe_mul]⟩
  · exact fun k => hx _
  · exact fun k => hW _
  · obtain ⟨r, h⟩ := hd i
    exact ⟨r * r, by rw [h, EReal.coe_mul]⟩

theorem preK_eq_preR {x : SND.Idx → EReal} {W : SDD.Idx → EReal} {b : SD.Idx → EReal} (edge : S2E.Idx → BitVec 32)
    (hx : IsReal x) (hW : IsReal W) (hd : ∀ i, ∃ r : ℝ, dinv edge i = (r : EReal)) (h0 : cZero = 0) :
    preK x W b edge = preR x W b edge := by
  funext y
  exact preKAt_eq_preRAt edge hx hW hd h0 (y 0) (y 1)

end Cert.Alg

end
-- ==== Proof.lean ====
/-
  Three graph-convolution layers and a mean pool. The reference multiplies by the weight and then sums over edges;
  the kernel program sums over edges first and multiplies afterwards. Summation over edges is linear, so on real
  inputs the two agree (Cert.Alg.preK_eq_preR), and a layer maps real entries to real entries (Cert.Alg.layerK_real).
  The pool's one-hot products equal the reference's scattered sums term by term (Cert.Alg.poolK_eq_poolR).
-/
import proofs.«411758_j88313117540961_2_alg».proof.Defs
import proofs.«411758_j88313117540961_2_alg».proof.Proof.Gen.Kernel
import proofs.«411758_j88313117540961_2_alg».proof.Proof.Gen.KernelIdeal
import proofs.«411758_j88313117540961_2_alg».proof.Proof.Gen.ReferenceIdeal
import proofs.«411758_j88313117540961_2_alg».proof.Proof.Gen.Pre_finite_inputs
import proofs.«411758_j88313117540961_2_alg».proof.Proof.K.Run
import proofs.«411758_j88313117540961_2_alg».proof.Proof.KI.Run
import proofs.«411758_j88313117540961_2_alg».proof.Proof.KI.Value
import proofs.«411758_j88313117540961_2_alg».proof.Proof.Ref.Value
import proofs.«411758_j88313117540961_2_alg».proof.Proof.PreReal
import proofs.«411758_j88313117540961_2_alg».proof.Proof.AlgReal
import proofs.«411758_j88313117540961_2_alg».proof.Proof.AlgLinear
import proofs.«411758_j88313117540961_2_alg».proof.Proof.AlgPool
import Idealize.ShloMosaic.Adequacy
import Idealize.ShloMosaic.Init

noncomputable section

namespace Cert.Proof

open Idealize.ShloMosaic Idealize.SL.Sem

theorem frame_p [Cert.Kernel.Facts] [Cert.Pre_finite_inputs.Facts] : Cert.frame_Kernel := fun m ρ _ => Cert.Kernel.Hand.frame m ρ

theorem frame_pi [Cert.KernelIdeal.Facts] [Cert.Pre_finite_inputs.Facts] : Cert.frame_KernelIdeal := fun m ρ _ => Cert.KernelIdeal.Hand.frame m ρ

theorem frame_ri [Cert.ReferenceIdeal.Facts] [Cert.Pre_finite_inputs.Facts] : Cert.frame_ReferenceIdeal := fun m ρ _ => Cert.ReferenceIdeal.RefRun.frame_run m ρ

theorem algebraic [Cert.KernelIdeal.Facts] [Cert.ReferenceIdeal.Facts] [Cert.Pre_finite_inputs.Facts] : Cert.algebraic_KernelIdeal_ReferenceIdeal := by
  intro m ρ m' ρ' hpre hagree
  refine ⟨fun c => Cert.Spec.kernelOut (m ((c.tc : Thread _ _).loc Cert.KernelIdeal.main_arg0)) (m ((c.tc : Thread _ _).loc Cert.KernelIdeal.main_arg1))
      (m ((c.tc : Thread _ _).loc Cert.KernelIdeal.main_arg2)) (m ((c.tc : Thread _ _).loc Cert.KernelIdeal.main_arg3)) (m ((c.tc : Thread _ _).loc Cert.KernelIdeal.main_arg4))
      (m ((c.tc : Thread _ _).loc Cert.KernelIdeal.main_arg5)) (m ((c.tc : Thread _ _).loc Cert.KernelIdeal.main_arg6)) (m ((c.tc : Thread _ _).loc Cert.KernelIdeal.main_arg7))
      (m ((c.tc : Thread _ _).loc Cert.KernelIdeal.main_arg8)) (m ((c.tc : Thread _ _).loc Cert.KernelIdeal.main_arg9)) (m ((c.tc : Thread _ _).loc Cert.KernelIdeal.main_arg10))
      (m ((c.tc : Thread _ _).loc Cert.KernelIdeal.main_arg11)) (m ((c.tc : Thread _ _).loc Cert.KernelIdeal.main_arg12)) (m ((c.tc : Thread _ _).loc Cert.KernelIdeal.main_arg13))
      (m ((c.tc : Thread _ _).loc Cert.KernelIdeal.main_arg14)),
    Cert.KernelIdeal.HandVal.kernel_value m ρ, ?_⟩
  refine (θ_run Cert.ReferenceIdeal.defs _ _).mono (fun _ h c => ⟨(h c).1.trans ?_, (h c).2⟩)
    (Cert.ReferenceIdeal.RefRun.value_run m' ρ')
  obtain ⟨h0, h1, h2, h3, h4, h5, h6, h7, h8, h9, h10, h11, h12, h13, h14⟩ := hagree c
  obtain ⟨r0, r3, r4, r5, r6, r7, r8, r9, r10, r11, r12, r13, r14⟩ := Cert.PreReal.real_of_pre m hpre c
  rw [h0, h1, h2, h3, h4, h5, h6, h7, h8, h9, h10, h11, h12, h13, h14]
  exact (Cert.Alg.kernelOut_eq_refOut_of (fun {_ _ _} edge => Cert.Alg.preK_eq_preR edge) (fun {_ _ _ _ _} edge => Cert.Alg.layerK_real edge)
    Cert.Alg.dinv_real Cert.Alg.cZero_eq Cert.Alg.cOne_eq r0 r3 r4 r5 r6 r7 r8 r9 r10 r11 r12 r13 r14).symm

end Cert.Proof

theorem Cert.Proof.claim : Cert.Claim :=
  ⟨Cert.Kernel.Gen.facts, Cert.KernelIdeal.Gen.facts, Cert.ReferenceIdeal.Gen.facts, Cert.Pre_finite_inputs.Gen.facts,
    @Cert.Proof.frame_p Cert.Kernel.Gen.facts Cert.Pre_finite_inputs.Gen.facts,
    @Cert.Proof.frame_pi Cert.KernelIdeal.Gen.facts Cert.Pre_finite_inputs.Gen.facts,
    @Cert.Proof.frame_ri Cert.ReferenceIdeal.Gen.facts Cert.Pre_finite_inputs.Gen.facts,
    trivial,
    @Cert.Proof.algebraic Cert.KernelIdeal.Gen.facts Cert.ReferenceIdeal.Gen.facts Cert.Pre_finite_inputs.Gen.facts⟩

end
